-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S65536 : Shape := ⟨1, ![65536]⟩
abbrev S2048x1024 : Shape := ⟨2, ![2048, 1024]⟩
abbrev S1024 : Shape := ⟨1, ![1024]⟩
abbrev S1024x1024 : Shape := ⟨2, ![1024, 1024]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg2 : IVec S65536 32) (main_v30 : IVec S_ 1) (main_v32 : IVec S65536 1) (main_c_12 : IVec S_ 32) : IVec S_ 1 :=
  let main_v33 : IVec S65536 32 := broadcastInDim S65536 ![] bcast_S_S65536 main_c_12
  let main_v34 : IVec S65536 1 := cmpi .slt main_arg2 main_v33
  let main_v35 : IVec S65536 1 := andi main_v32 main_v34
  let main_c_13 : IVec S_ 1 := constantI S_ 1 1#1
  let main_v36 : IVec S_ 1 := (fun x v => Host.reduce IntOp.andi x v reducesTo_S65536_S_d0 h_S_) main_v35 main_c_13
  let main_v37 : IVec S_ 1 := andi main_v30 main_v36
  main_v37

def fn_part1 {F : FTy → Type} [FloatOps F] (main_arg1 : IVec S65536 32) (main_arg2 : IVec S65536 32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S65536 32 := broadcastInDim S65536 ![] bcast_S_S65536 main_c_8
  let main_v25 : IVec S65536 1 := cmpi .sge main_arg1 main_v24
  let main_c_9 : IVec S_ 32 := constantI S_ 32 50000#32
  let main_v26 : IVec S65536 32 := broadcastInDim S65536 ![] bcast_S_S65536 main_c_9
  let main_v27 : IVec S65536 1 := cmpi .slt main_arg1 main_v26
  let main_v28 : IVec S65536 1 := andi main_v25 main_v27
  let main_c_10 : IVec S_ 1 := constantI S_ 1 1#1
  let main_v29 : IVec S_ 1 := (fun x v => Host.reduce IntOp.andi x v reducesTo_S65536_S_d0 h_S_) main_v28 main_c_10
  let main_v30 : IVec S_ 1 := andi main_v23 main_v29
  let main_c_11 : IVec S_ 32 := constantI S_ 32 0#32
  let main_v31 : IVec S65536 32 := broadcastInDim S65536 ![] bcast_S_S65536 main_c_11
  let main_v32 : IVec S65536 1 := cmpi .sge main_arg2 main_v31
  let main_c_12 : IVec S_ 32 := constantI S_ 32 50000#32
  fn_part2 (F := F) main_arg2 main_v30 main_v32 main_c_12

def fn {F : FTy → Type} [FloatOps F] (main_arg0 : FVec F S50000x1024 .f32) (main_arg1 : IVec S65536 32) (main_arg2 : IVec S65536 32) (main_arg3 : FVec F S2048x1024 .f32) (main_arg4 : FVec F S1024 .f32) (main_arg5 : FVec F S1024x1024 .f32) (main_arg6 : FVec F S1024 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg2 main_arg6 main_v13 main_v16
-- ==== Kernel.lean ====
abbrev S50000x1024 : Shape := ⟨2, ![50000, 1024]⟩
abbrev S65536 : Shape := ⟨1, ![65536]⟩
abbrev S2048x1024 : Shape := ⟨2, ![2048, 1024]⟩
abbrev S1024 : Shape := ⟨1, ![1024]⟩
abbrev S1024x1024 : Shape := ⟨2, ![1024, 1024]⟩
abbrev S65536x1024 : Shape := ⟨2, ![65536, 1024]⟩
abbrev S256x1024 : Shape := ⟨2, ![256, 1024]⟩
abbrev S256x2048 : Shape := ⟨2, ![256, 2048]⟩
abbrev S32 : Shape := ⟨1, ![32]⟩
abbrev S1 : Shape := ⟨1, ![1]⟩
abbrev S_ : Shape := ⟨0, ![]⟩
abbrev S1x1024 : Shape := ⟨2, ![1, 1024]⟩

abbrev nBuf : Space → Nat
  | .hbm => 8
  | .vmem => 7
  | .smem => 2
  | _ => 0

abbrev bufTy : (tb : Table) → Fin (tcTables nBuf tb) → BufTy
  | .hbm, ⟨0, _⟩ => ⟨S50000x1024, .f32⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S2048x1024, .bf16⟩
  | .hbm, ⟨6, _⟩ => ⟨S1024x1024, .bf16⟩
  | .hbm, ⟨7, _⟩ => ⟨S65536x1024, .f32⟩
  | .local _ .vmem, ⟨0, _⟩ => ⟨S2048x1024, .bf16⟩
  | .local _ .vmem, ⟨1, _⟩ => ⟨S1024, .f32⟩
  | .local _ .vmem, ⟨2, _⟩ => ⟨S1024x1024, .bf16⟩
  | .local _ .vmem, ⟨3, _⟩ => ⟨S1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .smem, ⟨0, _⟩ => ⟨S65536, .i32⟩
  | .local _ .smem, ⟨1, _⟩ => ⟨S65536, .i32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32_74 : BitVec 32 := 0#32
  let c0_i32_73 : BitVec 32 := 0#32
  let c0_i32 : BitVec 32 := 0#32
  let c1_i32 : BitVec 32 := 1#32
  let arg12 : BitVec 32 := Scf.iv c0_i32 c1_i32 k0_t1
  let c1_i32_72 : BitVec 32 := 1#32
  let v37 : BitVec 32 := Scalar.muli arg12 c1_i32_72
  let v38 : BitVec 32 := Scalar.addi c0_i32_73 v37
  let v39 : BitVec 32 := Scalar.addi c0_i32_74 v38
  let v40 : BitVec 32 := Scalar.addi v0 v39
  let v41 : Index := Scalar.indexCast v40
  ![v41.toNat]
def k0_off2 (k0_t1 : Fin k0_t1_loop.trips) : Fin 1 → Nat :=
  let c0_i32_73 : BitVec 32 := 0#32
  let c0_i32 : BitVec 32 := 0#32
  let c1_i32 : BitVec 32 := 1#32
  let arg12 : BitVec 32 := Scf.iv c0_i32 c1_i32 k0_t1
  let c1_i32_72 : BitVec 32 := 1#32
  let v37 : BitVec 32 := Scalar.muli arg12 c1_i32_72
  let v38 : BitVec 32 := Scalar.addi c0_i32_73 v37
  ![v38.toNat]
def k0_off3 (k0_t1 : Fin k0_t1_loop.trips) : Fin 2 → Nat :=
  let c0_i32_74 : BitVec 32 := 0#32
  let c0_i32_73 : BitVec 32 := 0#32
  let c0_i32 : BitVec 32 := 0#32
  let c1_i32 : BitVec 32 := 1#32
  let arg12 : BitVec 32 := Scf.iv c0_i32 c1_i32 k0_t1
  let c1_i32_72 : BitVec 32 := 1#32
  let v37 : BitVec 32 := Scalar.muli arg12 c1_i32_72
  let v38 : BitVec 32 := Scalar.addi c0_i32_73 v37
  let v39 : BitVec 32 := Scalar.addi c0_i32_74 v38
  let c0_i32_75 : BitVec 32 := 0#32
  ![v39.toNat, 0]
def k0_off4 (v42 : BitVec 32) : Fin 2 → Nat :=
  let c0_i32_76 : BitVec 32 := 0#32
  ![v42.toNat, 0]

def k0_chk1 (v42 : BitVec 32) : Prop :=
  (∀ a, (k0_off4 v42) a + S1x1024.size a ≤ S50000x1024.size a)
instance k0_chk1.dec : ∀ (v42 : BitVec 32), Decidable (k0_chk1 v42) := fun v42 => decidable_of_iff' _ (Iff.of_eq (k0_chk1.eq_1 v42))
theorem k0_off4_inb : ∀ (v42 : BitVec 32) (k0_hw1 : k0_chk1 v42), ∀ a, (k0_off4 v42) a + S1x1024.size a ≤ S50000x1024.size a := fun v42 k0_hw1 => k0_hw1

def k0_off5 (k0_t1 : Fin k0_t1_loop.trips) : Fin 1 → Nat :=
  let c0_i32_73 : BitVec 32 := 0#32
  let c0_i32 : BitVec 32 := 0#32
  let c1_i32 : BitVec 32 := 1#32
  let arg12 : BitVec 32 := Scf.iv c0_i32 c1_i32 k0_t1
  let c1_i32_72 : BitVec 32 := 1#32
  let v37 : BitVec 32 := Scalar.muli arg12 c1_i32_72
  let v38 : BitVec 32 := Scalar.addi c0_i32_73 v37
  ![v38.toNat]
def k0_off6 (k0_t1 : Fin k0_t1_loop.trips) : Fin 2 → Nat :=
  let c0_i32_74 : BitVec 32 := 0#32
  let c0_i32_73 : BitVec 32 := 0#32
  let c0_i32 : BitVec 32 := 0#32
  let c1_i32 : BitVec 32 := 1#32
  let arg12 : BitVec 32 := Scf.iv c0_i32 c1_i32 k0_t1
  let c1_i32_72 : BitVec 32 := 1#32
  let v37 : BitVec 32 := Scalar.muli arg12 c1_i32_72
  let v38 : BitVec 32 := Scalar.addi c0_i32_73 v37
  let v39 : BitVec 32 := Scalar.addi c0_i32_74 v38
  let c1024_i32 : BitVec 32 := 1024#32
  ![v39.toNat, 1024]
def k0_off7 (v44 : BitVec 32) : Fin 2 → Nat :=
  let c0_i32_77 : BitVec 32 := 0#32
  ![v44.toNat, 0]

def k0_chk2 (v44 : BitVec 32) : Prop :=
  (∀ a, (k0_off7 v44) a + S1x1024.size a ≤ S50000x1024.size a)
instance k0_chk2.dec : ∀ (v44 : BitVec 32), Decidable (k0_chk2 v44) := fun v44 => decidable_of_iff' _ (Iff.of_eq (k0_chk2.eq_1 v44))
theorem k0_off7_inb : ∀ (v44 : BitVec 32) (k0_hw2 : k0_chk2 v44), ∀ a, (k0_off7 v44) a + S1x1024.size a ≤ S50000x1024.size a := fun v44 k0_hw2 => k0_hw2

@[reducible] def k0_t2_loop : Scf.Loop 32 :=
  let c0_i32_1 : BitVec 32 := 0#32
  let c32_i32_2 : BitVec 32 := 32#32
  let v2 : BitVec 32 := Scalar.addi c0_i32_1 c32_i32_2
  let c1_i32_3 : BitVec 32 := 1#32
  ⟨c0_i32_1, v2, c1_i32_3⟩
def k0_off8 (k0_t2 : Fin k0_t2_loop.trips) : Fin 1 → Nat :=
  let c0_i32_73 : BitVec 32 := 0#32
  let c0_i32_1 : BitVec 32 := 0#32
  let c1_i32_3 : BitVec 32 := 1#32
  let arg12 : BitVec 32 := Scf.iv c0_i32_1 c1_i32_3 k0_t2
  let c1_i32_72 : BitVec 32 := 1#32
  let v37 : BitVec 32 := Scalar.muli arg12 c1_i32_72
  let v38 : BitVec 32 := Scalar.addi c0_i32_73 v37
  ![v38.toNat]
def k0_off9 (k0_t2 : Fin k0_t2_loop.trips) : Fin 2 → Nat :=
  let c0_i32_74 : BitVec 32 := 0#32
  let c0_i32_73 : BitVec 32 := 0#32
  let c0_i32_1 : BitVec 32 := 0#32
  let c1_i32_3 : BitVec 32 := 1#32
  let arg12 : BitVec 32 := Scf.iv c0_i32_1 c1_i32_3 k0_t2
  let c1_i32_72 : BitVec 32 := 1#32
  let v37 : BitVec 32 := Scalar.muli arg12 c1_i32_72
  let v38 : BitVec 32 := Scalar.addi c0_i32_73 v37
  let v39 : BitVec 32 := Scalar.addi c0_i32_74 v38
  let c0_i32_76 : BitVec 32 := 0#32
  ![v39.toNat, 0]
def k0_off10 (k0_t2 : Fin k0_t2_loop.trips) : Fin 2 → Nat :=
  let c0_i32_74 : BitVec 32 := 0#32
  let c0_i32_73 : BitVec 32 := 0#32
  let c0_i32_1 : BitVec 32 := 0#32
  let c1_i32_3 : BitVec 32 := 1#32
  let arg12 : BitVec 32 := Scf.iv c0_i32_1 c1_i32_3 k0_t2
  let c1_i32_72 : BitVec 32 := 1#32
  let v37 : BitVec 32 := Scalar.muli arg12 c1_i32_72
  let v38 : BitVec 32 := Scalar.addi c0_i32_73 v37
  let v39 : BitVec 32 := Scalar.addi c0_i32_74 v38
  let c1024_i32 : BitVec 32 := 1024#32
  ![v39.toNat, 1024]
@[reducible] def k0_t3_loop : Scf.Loop 32 :=
  let c0_i32_5 : BitVec 32 := 0#32
  let c32_i32_6 : BitVec 32 := 32#32
  let v3 : BitVec 32 := Scalar.addi c0_i32_5 c32_i32_6
  let c1_i32_7 : BitVec 32 := 1#32
  ⟨c0_i32_5, v3, c1_i32_7⟩
def k0_off11 (i : grid0.Coords) (k0_t3 : Fin k0_t3_loop.trips) : Fin 1 → Nat :=
  let arg0 : BitVec 32 := BitVec.ofNat 32 (i 0).val
  let c256_i32 : BitVec 32 := 256#32
  let v0 : BitVec 32 := Scalar.muli arg0 c256_i32
  let c32_i32_74 : BitVec 32 := 32#32
  let c0_i32_73 : BitVec 32 := 0#32
  let c0_i32_5 : BitVec 32 := 0#32
  let c1_i32_7 : BitVec 32 := 1#32
  let arg12 : BitVec 32 := Scf.iv c0_i32_5 c1_i32_7 k0_t3
  let c1_i32_72 : BitVec 32 := 1#32
  let v37 : BitVec 32 := Scalar.muli arg12 c1_i32_72
  let v38 : BitVec 32 := Scalar.addi c0_i32_73 v37
  let v39 : BitVec 32 := Scalar.addi c32_i32_74 v38
  let v40 : BitVec 32 := Scalar.addi v0 v39
  let v41 : Index := Scalar.indexCast v40
  ![v41.toNat]
def k0_off12 (k0_t3 : Fin k0_t3_loop.trips) : Fin 1 → Nat :=
  let c0_i32_73 : BitVec 32 := 0#32
  let c0_i32_5 : BitVec 32 := 0#32
  let c1_i32_7 : BitVec 32 := 1#32
  let arg12 : BitVec 32 := Scf.iv c0_i32_5 c1_i32_7 k0_t3
  let c1_i32_72 : BitVec 32 := 1#32
  let v37 : BitVec 32 := Scalar.muli arg12 c1_i32_72
  let v38 : BitVec 32 := Scalar.addi c0_i32_73 v37
  ![v38.toNat]
def k0_off13 (k0_t3 : Fin k0_t3_loop.trips) : Fin 2 → Nat :=
  let c32_i32_74 : BitVec 32 := 32#32
  let c0_i32_73 : BitVec 32 := 0#32
  let c0_i32_5 : BitVec 32 := 0#32
  let c1_i32_7 : BitVec 32 := 1#32
  let arg12 : BitVec 32 := Scf.iv c0_i32_5 c1_i32_7 k0_t3
  let c1_i32_72 : BitVec 32 := 1#32
  let v37 : BitVec 32 := Scalar.muli arg12 c1_i32_72
  let v38 : BitVec 32 := Scalar.addi c0_i32_73 v37
  let v39 : BitVec 32 := Scalar.addi c32_i32_74 v38
  let c0_i32_75 : BitVec 32 := 0#32
  ![v39.toNat, 0]
def k0_off14 (v42 : BitVec 32) : Fin 2 → Nat :=
  let c0_i32_76 : BitVec 32 := 0#32
  ![v42.toNat, 0]

def k0_chk3 (v42 : BitVec 32) : Prop :=
  (∀ a, (k0_off14 v42) a + S1x1024.size a ≤ S50000x1024.size a)
instance k0_chk3.dec : ∀ (v42 : BitVec 32), Decidable (k0_chk3 v42) := fun v42 => decidable_of_iff' _ (Iff.of_eq (k0_chk3.eq_1 v42))
theorem k0_off14_inb : ∀ (v42 : BitVec 32) (k0_hw3 : k0_chk3 v42), ∀ a, (k0_off14 v42) a + S1x1024.size a ≤ S50000x1024.size a := fun v42 k0_hw3 => k0_hw3

def k0_off15 (k0_t3 : Fin k0_t3_loop.trips) : Fin 1 → Nat :=
  let c0_i32_73 : BitVec 32 := 0#32
  let c0_i32_5 : BitVec 32 := 0#32
  let c1_i32_7 : BitVec 32 := 1#32
  let arg12 : BitVec 32 := Scf.iv c0_i32_5 c1_i32_7 k0_t3
  let c1_i32_72 : BitVec 32 := 1#32
  let v37 : BitVec 32 := Scalar.muli arg12 c1_i32_72
  let v38 : BitVec 32 := Scalar.addi c0_i32_73 v37
  ![v38.toNat]
def k0_off16 (k0_t3 : Fin k0_t3_loop.trips) : Fin 2 → Nat :=
  let c32_i32_74 : BitVec 32 := 32#32
  let c0_i32_73 : BitVec 32 := 0#32
  let c0_i32_5 : BitVec 32 := 0#32
  let c1_i32_7 : BitVec 32 := 1#32
  let arg12 : BitVec 32 := Scf.iv c0_i32_5 c1_i32_7 k0_t3
  let c1_i32_72 : BitVec 32 := 1#32
  let v37 : BitVec 32 := Scalar.muli arg12 c1_i32_72
  let v38 : BitVec 32 := Scalar.addi c0_i32_73 v37
  let v39 : BitVec 32 := Scalar.addi c32_i32_74 v38
  let c1024_i32 : BitVec 32 := 1024#32
  ![v39.toNat, 1024]
def k0_off17 (v44 : BitVec 32) : Fin 2 → Nat :=
  let c0_i32_77 : BitVec 32 := 0#32
  ![v44.toNat, 0]

def k0_chk4 (v44 : BitVec 32) : Prop :=
  (∀ a, (k0_off17 v44) a + S1x1024.size a ≤ S50000x1024.size a)
instance k0_chk4.dec : ∀ (v44 : BitVec 32), Decidable (k0_chk4 v44) := fun v44 => decidable_of_iff' _ (Iff.of_eq (k0_chk4.eq_1 v44))
theorem k0_off17_inb : ∀ (v44 : BitVec 32) (k0_hw4 : k0_chk4 v44), ∀ a, (k0_off17 v44) a + S1x1024.size a ≤ S50000x1024.size a := fun v44 k0_hw4 => k0_hw4

@[reducible] def k0_t4_loop : Scf.Loop 32 :=
  let c0_i32_9 : BitVec 32 := 0#32
  let c32_i32_10 : BitVec 32 := 32#32
  let v4 : BitVec 32 := Scalar.addi c0_i32_9 c32_i32_10
  let c1_i32_11 : BitVec 32 := 1#32
  ⟨c0_i32_9, v4, c1_i32_11⟩
def k0_off18 (k0_t4 : Fin k0_t4_loop.trips) : Fin 1 → Nat :=
  let c0_i32_73 : BitVec 32 := 0#32
  let c0_i32_9 : BitVec 32 := 0#32
  let c1_i32_11 : BitVec 32 := 1#32
  let arg12 : BitVec 32 := Scf.iv c0_i32_9 c1_i32_11 k0_t4
  let c1_i32_72 : BitVec 32 := 1#32
  let v37 : BitVec 32 := Scalar.muli arg12 c1_i32_72
  let v38 : BitVec 32 := Scalar.addi c0_i32_73 v37
  ![v38.toNat]
def k0_off19 (k0_t4 : Fin k0_t4_loop.trips) : Fin 2 → Nat :=
  let c32_i32_74 : BitVec 32 := 32#32
  let c0_i32_73 : BitVec 32 := 0#32
  let c0_i32_9 : BitVec 32 := 0#32
  let c1_i32_11 : BitVec 32 := 1#32
  let arg12 : BitVec 32 := Scf.iv c0_i32_9 c1_i32_11 k0_t4
  let c1_i32_72 : BitVec 32 := 1#32
  let v37 : BitVec 32 := Scalar.muli arg12 c1_i32_72
  let v38 : BitVec 32 := Scalar.addi c0_i32_73 v37
  let v39 : BitVec 32 := Scalar.addi c32_i32_74 v38
  let c0_i32_76 : BitVec 32 := 0#32
  ![v39.toNat, 0]
def k0_off20 (k0_t4 : Fin k0_t4_loop.trips) : Fin 2 → Nat :=
  let c32_i32_74 : BitVec 32 := 32#32
  let c0_i32_73 : BitVec 32 := 0#32
  let c0_i32_9 : BitVec 32 := 0#32
  let c1_i32_11 : BitVec 32 := 1#32
  let arg12 : BitVec 32 := Scf.iv c0_i32_9 c1_i32_11 k0_t4
  let c1_i32_72 : BitVec 32 := 1#32
  let v37 : BitVec 32 := Scalar.muli arg12 c1_i32_72
  let v38 : BitVec 32 := Scalar.addi c0_i32_73 v37
  let v39 : BitVec 32 := Scalar.addi c32_i32_74 v38
  let c1024_i32 : BitVec 32 := 1024#32
  ![v39.toNat, 1024]
@[reducible] def k0_t5_loop : Scf.Loop 32 :=
  let c0_i32_13 : BitVec 32 := 0#32
  let c32_i32_14 : BitVec 32 := 32#32
  let v5 : BitVec 32 := Scalar.addi c0_i32_13 c32_i32_14
  let c1_i32_15 : BitVec 32 := 1#32
  ⟨c0_i32_13, v5, c1_i32_15⟩
def k0_off21 (i : grid0.Coords) (k0_t5 : Fin k0_t5_loop.trips) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let c0_i32_73 : BitVec 32 := 0#32
  let c0_i32_13 : BitVec 32 := 0#32
  let c1_i32_15 : BitVec 32 := 1#32
  let arg12 : BitVec 32 := Scf.iv c0_i32_13 c1_i32_15 k0_t5
  let c1_i32_72 : BitVec 32 := 1#32
  let v37 : BitVec 32 := Scalar.muli arg12 c1_i32_72
  let v38 : BitVec 32 := Scalar.addi c0_i32_73 v37
  let v39 : BitVec 32 := Scalar.addi c64_i32 v38
  let v40 : BitVec 32 := Scalar.addi v0 v39
  let v41 : Index := Scalar.indexCast v40
  ![v41.toNat]
def k0_off22 (k0_t5 : Fin k0_t5_loop.trips) : Fin 1 → Nat :=
  let c0_i32_73 : BitVec 32 := 0#32
  let c0_i32_13 : BitVec 32 := 0#32
  let c1_i32_15 : BitVec 32 := 1#32
  let arg12 : BitVec 32 := Scf.iv c0_i32_13 c1_i32_15 k0_t5
  let c1_i32_72 : BitVec 32 := 1#32
  let v37 : BitVec 32 := Scalar.muli arg12 c1_i32_72
  let v38 : BitVec 32 := Scalar.addi c0_i32_73 v37
  ![v38.toNat]
def k0_off23 (k0_t5 : Fin k0_t5_loop.trips) : Fin 2 → Nat :=
  let c64_i32 : BitVec 32 := 64#32
  let c0_i32_73 : BitVec 32 := 0#32
  let c0_i32_13 : BitVec 32 := 0#32
  let c1_i32_15 : BitVec 32 := 1#32
  let arg12 : BitVec 32 := Scf.iv c0_i32_13 c1_i32_15 k0_t5
  let c1_i32_72 : BitVec 32 := 1#32
  let v37 : BitVec 32 := Scalar.muli arg12 c1_i32_72
  let v38 : BitVec 32 := Scalar.addi c0_i32_73 v37
  let v39 : BitVec 32 := Scalar.addi c64_i32 v38
  let c0_i32_74 : BitVec 32 := 0#32
  ![v39.toNat, 0]
def k0_off24 (v42 : BitVec 32) : Fin 2 → Nat :=
  let c0_i32_75 : BitVec 32 := 0#32
  ![v42.toNat, 0]

def k0_chk5 (v42 : BitVec 32) : Prop :=
  (∀ a, (k0_off24 v42) a + S1x1024.size a ≤ S50000x1024.size a)
instance k0_chk5.dec : ∀ (v42 : BitVec 32), Decidable (k0_chk5 v42) := fun v42 => decidable_of_iff' _ (Iff.of_eq (k0_chk5.eq_1 v42))
theorem k0_off24_inb : ∀ (v42 : BitVec 32) (k0_hw5 : k0_chk5 v42), ∀ a, (k0_off24 v42) a + S1x1024.size a ≤ S50000x1024.size a := fun v42 k0_hw5 => k0_hw5

def k0_off25 (k0_t5 : Fin k0_t5_loop.trips) : Fin 1 → Nat :=
  let c0_i32_73 : BitVec 32 := 0#32
  let c0_i32_13 : BitVec 32 := 0#32
  let c1_i32_15 : BitVec 32 := 1#32
  let arg12 : BitVec 32 := Scf.iv c0_i32_13 c1_i32_15 k0_t5
  let c1_i32_72 : BitVec 32 := 1#32
  let v37 : BitVec 32 := Scalar.muli arg12 c1_i32_72
  let v38 : BitVec 32 := Scalar.addi c0_i32_73 v37
  ![v38.toNat]
def k0_off26 (k0_t5 : Fin k0_t5_loop.trips) : Fin 2 → Nat :=
  let c64_i32 : BitVec 32 := 64#32
  let c0_i32_73 : BitVec 32 := 0#32
  let c0_i32_13 : BitVec 32 := 0#32
  let c1_i32_15 : BitVec 32 := 1#32
  let arg12 : BitVec 32 := Scf.iv c0_i32_13 c1_i32_15 k0_t5
  let c1_i32_72 : BitVec 32 := 1#32
  let v37 : BitVec 32 := Scalar.muli arg12 c1_i32_72
  let v38 : BitVec 32 := Scalar.addi c0_i32_73 v37
  let v39 : BitVec 32 := Scalar.addi c64_i32 v38
  let c1024_i32 : BitVec 32 := 1024#32
  ![v39.toNat, 1024]
def k0_off27 (v44 : BitVec 32) : Fin 2 → Nat :=
  let c0_i32_76 : BitVec 32 := 0#32
  ![v44.toNat, 0]

def k0_chk6 (v44 : BitVec 32) : Prop :=
  (∀ a, (k0_off27 v44) a + S1x1024.size a ≤ S50000x1024.size a)
instance k0_chk6.dec : ∀ (v44 : BitVec 32), Decidable (k0_chk6 v44) := fun v44 => decidable_of_iff' _ (Iff.of_eq (k0_chk6.eq_1 v44))
theorem k0_off27_inb : ∀ (v44 : BitVec 32) (k0_hw6 : k0_chk6 v44), ∀ a, (k0_off27 v44) a + S1x1024.size a ≤ S50000x1024.size a := fun v44 k0_hw6 => k0_hw6

@[reducible] def k0_t6_loop : Scf.Loop 32 :=
  let c0_i32_17 : BitVec 32 := 0#32
  let c32_i32_18 : BitVec 32 := 32#32
  let v6 : BitVec 32 := Scalar.addi c0_i32_17 c32_i32_18
  let c1_i32_19 : BitVec 32 := 1#32
  ⟨c0_i32_17, v6, c1_i32_19⟩
def k0_off28 (k0_t6 : Fin k0_t6_loop.trips) : Fin 1 → Nat :=
  let c0_i32_73 : BitVec 32 := 0#32
  let c0_i32_17 : BitVec 32 := 0#32
  let c1_i32_19 : BitVec 32 := 1#32
  let arg12 : BitVec 32 := Scf.iv c0_i32_17 c1_i32_19 k0_t6
  let c1_i32_72 : BitVec 32 := 1#32
  let v37 : BitVec 32 := Scalar.muli arg12 c1_i32_72
  let v38 : BitVec 32 := Scalar.addi c0_i32_73 v37
  ![v38.toNat]
def k0_off29 (k0_t6 : Fin k0_t6_loop.trips) : Fin 2 → Nat :=
  let c64_i32 : BitVec 32 := 64#32
  let c0_i32_73 : BitVec 32 := 0#32
  let c0_i32_17 : BitVec 32 := 0#32
  let c1_i32_19 : BitVec 32 := 1#32
  let arg12 : BitVec 32 := Scf.iv c0_i32_17 c1_i32_19 k0_t6
  let c1_i32_72 : BitVec 32 := 1#32
  let v37 : BitVec 32 := Scalar.muli arg12 c1_i32_72
  let v38 : BitVec 32 := Scalar.addi c0_i32_73 v37
  let v39 : BitVec 32 := Scalar.addi c64_i32 v38
  let c0_i32_75 : BitVec 32 := 0#32
  ![v39.toNat, 0]
def k0_off30 (k0_t6 : Fin k0_t6_loop.trips) : Fin 2 → Nat :=
  let c64_i32 : BitVec 32 := 64#32
  let c0_i32_73 : BitVec 32 := 0#32
  let c0_i32_17 : BitVec 32 := 0#32
  let c1_i32_19 : BitVec 32 := 1#32
  let arg12 : BitVec 32 := Scf.iv c0_i32_17 c1_i32_19 k0_t6
  let c1_i32_72 : BitVec 32 := 1#32
  let v37 : BitVec 32 := Scalar.muli arg12 c1_i32_72
  let v38 : BitVec 32 := Scalar.addi c0_i32_73 v37
  let v39 : BitVec 32 := Scalar.addi c64_i32 v38
  let c1024_i32 : BitVec 32 := 1024#32
  ![v39.toNat, 1024]
@[reducible] def k0_t7_loop : Scf.Loop 32 :=
  let c0_i32_21 : BitVec 32 := 0#32
  let c32_i32_22 : BitVec 32 := 32#32
  let v7 : BitVec 32 := Scalar.addi c0_i32_21 c32_i32_22
  let c1_i32_23 : BitVec 32 := 1#32
  ⟨c0_i32_21, v7, c1_i32_23⟩
def k0_off31 (i : grid0.Coords) (k0_t7 : Fin k0_t7_loop.trips) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let c0_i32_73 : BitVec 32 := 0#32
  let c0_i32_21 : BitVec 32 := 0#32
  let c1_i32_23 : BitVec 32 := 1#32
  let arg12 : BitVec 32 := Scf.iv c0_i32_21 c1_i32_23 k0_t7
  let c1_i32_72 : BitVec 32 := 1#32
  let v37 : BitVec 32 := Scalar.muli arg12 c1_i32_72
  let v38 : BitVec 32 := Scalar.addi c0_i32_73 v37
  let v39 : BitVec 32 := Scalar.addi c96_i32 v38
  let v40 : BitVec 32 := Scalar.addi v0 v39
  let v41 : Index := Scalar.indexCast v40
  ![v41.toNat]
def k0_off32 (k0_t7 : Fin k0_t7_loop.trips) : Fin 1 → Nat :=
  let c0_i32_73 : BitVec 32 := 0#32
  let c0_i32_21 : BitVec 32 := 0#32
  let c1_i32_23 : BitVec 32 := 1#32
  let arg12 : BitVec 32 := Scf.iv c0_i32_21 c1_i32_23 k0_t7
  let c1_i32_72 : BitVec 32 := 1#32
  let v37 : BitVec 32 := Scalar.muli arg12 c1_i32_72
  let v38 : BitVec 32 := Scalar.addi c0_i32_73 v37
  ![v38.toNat]
def k0_off33 (k0_t7 : Fin k0_t7_loop.trips) : Fin 2 → Nat :=
  let c96_i32 : BitVec 32 := 96#32
  let c0_i32_73 : BitVec 32 := 0#32
  let c0_i32_21 : BitVec 32 := 0#32
  let c1_i32_23 : BitVec 32 := 1#32
  let arg12 : BitVec 32 := Scf.iv c0_i32_21 c1_i32_23 k0_t7
  let c1_i32_72 : BitVec 32 := 1#32
  let v37 : BitVec 32 := Scalar.muli arg12 c1_i32_72
  let v38 : BitVec 32 := Scalar.addi c0_i32_73 v37
  let v39 : BitVec 32 := Scalar.addi c96_i32 v38
  let c0_i32_74 : BitVec 32 := 0#32
  ![v39.toNat, 0]
def k0_off34 (v42 : BitVec 32) : Fin 2 → Nat :=
  let c0_i32_75 : BitVec 32 := 0#32
  ![v42.toNat, 0]

def k0_chk7 (v42 : BitVec 32) : Prop :=
  (∀ a, (k0_off34 v42) a + S1x1024.size a ≤ S50000x1024.size a)
instance k0_chk7.dec : ∀ (v42 : BitVec 32), Decidable (k0_chk7 v42) := fun v42 => decidable_of_iff' _ (Iff.of_eq (k0_chk7.eq_1 v42))
theorem k0_off34_inb : ∀ (v42 : BitVec 32) (k0_hw7 : k0_chk7 v42), ∀ a, (k0_off34 v42) a + S1x1024.size a ≤ S50000x1024.size a := fun v42 k0_hw7 => k0_hw7

def k0_off35 (k0_t7 : Fin k0_t7_loop.trips) : Fin 1 → Nat :=
  let c0_i32_73 : BitVec 32 := 0#32
  let c0_i32_21 : BitVec 32 := 0#32
  let c1_i32_23 : BitVec 32 := 1#32
  let arg12 : BitVec 32 := Scf.iv c0_i32_21 c1_i32_23 k0_t7
  let c1_i32_72 : BitVec 32 := 1#32
  let v37 : BitVec 32 := Scalar.muli arg12 c1_i32_72
  let v38 : BitVec 32 := Scalar.addi c0_i32_73 v37
  ![v38.toNat]
def k0_off36 (k0_t7 : Fin k0_t7_loop.trips) : Fin 2 → Nat :=
  let c96_i32 : BitVec 32 := 96#32
  let c0_i32_73 : BitVec 32 := 0#32
  let c0_i32_21 : BitVec 32 := 0#32
  let c1_i32_23 : BitVec 32 := 1#32
  let arg12 : BitVec 32 := Scf.iv c0_i32_21 c1_i32_23 k0_t7
  let c1_i32_72 : BitVec 32 := 1#32
  let v37 : BitVec 32 := Scalar.muli arg12 c1_i32_72
  let v38 : BitVec 32 := Scalar.addi c0_i32_73 v37
  let v39 : BitVec 32 := Scalar.addi c96_i32 v38
  let c1024_i32 : BitVec 32 := 1024#32
  ![v39.toNat, 1024]
def k0_off37 (v44 : BitVec 32) : Fin 2 → Nat :=
  let c0_i32_76 : BitVec 32 := 0#32
  ![v44.toNat, 0]

def k0_chk8 (v44 : BitVec 32) : Prop :=
  (∀ a, (k0_off37 v44) a + S1x1024.size a ≤ S50000x1024.size a)
instance k0_chk8.dec : ∀ (v44 : BitVec 32), Decidable (k0_chk8 v44) := fun v44 => decidable_of_iff' _ (Iff.of_eq (k0_chk8.eq_1 v44))
theorem k0_off37_inb : ∀ (v44 : BitVec 32) (k0_hw8 : k0_chk8 v44), ∀ a, (k0_off37 v44) a + S1x1024.size a ≤ S50000x1024.size a := fun v44 k0_hw8 => k0_hw8

@[reducible] def k0_t8_loop : Scf.Loop 32 :=
  let c0_i32_25 : BitVec 32 := 0#32
  let c32_i32_26 : BitVec 32 := 32#32
  let v8 : BitVec 32 := Scalar.addi c0_i32_25 c32_i32_26
  let c1_i32_27 : BitVec 32 := 1#32
  ⟨c0_i32_25, v8, c1_i32_27⟩
def k0_off38 (k0_t8 : Fin k0_t8_loop.trips) : Fin 1 → Nat :=
  let c0_i32_73 : BitVec 32 := 0#32
  let c0_i32_25 : BitVec 32 := 0#32
  let c1_i32_27 : BitVec 32 := 1#32
  let arg12 : BitVec 32 := Scf.iv c0_i32_25 c1_i32_27 k0_t8
  let c1_i32_72 : BitVec 32 := 1#32
  let v37 : BitVec 32 := Scalar.muli arg12 c1_i32_72
  let v38 : BitVec 32 := Scalar.addi c0_i32_73 v37
  ![v38.toNat]
def k0_off39 (k0_t8 : Fin k0_t8_loop.trips) : Fin 2 → Nat :=
  let c96_i32 : BitVec 32 := 96#32
  let c0_i32_73 : BitVec 32 := 0#32
  let c0_i32_25 : BitVec 32 := 0#32
  let c1_i32_27 : BitVec 32 := 1#32
  let arg12 : BitVec 32 := Scf.iv c0_i32_25 c1_i32_27 k0_t8
  let c1_i32_72 : BitVec 32 := 1#32
  let v37 : BitVec 32 := Scalar.muli arg12 c1_i32_72
  let v38 : BitVec 32 := Scalar.addi c0_i32_73 v37
  let v39 : BitVec 32 := Scalar.addi c96_i32 v38
  let c0_i32_75 : BitVec 32 := 0#32
  ![v39.toNat, 0]
def k0_off40 (k0_t8 : Fin k0_t8_loop.trips) : Fin 2 → Nat :=
  let c96_i32 : BitVec 32 := 96#32
  let c0_i32_73 : BitVec 32 := 0#32
  let c0_i32_25 : BitVec 32 := 0#32
  let c1_i32_27 : BitVec 32 := 1#32
  let arg12 : BitVec 32 := Scf.iv c0_i32_25 c1_i32_27 k0_t8
  let c1_i32_72 : BitVec 32 := 1#32
  let v37 : BitVec 32 := Scalar.muli arg12 c1_i32_72
  let v38 : BitVec 32 := Scalar.addi c0_i32_73 v37
  let v39 : BitVec 32 := Scalar.addi c96_i32 v38
  let c1024_i32 : BitVec 32 := 1024#32
  ![v39.toNat, 1024]
@[reducible] def k0_t9_loop : Scf.Loop 32 :=
  let c0_i32_29 : BitVec 32 := 0#32
  let c32_i32_30 : BitVec 32 := 32#32
  let v9 : BitVec 32 := Scalar.addi c0_i32_29 c32_i32_30
  let c1_i32_31 : BitVec 32 := 1#32
  ⟨c0_i32_29, v9, c1_i32_31⟩
def k0_off41 (i : grid0.Coords) (k0_t9 : Fin k0_t9_loop.trips) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let c0_i32_73 : BitVec 32 := 0#32
  let c0_i32_29 : BitVec 32 := 0#32
  let c1_i32_31 : BitVec 32 := 1#32
  let arg12 : BitVec 32 := Scf.iv c0_i32_29 c1_i32_31 k0_t9
  let c1_i32_72 : BitVec 32 := 1#32
  let v37 : BitVec 32 := Scalar.muli arg12 c1_i32_72
  let v38 : BitVec 32 := Scalar.addi c0_i32_73 v37
  let v39 : BitVec 32 := Scalar.addi c128_i32 v38
  let v40 : BitVec 32 := Scalar.addi v0 v39
  let v41 : Index := Scalar.indexCast v40
  ![v41.toNat]
def k0_off42 (k0_t9 : Fin k0_t9_loop.trips) : Fin 1 → Nat :=
  let c0_i32_73 : BitVec 32 := 0#32
  let c0_i32_29 : BitVec 32 := 0#32
  let c1_i32_31 : BitVec 32 := 1#32
  let arg12 : BitVec 32 := Scf.iv c0_i32_29 c1_i32_31 k0_t9
  let c1_i32_72 : BitVec 32 := 1#32
  let v37 : BitVec 32 := Scalar.muli arg12 c1_i32_72
  let v38 : BitVec 32 := Scalar.addi c0_i32_73 v37
  ![v38.toNat]
def k0_off43 (k0_t9 : Fin k0_t9_loop.trips) : Fin 2 → Nat :=
  let c128_i32 : BitVec 32 := 128#32
  let c0_i32_73 : BitVec 32 := 0#32
  let c0_i32_29 : BitVec 32 := 0#32
  let c1_i32_31 : BitVec 32 := 1#32
  let arg12 : BitVec 32 := Scf.iv c0_i32_29 c1_i32_31 k0_t9
  let c1_i32_72 : BitVec 32 := 1#32
  let v37 : BitVec 32 := Scalar.muli arg12 c1_i32_72
  let v38 : BitVec 32 := Scalar.addi c0_i32_73 v37
  let v39 : BitVec 32 := Scalar.addi c128_i32 v38
  let c0_i32_74 : BitVec 32 := 0#32
  ![v39.toNat, 0]
def k0_off44 (v42 : BitVec 32) : Fin 2 → Nat :=
  let c0_i32_75 : BitVec 32 := 0#32
  ![v42.toNat, 0]

def k0_chk9 (v42 : BitVec 32) : Prop :=
  (∀ a, (k0_off44 v42) a + S1x1024.size a ≤ S50000x1024.size a)
instance k0_chk9.dec : ∀ (v42 : BitVec 32), Decidable (k0_chk9 v42) := fun v42 => decidable_of_iff' _ (Iff.of_eq (k0_chk9.eq_1 v42))
theorem k0_off44_inb : ∀ (v42 : BitVec 32) (k0_hw9 : k0_chk9 v42), ∀ a, (k0_off44 v42) a + S1x1024.size a ≤ S50000x1024.size a := fun v42 k0_hw9 => k0_hw9

def k0_off45 (k0_t9 : Fin k0_t9_loop.trips) : Fin 1 → Nat :=
  let c0_i32_73 : BitVec 32 := 0#32
  let c0_i32_29 : BitVec 32 := 0#32
  let c1_i32_31 : BitVec 32 := 1#32
  let arg12 : BitVec 32 := Scf.iv c0_i32_29 c1_i32_31 k0_t9
  let c1_i32_72 : BitVec 32 := 1#32
  let v37 : BitVec 32 := Scalar.muli arg12 c1_i32_72
  let v38 : BitVec 32 := Scalar.addi c0_i32_73 v37
  ![v38.toNat]
def k0_off46 (k0_t9 : Fin k0_t9_loop.trips) : Fin 2 → Nat :=
  let c128_i32 : BitVec 32 := 128#32
  let c0_i32_73 : BitVec 32 := 0#32
  let c0_i32_29 : BitVec 32 := 0#32
  let c1_i32_31 : BitVec 32 := 1#32
  let arg12 : BitVec 32 := Scf.iv c0_i32_29 c1_i32_31 k0_t9
  let c1_i32_72 : BitVec 32 := 1#32
  let v37 : BitVec 32 := Scalar.muli arg12 c1_i32_72
  let v38 : BitVec 32 := Scalar.addi c0_i32_73 v37
  let v39 : BitVec 32 := Scalar.addi c128_i32 v38
  let c1024_i32 : BitVec 32 := 1024#32
  ![v39.toNat, 1024]
def k0_off47 (v44 : BitVec 32) : Fin 2 → Nat :=
  let c0_i32_76 : BitVec 32 := 0#32
  ![v44.toNat, 0]

def k0_chk10 (v44 : BitVec 32) : Prop :=
  (∀ a, (k0_off47 v44) a + S1x1024.size a ≤ S50000x1024.size a)
instance k0_chk10.dec : ∀ (v44 : BitVec 32), Decidable (k0_chk10 v44) := fun v44 => decidable_of_iff' _ (Iff.of_eq (k0_chk10.eq_1 v44))
theorem k0_off47_inb : ∀ (v44 : BitVec 32) (k0_hw10 : k0_chk10 v44), ∀ a, (k0_off47 v44) a + S1x1024.size a ≤ S50000x1024.size a := fun v44 k0_hw10 => k0_hw10

@[reducible] def k0_t10_loop : Scf.Loop 32 :=
  let c0_i32_33 : BitVec 32 := 0#32
  let c32_i32_34 : BitVec 32 := 32#32
  let v10 : BitVec 32 := Scalar.addi c0_i32_33 c32_i32_34
  let c1_i32_35 : BitVec 32 := 1#32
  ⟨c0_i32_33, v10, c1_i32_35⟩
def k0_off48 (k0_t10 : Fin k0_t10_loop.trips) : Fin 1 → Nat :=
  let c0_i32_73 : BitVec 32 := 0#32
  let c0_i32_33 : BitVec 32 := 0#32
  let c1_i32_35 : BitVec 32 := 1#32
  let arg12 : BitVec 32 := Scf.iv c0_i32_33 c1_i32_35 k0_t10
  let c1_i32_72 : BitVec 32 := 1#32
  let v37 : BitVec 32 := Scalar.muli arg12 c1_i32_72
  let v38 : BitVec 32 := Scalar.addi c0_i32_73 v37
  ![v38.toNat]
def k0_off49 (k0_t10 : Fin k0_t10_loop.trips) : Fin 2 → Nat :=
  let c128_i32 : BitVec 32 := 128#32
  let c0_i32_73 : BitVec 32 := 0#32
  let c0_i32_33 : BitVec 32 := 0#32
  let c1_i32_35 : BitVec 32 := 1#32
  let arg12 : BitVec 32 := Scf.iv c0_i32_33 c1_i32_35 k0_t10
  let c1_i32_72 : BitVec 32 := 1#32
  let v37 : BitVec 32 := Scalar.muli arg12 c1_i32_72
  let v38 : BitVec 32 := Scalar.addi c0_i32_73 v37
  let v39 : BitVec 32 := Scalar.addi c128_i32 v38
  let c0_i32_75 : BitVec 32 := 0#32
  ![v39.toNat, 0]
def k0_off50 (k0_t10 : Fin k0_t10_loop.trips) : Fin 2 → Nat :=
  let c128_i32 : BitVec 32 := 128#32
  let c0_i32_73 : BitVec 32 := 0#32
  let c0_i32_33 : BitVec 32 := 0#32
  let c1_i32_35 : BitVec 32 := 1#32
  let arg12 : BitVec 32 := Scf.iv c0_i32_33 c1_i32_35 k0_t10
  let c1_i32_72 : BitVec 32 := 1#32
  let v37 : BitVec 32 := Scalar.muli arg12 c1_i32_72
  let v38 : BitVec 32 := Scalar.addi c0_i32_73 v37
  let v39 : BitVec 32 := Scalar.addi c128_i32 v38
  let c1024_i32 : BitVec 32 := 1024#32
  ![v39.toNat, 1024]
@[reducible] def k0_t11_loop : Scf.Loop 32 :=
  let c0_i32_37 : BitVec 32 := 0#32
  let c32_i32_38 : BitVec 32 := 32#32
  let v11 : BitVec 32 := Scalar.addi c0_i32_37 c32_i32_38
  let c1_i32_39 : BitVec 32 := 1#32
  ⟨c0_i32_37, v11, c1_i32_39⟩
def k0_off51 (i : grid0.Coords) (k0_t11 : Fin k0_t11_loop.trips) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let c0_i32_73 : BitVec 32 := 0#32
  let c0_i32_37 : BitVec 32 := 0#32
  let c1_i32_39 : BitVec 32 := 1#32
  let arg12 : BitVec 32 := Scf.iv c0_i32_37 c1_i32_39 k0_t11
  let c1_i32_72 : BitVec 32 := 1#32
  let v37 : BitVec 32 := Scalar.muli arg12 c1_i32_72
  let v38 : BitVec 32 := Scalar.addi c0_i32_73 v37
  let v39 : BitVec 32 := Scalar.addi c160_i32 v38
  let v40 : BitVec 32 := Scalar.addi v0 v39
  let v41 : Index := Scalar.indexCast v40
  ![v41.toNat]
def k0_off52 (k0_t11 : Fin k0_t11_loop.trips) : Fin 1 → Nat :=
  let c0_i32_73 : BitVec 32 := 0#32
  let c0_i32_37 : BitVec 32 := 0#32
  let c1_i32_39 : BitVec 32 := 1#32
  let arg12 : BitVec 32 := Scf.iv c0_i32_37 c1_i32_39 k0_t11
  let c1_i32_72 : BitVec 32 := 1#32
  let v37 : BitVec 32 := Scalar.muli arg12 c1_i32_72
  let v38 : BitVec 32 := Scalar.addi c0_i32_73 v37
  ![v38.toNat]
def k0_off53 (k0_t11 : Fin k0_t11_loop.trips) : Fin 2 → Nat :=
  let c160_i32 : BitVec 32 := 160#32
  let c0_i32_73 : BitVec 32 := 0#32
  let c0_i32_37 : BitVec 32 := 0#32
  let c1_i32_39 : BitVec 32 := 1#32
  let arg12 : BitVec 32 := Scf.iv c0_i32_37 c1_i32_39 k0_t11
  let c1_i32_72 : BitVec 32 := 1#32
  let v37 : BitVec 32 := Scalar.muli arg12 c1_i32_72
  let v38 : BitVec 32 := Scalar.addi c0_i32_73 v37
  let v39 : BitVec 32 := Scalar.addi c160_i32 v38
  let c0_i32_74 : BitVec 32 := 0#32
  ![v39.toNat, 0]
def k0_off54 (v42 : BitVec 32) : Fin 2 → Nat :=
  let c0_i32_75 : BitVec 32 := 0#32
  ![v42.toNat, 0]

def k0_chk11 (v42 : BitVec 32) : Prop :=
  (∀ a, (k0_off54 v42) a + S1x1024.size a ≤ S50000x1024.size a)
instance k0_chk11.dec : ∀ (v42 : BitVec 32), Decidable (k0_chk11 v42) := fun v42 => decidable_of_iff' _ (Iff.of_eq (k0_chk11.eq_1 v42))
theorem k0_off54_inb : ∀ (v42 : BitVec 32) (k0_hw11 : k0_chk11 v42), ∀ a, (k0_off54 v42) a + S1x1024.size a ≤ S50000x1024.size a := fun v42 k0_hw11 => k0_hw11

def k0_off55 (k0_t11 : Fin k0_t11_loop.trips) : Fin 1 → Nat :=
  let c0_i32_73 : BitVec 32 := 0#32
  let c0_i32_37 : BitVec 32 := 0#32
  let c1_i32_39 : BitVec 32 := 1#32
  let arg12 : BitVec 32 := Scf.iv c0_i32_37 c1_i32_39 k0_t11
  let c1_i32_72 : BitVec 32 := 1#32
  let v37 : BitVec 32 := Scalar.muli arg12 c1_i32_72
  let v38 : BitVec 32 := Scalar.addi c0_i32_73 v37
  ![v38.toNat]
def k0_off56 (k0_t11 : Fin k0_t11_loop.trips) : Fin 2 → Nat :=
  let c160_i32 : BitVec 32 := 160#32
  let c0_i32_73 : BitVec 32 := 0#32
  let c0_i32_37 : BitVec 32 := 0#32
  let c1_i32_39 : BitVec 32 := 1#32
  let arg12 : BitVec 32 := Scf.iv c0_i32_37 c1_i32_39 k0_t11
  let c1_i32_72 : BitVec 32 := 1#32
  let v37 : BitVec 32 := Scalar.muli arg12 c1_i32_72
  let v38 : BitVec 32 := Scalar.addi c0_i32_73 v37
  let v39 : BitVec 32 := Scalar.addi c160_i32 v38
  let c1024_i32 : BitVec 32 := 1024#32
  ![v39.toNat, 1024]
def k0_off57 (v44 : BitVec 32) : Fin 2 → Nat :=
  let c0_i32_76 : BitVec 32 := 0#32
  ![v44.toNat, 0]

def k0_chk12 (v44 : BitVec 32) : Prop :=
  (∀ a, (k0_off57 v44) a + S1x1024.size a ≤ S50000x1024.size a)
instance k0_chk12.dec : ∀ (v44 : BitVec 32), Decidable (k0_chk12 v44) := fun v44 => decidable_of_iff' _ (Iff.of_eq (k0_chk12.eq_1 v44))
theorem k0_off57_inb : ∀ (v44 : BitVec 32) (k0_hw12 : k0_chk12 v44), ∀ a, (k0_off57 v44) a + S1x1024.size a ≤ S50000x1024.size a := fun v44 k0_hw12 => k0_hw12

@[reducible] def k0_t12_loop : Scf.Loop 32 :=
  let c0_i32_41 : BitVec 32 := 0#32
  let c32_i32_42 : BitVec 32 := 32#32
  let v12 : BitVec 32 := Scalar.addi c0_i32_41 c32_i32_42
  let c1_i32_43 : BitVec 32 := 1#32
  ⟨c0_i32_41, v12, c1_i32_43⟩
def k0_off58 (k0_t12 : Fin k0_t12_loop.trips) : Fin 1 → Nat :=
  let c0_i32_73 : BitVec 32 := 0#32
  let c0_i32_41 : BitVec 32 := 0#32
  let c1_i32_43 : BitVec 32 := 1#32
  let arg12 : BitVec 32 := Scf.iv c0_i32_41 c1_i32_43 k0_t12
  let c1_i32_72 : BitVec 32 := 1#32
  let v37 : BitVec 32 := Scalar.muli arg12 c1_i32_72
  let v38 : BitVec 32 := Scalar.addi c0_i32_73 v37
  ![v38.toNat]
def k0_off59 (k0_t12 : Fin k0_t12_loop.trips) : Fin 2 → Nat :=
  let c160_i32 : BitVec 32 := 160#32
  let c0_i32_73 : BitVec 32 := 0#32
  let c0_i32_41 : BitVec 32 := 0#32
  let c1_i32_43 : BitVec 32 := 1#32
  let arg12 : BitVec 32 := Scf.iv c0_i32_41 c1_i32_43 k0_t12
  let c1_i32_72 : BitVec 32 := 1#32
  let v37 : BitVec 32 := Scalar.muli arg12 c1_i32_72
  let v38 : BitVec 32 := Scalar.addi c0_i32_73 v37
  let v39 : BitVec 32 := Scalar.addi c160_i32 v38
  let c0_i32_75 : BitVec 32 := 0#32
  ![v39.toNat, 0]
def k0_off60 (k0_t12 : Fin k0_t12_loop.trips) : Fin 2 → Nat :=
  let c160_i32 : BitVec 32 := 160#32
  let c0_i32_73 : BitVec 32 := 0#32
  let c0_i32_41 : BitVec 32 := 0#32
  let c1_i32_43 : BitVec 32 := 1#32
  let arg12 : BitVec 32 := Scf.iv c0_i32_41 c1_i32_43 k0_t12
  let c1_i32_72 : BitVec 32 := 1#32
  let v37 : BitVec 32 := Scalar.muli arg12 c1_i32_72
  let v38 : BitVec 32 := Scalar.addi c0_i32_73 v37
  let v39 : BitVec 32 := Scalar.addi c160_i32 v38
  let c1024_i32 : BitVec 32 := 1024#32
  ![v39.toNat, 1024]
@[reducible] def k0_t13_loop : Scf.Loop 32 :=
  let c0_i32_45 : BitVec 32 := 0#32
  let c32_i32_46 : BitVec 32 := 32#32
  let v13 : BitVec 32 := Scalar.addi c0_i32_45 c32_i32_46
  let c1_i32_47 : BitVec 32 := 1#32
  ⟨c0_i32_45, v13, c1_i32_47⟩
def k0_off61 (i : grid0.Coords) (k0_t13 : Fin k0_t13_loop.trips) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let c0_i32_73 : BitVec 32 := 0#32
  let c0_i32_45 : BitVec 32 := 0#32
  let c1_i32_47 : BitVec 32 := 1#32
  let arg12 : BitVec 32 := Scf.iv c0_i32_45 c1_i32_47 k0_t13
  let c1_i32_72 : BitVec 32 := 1#32
  let v37 : BitVec 32 := Scalar.muli arg12 c1_i32_72
  let v38 : BitVec 32 := Scalar.addi c0_i32_73 v37
  let v39 : BitVec 32 := Scalar.addi c192_i32 v38
  let v40 : BitVec 32 := Scalar.addi v0 v39
  let v41 : Index := Scalar.indexCast v40
  ![v41.toNat]
def k0_off62 (k0_t13 : Fin k0_t13_loop.trips) : Fin 1 → Nat :=
  let c0_i32_73 : BitVec 32 := 0#32
  let c0_i32_45 : BitVec 32 := 0#32
  let c1_i32_47 : BitVec 32 := 1#32
  let arg12 : BitVec 32 := Scf.iv c0_i32_45 c1_i32_47 k0_t13
  let c1_i32_72 : BitVec 32 := 1#32
  let v37 : BitVec 32 := Scalar.muli arg12 c1_i32_72
  let v38 : BitVec 32 := Scalar.addi c0_i32_73 v37
  ![v38.toNat]
def k0_off63 (k0_t13 : Fin k0_t13_loop.trips) : Fin 2 → Nat :=
  let c192_i32 : BitVec 32 := 192#32
  let c0_i32_73 : BitVec 32 := 0#32
  let c0_i32_45 : BitVec 32 := 0#32
  let c1_i32_47 : BitVec 32 := 1#32
  let arg12 : BitVec 32 := Scf.iv c0_i32_45 c1_i32_47 k0_t13
  let c1_i32_72 : BitVec 32 := 1#32
  let v37 : BitVec 32 := Scalar.muli arg12 c1_i32_72
  let v38 : BitVec 32 := Scalar.addi c0_i32_73 v37
  let v39 : BitVec 32 := Scalar.addi c192_i32 v38
  let c0_i32_74 : BitVec 32 := 0#32
  ![v39.toNat, 0]
def k0_off64 (v42 : BitVec 32) : Fin 2 → Nat :=
  let c0_i32_75 : BitVec 32 := 0#32
  ![v42.toNat, 0]

def k0_chk13 (v42 : BitVec 32) : Prop :=
  (∀ a, (k0_off64 v42) a + S1x1024.size a ≤ S50000x1024.size a)
instance k0_chk13.dec : ∀ (v42 : BitVec 32), Decidable (k0_chk13 v42) := fun v42 => decidable_of_iff' _ (Iff.of_eq (k0_chk13.eq_1 v42))
theorem k0_off64_inb : ∀ (v42 : BitVec 32) (k0_hw13 : k0_chk13 v42), ∀ a, (k0_off64 v42) a + S1x1024.size a ≤ S50000x1024.size a := fun v42 k0_hw13 => k0_hw13

def k0_off65 (k0_t13 : Fin k0_t13_loop.trips) : Fin 1 → Nat :=
  let c0_i32_73 : BitVec 32 := 0#32
  let c0_i32_45 : BitVec 32 := 0#32
  let c1_i32_47 : BitVec 32 := 1#32
  let arg12 : BitVec 32 := Scf.iv c0_i32_45 c1_i32_47 k0_t13
  let c1_i32_72 : BitVec 32 := 1#32
  let v37 : BitVec 32 := Scalar.muli arg12 c1_i32_72
  let v38 : BitVec 32 := Scalar.addi c0_i32_73 v37
  ![v38.toNat]
def k0_off66 (k0_t13 : Fin k0_t13_loop.trips) : Fin 2 → Nat :=
  let c192_i32 : BitVec 32 := 192#32
  let c0_i32_73 : BitVec 32 := 0#32
  let c0_i32_45 : BitVec 32 := 0#32
  let c1_i32_47 : BitVec 32 := 1#32
  let arg12 : BitVec 32 := Scf.iv c0_i32_45 c1_i32_47 k0_t13
  let c1_i32_72 : BitVec 32 := 1#32
  let v37 : BitVec 32 := Scalar.muli arg12 c1_i32_72
  let v38 : BitVec 32 := Scalar.addi c0_i32_73 v37
  let v39 : BitVec 32 := Scalar.addi c192_i32 v38
  let c1024_i32 : BitVec 32 := 1024#32
  ![v39.toNat, 1024]
def k0_off67 (v44 : BitVec 32) : Fin 2 → Nat :=
  let c0_i32_76 : BitVec 32 := 0#32
  ![v44.toNat, 0]

def k0_chk14 (v44 : BitVec 32) : Prop :=
  (∀ a, (k0_off67 v44) a + S1x1024.size a ≤ S50000x1024.size a)
instance k0_chk14.dec : ∀ (v44 : BitVec 32), Decidable (k0_chk14 v44) := fun v44 => decidable_of_iff' _ (Iff.of_eq (k0_chk14.eq_1 v44))
theorem k0_off67_inb : ∀ (v44 : BitVec 32) (k0_hw14 : k0_chk14 v44), ∀ a, (k0_off67 v44) a + S1x1024.size a ≤ S50000x1024.size a := fun v44 k0_hw14 => k0_hw14

@[reducible] def k0_t14_loop : Scf.Loop 32 :=
  let c0_i32_49 : BitVec 32 := 0#32
  let c32_i32_50 : BitVec 32 := 32#32
  let v14 : BitVec 32 := Scalar.addi c0_i32_49 c32_i32_50
  let c1_i32_51 : BitVec 32 := 1#32
  ⟨c0_i32_49, v14, c1_i32_51⟩
def k0_off68 (k0_t14 : Fin k0_t14_loop.trips) : Fin 1 → Nat :=
  let c0_i32_73 : BitVec 32 := 0#32
  let c0_i32_49 : BitVec 32 := 0#32
  let c1_i32_51 : BitVec 32 := 1#32
  let arg12 : BitVec 32 := Scf.iv c0_i32_49 c1_i32_51 k0_t14
  let c1_i32_72 : BitVec 32 := 1#32
  let v37 : BitVec 32 := Scalar.muli arg12 c1_i32_72
  let v38 : BitVec 32 := Scalar.addi c0_i32_73 v37
  ![v38.toNat]
def k0_off69 (k0_t14 : Fin k0_t14_loop.trips) : Fin 2 → Nat :=
  let c192_i32 : BitVec 32 := 192#32
  let c0_i32_73 : BitVec 32 := 0#32
  let c0_i32_49 : BitVec 32 := 0#32
  let c1_i32_51 : BitVec 32 := 1#32
  let arg12 : BitVec 32 := Scf.iv c0_i32_49 c1_i32_51 k0_t14
  let c1_i32_72 : BitVec 32 := 1#32
  let v37 : BitVec 32 := Scalar.muli arg12 c1_i32_72
  let v38 : BitVec 32 := Scalar.addi c0_i32_73 v37
  let v39 : BitVec 32 := Scalar.addi c192_i32 v38
  let c0_i32_75 : BitVec 32 := 0#32
  ![v39.toNat, 0]
def k0_off70 (k0_t14 : Fin k0_t14_loop.trips) : Fin 2 → Nat :=
  let c192_i32 : BitVec 32 := 192#32
  let c0_i32_73 : BitVec 32 := 0#32
  let c0_i32_49 : BitVec 32 := 0#32
  let c1_i32_51 : BitVec 32 := 1#32
  let arg12 : BitVec 32 := Scf.iv c0_i32_49 c1_i32_51 k0_t14
  let c1_i32_72 : BitVec 32 := 1#32
  let v37 : BitVec 32 := Scalar.muli arg12 c1_i32_72
  let v38 : BitVec 32 := Scalar.addi c0_i32_73 v37
  let v39 : BitVec 32 := Scalar.addi c192_i32 v38
  let c1024_i32 : BitVec 32 := 1024#32
  ![v39.toNat, 1024]
@[reducible] def k0_t15_loop : Scf.Loop 32 :=
  let c0_i32_53 : BitVec 32 := 0#32
  let c32_i32_54 : BitVec 32 := 32#32
  let v15 : BitVec 32 := Scalar.addi c0_i32_53 c32_i32_54
  let c1_i32_55 : BitVec 32 := 1#32
  ⟨c0_i32_53, v15, c1_i32_55⟩
def k0_off71 (i : grid0.Coords) (k0_t15 : Fin k0_t15_loop.trips) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let c0_i32_73 : BitVec 32 := 0#32
  let c0_i32_53 : BitVec 32 := 0#32
  let c1_i32_55 : BitVec 32 := 1#32
  let arg12 : BitVec 32 := Scf.iv c0_i32_53 c1_i32_55 k0_t15
  let c1_i32_72 : BitVec 32 := 1#32
  let v37 : BitVec 32 := Scalar.muli arg12 c1_i32_72
  let v38 : BitVec 32 := Scalar.addi c0_i32_73 v37
  let v39 : BitVec 32 := Scalar.addi c224_i32 v38
  let v40 : BitVec 32 := Scalar.addi v0 v39
  let v41 : Index := Scalar.indexCast v40
  ![v41.toNat]
def k0_off72 (k0_t15 : Fin k0_t15_loop.trips) : Fin 1 → Nat :=
  let c0_i32_73 : BitVec 32 := 0#32
  let c0_i32_53 : BitVec 32 := 0#32
  let c1_i32_55 : BitVec 32 := 1#32
  let arg12 : BitVec 32 := Scf.iv c0_i32_53 c1_i32_55 k0_t15
  let c1_i32_72 : BitVec 32 := 1#32
  let v37 : BitVec 32 := Scalar.muli arg12 c1_i32_72
  let v38 : BitVec 32 := Scalar.addi c0_i32_73 v37
  ![v38.toNat]
def k0_off73 (k0_t15 : Fin k0_t15_loop.trips) : Fin 2 → Nat :=
  let c224_i32 : BitVec 32 := 224#32
  let c0_i32_73 : BitVec 32 := 0#32
  let c0_i32_53 : BitVec 32 := 0#32
  let c1_i32_55 : BitVec 32 := 1#32
  let arg12 : BitVec 32 := Scf.iv c0_i32_53 c1_i32_55 k0_t15
  let c1_i32_72 : BitVec 32 := 1#32
  let v37 : BitVec 32 := Scalar.muli arg12 c1_i32_72
  let v38 : BitVec 32 := Scalar.addi c0_i32_73 v37
  let v39 : BitVec 32 := Scalar.addi c224_i32 v38
  let c0_i32_74 : BitVec 32 := 0#32
  ![v39.toNat, 0]
def k0_off74 (v42 : BitVec 32) : Fin 2 → Nat :=
  let c0_i32_75 : BitVec 32 := 0#32
  ![v42.toNat, 0]

def k0_chk15 (v42 : BitVec 32) : Prop :=
  (∀ a, (k0_off74 v42) a + S1x1024.size a ≤ S50000x1024.size a)
instance k0_chk15.dec : ∀ (v42 : BitVec 32), Decidable (k0_chk15 v42) := fun v42 => decidable_of_iff' _ (Iff.of_eq (k0_chk15.eq_1 v42))
theorem k0_off74_inb : ∀ (v42 : BitVec 32) (k0_hw15 : k0_chk15 v42), ∀ a, (k0_off74 v42) a + S1x1024.size a ≤ S50000x1024.size a := fun v42 k0_hw15 => k0_hw15

def k0_off75 (k0_t15 : Fin k0_t15_loop.trips) : Fin 1 → Nat :=
  let c0_i32_73 : BitVec 32 := 0#32
  let c0_i32_53 : BitVec 32 := 0#32
  let c1_i32_55 : BitVec 32 := 1#32
  let arg12 : BitVec 32 := Scf.iv c0_i32_53 c1_i32_55 k0_t15
  let c1_i32_72 : BitVec 32 := 1#32
  let v37 : BitVec 32 := Scalar.muli arg12 c1_i32_72
  let v38 : BitVec 32 := Scalar.addi c0_i32_73 v37
  ![v38.toNat]
def k0_off76 (k0_t15 : Fin k0_t15_loop.trips) : Fin 2 → Nat :=
  let c224_i32 : BitVec 32 := 224#32
  let c0_i32_73 : BitVec 32 := 0#32
  let c0_i32_53 : BitVec 32 := 0#32
  let c1_i32_55 : BitVec 32 := 1#32
  let arg12 : BitVec 32 := Scf.iv c0_i32_53 c1_i32_55 k0_t15
  let c1_i32_72 : BitVec 32 := 1#32
  let v37 : BitVec 32 := Scalar.muli arg12 c1_i32_72
  let v38 : BitVec 32 := Scalar.addi c0_i32_73 v37
  let v39 : BitVec 32 := Scalar.addi c224_i32 v38
  let c1024_i32 : BitVec 32 := 1024#32
  ![v39.toNat, 1024]
def k0_off77 (v44 : BitVec 32) : Fin 2 → Nat :=
  let c0_i32_76 : BitVec 32 := 0#32
  ![v44.toNat, 0]

def k0_chk16 (v44 : BitVec 32) : Prop :=
  (∀ a, (k0_off77 v44) a + S1x1024.size a ≤ S50000x1024.size a)
instance k0_chk16.dec : ∀ (v44 : BitVec 32), Decidable (k0_chk16 v44) := fun v44 => decidable_of_iff' _ (Iff.of_eq (k0_chk16.eq_1 v44))
theorem k0_off77_inb : ∀ (v44 : BitVec 32) (k0_hw16 : k0_chk16 v44), ∀ a, (k0_off77 v44) a + S1x1024.size a ≤ S50000x1024.size a := fun v44 k0_hw16 => k0_hw16

@[reducible] def k0_t16_loop : Scf.Loop 32 :=
  let c0_i32_57 : BitVec 32 := 0#32
  let c32_i32_58 : BitVec 32 := 32#32
  let v16 : BitVec 32 := Scalar.addi c0_i32_57 c32_i32_58
  let c1_i32_59 : BitVec 32 := 1#32
  ⟨c0_i32_57, v16, c1_i32_59⟩
def k0_off78 (k0_t16 : Fin k0_t16_loop.trips) : Fin 1 → Nat :=
  let c0_i32_73 : BitVec 32 := 0#32
  let c0_i32_57 : BitVec 32 := 0#32
  let c1_i32_59 : BitVec 32 := 1#32
  let arg12 : BitVec 32 := Scf.iv c0_i32_57 c1_i32_59 k0_t16
  let c1_i32_72 : BitVec 32 := 1#32
  let v37 : BitVec 32 := Scalar.muli arg12 c1_i32_72
  let v38 : BitVec 32 := Scalar.addi c0_i32_73 v37
  ![v38.toNat]
def k0_off79 (k0_t16 : Fin k0_t16_loop.trips) : Fin 2 → Nat :=
  let c224_i32 : BitVec 32 := 224#32
  let c0_i32_73 : BitVec 32 := 0#32
  let c0_i32_57 : BitVec 32 := 0#32
  let c1_i32_59 : BitVec 32 := 1#32
  let arg12 : BitVec 32 := Scf.iv c0_i32_57 c1_i32_59 k0_t16
  let c1_i32_72 : BitVec 32 := 1#32
  let v37 : BitVec 32 := Scalar.muli arg12 c1_i32_72
  let v38 : BitVec 32 := Scalar.addi c0_i32_73 v37
  let v39 : BitVec 32 := Scalar.addi c224_i32 v38
  let c0_i32_75 : BitVec 32 := 0#32
  ![v39.toNat, 0]
def k0_off80 (k0_t16 : Fin k0_t16_loop.trips) : Fin 2 → Nat :=
  let c224_i32 : BitVec 32 := 224#32
  let c0_i32_73 : BitVec 32 := 0#32
  let c0_i32_57 : BitVec 32 := 0#32
  let c1_i32_59 : BitVec 32 := 1#32
  let arg12 : BitVec 32 := Scf.iv c0_i32_57 c1_i32_59 k0_t16
  let c1_i32_72 : BitVec 32 := 1#32
  let v37 : BitVec 32 := Scalar.muli arg12 c1_i32_72
  let v38 : BitVec 32 := Scalar.addi c0_i32_73 v37
  let v39 : BitVec 32 := Scalar.addi c224_i32 v38
  let c1024_i32 : BitVec 32 := 1024#32
  ![v39.toNat, 1024]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  numel1_S1 : S1.numel = 1
  squeezes_S1_S_ : S1.Squeezes S_
  squeezes_S1x1024_S1024 : S1x1024.Squeezes S1024
  inb_S50000x1024_S1x1024_0_0 : ∀ a, (![0, 0] : Fin 2 → Nat) a + S1x1024.size a ≤ S50000x1024.size a
  inb_S256x2048_S256x2048_0_0 : ∀ a, (![0, 0] : Fin 2 → Nat) a + S256x2048.size a ≤ S256x2048.size a
  h_S256x2048 : 0 < S256x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hcc0_scratch1 : 6 + S32.numel ≤ 70
  hcc0_scratch2 : 38 + S32.numel ≤ 70
  hrank0 : 0 < grid0.rank
  k0_t1_ok : k0_t1_loop.OK
  k0_off1_inb : ∀ (i : grid0.Coords) (k0_t1 : Fin k0_t1_loop.trips), ∀ a, (k0_off1 i k0_t1) a + S1.size a ≤ S65536.size a
  k0_off2_inb : ∀ k0_t1 : Fin k0_t1_loop.trips, ∀ a, (k0_off2 k0_t1) a + S1.size a ≤ S32.size a
  k0_off3_inb : ∀ k0_t1 : Fin k0_t1_loop.trips, ∀ a, (k0_off3 k0_t1) a + S1x1024.size a ≤ S256x2048.size a
  k0_off5_inb : ∀ k0_t1 : Fin k0_t1_loop.trips, ∀ a, (k0_off5 k0_t1) a + S1.size a ≤ S32.size a
  k0_off6_inb : ∀ k0_t1 : Fin k0_t1_loop.trips, ∀ a, (k0_off6 k0_t1) a + S1x1024.size a ≤ S256x2048.size a
  k0_t2_ok : k0_t2_loop.OK
  k0_off8_inb : ∀ k0_t2 : Fin k0_t2_loop.trips, ∀ a, (k0_off8 k0_t2) a + S1.size a ≤ S32.size a
  k0_off9_inb : ∀ k0_t2 : Fin k0_t2_loop.trips, ∀ a, (k0_off9 k0_t2) a + S1x1024.size a ≤ S256x2048.size a
  k0_off10_inb : ∀ k0_t2 : Fin k0_t2_loop.trips, ∀ a, (k0_off10 k0_t2) a + S1x1024.size a ≤ S256x2048.size a
  k0_t3_ok : k0_t3_loop.OK
  k0_off11_inb : ∀ (i : grid0.Coords) (k0_t3 : Fin k0_t3_loop.trips), ∀ a, (k0_off11 i k0_t3) a + S1.size a ≤ S65536.size a
  k0_off12_inb : ∀ k0_t3 : Fin k0_t3_loop.trips, ∀ a, (k0_off12 k0_t3) a + S1.size a ≤ S32.size a
  k0_off13_inb : ∀ k0_t3 : Fin k0_t3_loop.trips, ∀ a, (k0_off13 k0_t3) a + S1x1024.size a ≤ S256x2048.size a
  k0_off15_inb : ∀ k0_t3 : Fin k0_t3_loop.trips, ∀ a, (k0_off15 k0_t3) a + S1.size a ≤ S32.size a
  k0_off16_inb : ∀ k0_t3 : Fin k0_t3_loop.trips, ∀ a, (k0_off16 k0_t3) a + S1x1024.size a ≤ S256x2048.size a
  k0_t4_ok : k0_t4_loop.OK
  k0_off18_inb : ∀ k0_t4 : Fin k0_t4_loop.trips, ∀ a, (k0_off18 k0_t4) a + S1.size a ≤ S32.size a
  k0_off19_inb : ∀ k0_t4 : Fin k0_t4_loop.trips, ∀ a, (k0_off19 k0_t4) a + S1x1024.size a ≤ S256x2048.size a
  k0_off20_inb : ∀ k0_t4 : Fin k0_t4_loop.trips, ∀ a, (k0_off20 k0_t4) a + S1x1024.size a ≤ S256x2048.size a
  k0_t5_ok : k0_t5_loop.OK
  k0_off21_inb : ∀ (i : grid0.Coords) (k0_t5 : Fin k0_t5_loop.trips), ∀ a, (k0_off21 i k0_t5) a + S1.size a ≤ S65536.size a
  k0_off22_inb : ∀ k0_t5 : Fin k0_t5_loop.trips, ∀ a, (k0_off22 k0_t5) a + S1.size a ≤ S32.size a
  k0_off23_inb : ∀ k0_t5 : Fin k0_t5_loop.trips, ∀ a, (k0_off23 k0_t5) a + S1x1024.size a ≤ S256x2048.size a
  k0_off25_inb : ∀ k0_t5 : Fin k0_t5_loop.trips, ∀ a, (k0_off25 k0_t5) a + S1.size a ≤ S32.size a
  k0_off26_inb : ∀ k0_t5 : Fin k0_t5_loop.trips, ∀ a, (k0_off26 k0_t5) a + S1x1024.size a ≤ S256x2048.size a
  k0_t6_ok : k0_t6_loop.OK
  k0_off28_inb : ∀ k0_t6 : Fin k0_t6_loop.trips, ∀ a, (k0_off28 k0_t6) a + S1.size a ≤ S32.size a
  k0_off29_inb : ∀ k0_t6 : Fin k0_t6_loop.trips, ∀ a, (k0_off29 k0_t6) a + S1x1024.size a ≤ S256x2048.size a
  k0_off30_inb : ∀ k0_t6 : Fin k0_t6_loop.trips, ∀ a, (k0_off30 k0_t6) a + S1x1024.size a ≤ S256x2048.size a
  k0_t7_ok : k0_t7_loop.OK
  k0_off31_inb : ∀ (i : grid0.Coords) (k0_t7 : Fin k0_t7_loop.trips), ∀ a, (k0_off31 i k0_t7) a + S1.size a ≤ S65536.size a
  k0_off32_inb : ∀ k0_t7 : Fin k0_t7_loop.trips, ∀ a, (k0_off32 k0_t7) a + S1.size a ≤ S32.size a
  k0_off33_inb : ∀ k0_t7 : Fin k0_t7_loop.trips, ∀ a, (k0_off33 k0_t7) a + S1x1024.size a ≤ S256x2048.size a
  k0_off35_inb : ∀ k0_t7 : Fin k0_t7_loop.trips, ∀ a, (k0_off35 k0_t7) a + S1.size a ≤ S32.size a
  k0_off36_inb : ∀ k0_t7 : Fin k0_t7_loop.trips, ∀ a, (k0_off36 k0_t7) a + S1x1024.size a ≤ S256x2048.size a
  k0_t8_ok : k0_t8_loop.OK
  k0_off38_inb : ∀ k0_t8 : Fin k0_t8_loop.trips, ∀ a, (k0_off38 k0_t8) a + S1.size a ≤ S32.size a
  k0_off39_inb : ∀ k0_t8 : Fin k0_t8_loop.trips, ∀ a, (k0_off39 k0_t8) a + S1x1024.size a ≤ S256x2048.size a
  k0_off40_inb : ∀ k0_t8 : Fin k0_t8_loop.trips, ∀ a, (k0_off40 k0_t8) a + S1x1024.size a ≤ S256x2048.size a
  k0_t9_ok : k0_t9_loop.OK
  k0_off41_inb : ∀ (i : grid0.Coords) (k0_t9 : Fin k0_t9_loop.trips), ∀ a, (k0_off41 i k0_t9) a + S1.size a ≤ S65536.size a
  k0_off42_inb : ∀ k0_t9 : Fin k0_t9_loop.trips, ∀ a, (k0_off42 k0_t9) a + S1.size a ≤ S32.size a
  k0_off43_inb : ∀ k0_t9 : Fin k0_t9_loop.trips, ∀ a, (k0_off43 k0_t9) a + S1x1024.size a ≤ S256x2048.size a
  k0_off45_inb : ∀ k0_t9 : Fin k0_t9_loop.trips, ∀ a, (k0_off45 k0_t9) a + S1.size a ≤ S32.size a
  k0_off46_inb : ∀ k0_t9 : Fin k0_t9_loop.trips, ∀ a, (k0_off46 k0_t9) a + S1x1024.size a ≤ S256x2048.size a
  k0_t10_ok : k0_t10_loop.OK
  k0_off48_inb : ∀ k0_t10 : Fin k0_t10_loop.trips, ∀ a, (k0_off48 k0_t10) a + S1.size a ≤ S32.size a
  k0_off49_inb : ∀ k0_t10 : Fin k0_t10_loop.trips, ∀ a, (k0_off49 k0_t10) a + S1x1024.size a ≤ S256x2048.size a
  k0_off50_inb : ∀ k0_t10 : Fin k0_t10_loop.trips, ∀ a, (k0_off50 k0_t10) a + S1x1024.size a ≤ S256x2048.size a
  k0_t11_ok : k0_t11_loop.OK
  k0_off51_inb : ∀ (i : grid0.Coords) (k0_t11 : Fin k0_t11_loop.trips), ∀ a, (k0_off51 i k0_t11) a + S1.size a ≤ S65536.size a
  k0_off52_inb : ∀ k0_t11 : Fin k0_t11_loop.trips, ∀ a, (k0_off52 k0_t11) a + S1.size a ≤ S32.size a
  k0_off53_inb : ∀ k0_t11 : Fin k0_t11_loop.trips, ∀ a, (k0_off53 k0_t11) a + S1x1024.size a ≤ S256x2048.size a
  k0_off55_inb : ∀ k0_t11 : Fin k0_t11_loop.trips, ∀ a, (k0_off55 k0_t11) a + S1.size a ≤ S32.size a
  k0_off56_inb : ∀ k0_t11 : Fin k0_t11_loop.trips, ∀ a, (k0_off56 k0_t11) a + S1x1024.size a ≤ S256x2048.size a
  k0_t12_ok : k0_t12_loop.OK
  k0_off58_inb : ∀ k0_t12 : Fin k0_t12_loop.trips, ∀ a, (k0_off58 k0_t12) a + S1.size a ≤ S32.size a
  k0_off59_inb : ∀ k0_t12 : Fin k0_t12_loop.trips, ∀ a, (k0_off59 k0_t12) a + S1x1024.size a ≤ S256x2048.size a
  k0_off60_inb : ∀ k0_t12 : Fin k0_t12_loop.trips, ∀ a, (k0_off60 k0_t12) a + S1x1024.size a ≤ S256x2048.size a
  k0_t13_ok : k0_t13_loop.OK
  k0_off61_inb : ∀ (i : grid0.Coords) (k0_t13 : Fin k0_t13_loop.trips), ∀ a, (k0_off61 i k0_t13) a + S1.size a ≤ S65536.size a
  k0_off62_inb : ∀ k0_t13 : Fin k0_t13_loop.trips, ∀ a, (k0_off62 k0_t13) a + S1.size a ≤ S32.size a
  k0_off63_inb : ∀ k0_t13 : Fin k0_t13_loop.trips, ∀ a, (k0_off63 k0_t13) a + S1x1024.size a ≤ S256x2048.size a
  k0_off65_inb : ∀ k0_t13 : Fin k0_t13_loop.trips, ∀ a, (k0_off65 k0_t13) a + S1.size a ≤ S32.size a
  k0_off66_inb : ∀ k0_t13 : Fin k0_t13_loop.trips, ∀ a, (k0_off66 k0_t13) a + S1x1024.size a ≤ S256x2048.size a
  k0_t14_ok : k0_t14_loop.OK
  k0_off68_inb : ∀ k0_t14 : Fin k0_t14_loop.trips, ∀ a, (k0_off68 k0_t14) a + S1.size a ≤ S32.size a
  k0_off69_inb : ∀ k0_t14 : Fin k0_t14_loop.trips, ∀ a, (k0_off69 k0_t14) a + S1x1024.size a ≤ S256x2048.size a
  k0_off70_inb : ∀ k0_t14 : Fin k0_t14_loop.trips, ∀ a, (k0_off70 k0_t14) a + S1x1024.size a ≤ S256x2048.size a
  k0_t15_ok : k0_t15_loop.OK
  k0_off71_inb : ∀ (i : grid0.Coords) (k0_t15 : Fin k0_t15_loop.trips), ∀ a, (k0_off71 i k0_t15) a + S1.size a ≤ S65536.size a
  k0_off72_inb : ∀ k0_t15 : Fin k0_t15_loop.trips, ∀ a, (k0_off72 k0_t15) a + S1.size a ≤ S32.size a
  k0_off73_inb : ∀ k0_t15 : Fin k0_t15_loop.trips, ∀ a, (k0_off73 k0_t15) a + S1x1024.size a ≤ S256x2048.size a
  k0_off75_inb : ∀ k0_t15 : Fin k0_t15_loop.trips, ∀ a, (k0_off75 k0_t15) a + S1.size a ≤ S32.size a
  k0_off76_inb : ∀ k0_t15 : Fin k0_t15_loop.trips, ∀ a, (k0_off76 k0_t15) a + S1x1024.size a ≤ S256x2048.size a
  k0_t16_ok : k0_t16_loop.OK
  k0_off78_inb : ∀ k0_t16 : Fin k0_t16_loop.trips, ∀ a, (k0_off78 k0_t16) a + S1.size a ≤ S32.size a
  k0_off79_inb : ∀ k0_t16 : Fin k0_t16_loop.trips, ∀ a, (k0_off79 k0_t16) a + S1x1024.size a ≤ S256x2048.size a
  k0_off80_inb : ∀ k0_t16 : Fin k0_t16_loop.trips, ∀ a, (k0_off80 k0_t16) a + S1x1024.size a ≤ S256x2048.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S2048x1024.size a ≤ S2048x1024.size a
  hwx0_0 : ∀ i : grid0.Coords, EltTy.bits .bf16 = 32 ∨ (Rect.block (s := S2048x1024) S2048x1024.size (cc0_transform_1 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S1024.size a ≤ S1024.size a
  hwx0_1 : ∀ i : grid0.Coords, EltTy.bits .f32 = 32 ∨ (Rect.block (s := S1024) S1024.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1024x1024.size a ≤ S1024x1024.size a
  hwx0_2 : ∀ i : grid0.Coords, EltTy.bits .bf16 = 32 ∨ (Rect.block (s := S1024x1024) S1024x1024.size (cc0_transform_3 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1024.size a ≤ S1024.size a
  hwx0_3 : ∀ i : grid0.Coords, EltTy.bits .f32 = 32 ∨ (Rect.block (s := S1024) S1024.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S256x1024.size a ≤ S65536x1024.size a
  hwx0_4 : ∀ i : grid0.Coords, EltTy.bits .f32 = 32 ∨ (Rect.block (s := S65536x1024) S256x1024.size (cc0_transform_5 i) (hinb0_4 i)).WholeWords (EltTy.packing .f32)

variable [Facts₀]

abbrev cc0_scratch1 : DmaSems sig S32 := SemArray.consecutive 6 S32 hcc0_scratch1
abbrev cc0_scratch2 : DmaSems sig S32 := SemArray.consecutive 38 S32 hcc0_scratch2
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev spec0_0 : Pipeline.WinSpec sig grid0.rank :=
  Pipeline.WinSpec.ofSpec (Memref.whole main_v0) S2048x1024.size reads0_0 false true 1 stage0_0 sem0_0 nbuf0_0 hstage0_0

abbrev spec0_1 : Pipeline.WinSpec sig grid0.rank :=
  Pipeline.WinSpec.ofSpec (Memref.whole main_arg4) S1024.size reads0_1 false true 1 stage0_1 sem0_1 nbuf0_1 hstage0_1

abbrev spec0_2 : Pipeline.WinSpec sig grid0.rank :=
  Pipeline.WinSpec.ofSpec (Memref.whole main_v1) S1024x1024.size reads0_2 false true 1 stage0_2 sem0_2 nbuf0_2 hstage0_2

abbrev spec0_3 : Pipeline.WinSpec sig grid0.rank :=
  Pipeline.WinSpec.ofSpec (Memref.whole main_arg6) S1024.size reads0_3 false true 1 stage0_3 sem0_3 nbuf0_3 hstage0_3

abbrev spec0_4 : Pipeline.WinSpec sig grid0.rank :=
  Pipeline.WinSpec.ofSpec (Memref.whole main_v2) S256x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_1 | 1 => cc0_transform_2 | 2 => cc0_transform_3 | 3 => cc0_transform_4 | 4 => cc0_transform_5 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S50000x1024 : Shape := ⟨2, ![50000, 1024]⟩
abbrev S65536 : Shape := ⟨1, ![65536]⟩
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S65536x1 : Shape := ⟨2, ![65536, 1]⟩
abbrev S65536x1024 : Shape := ⟨2, ![65536, 1024]⟩
abbrev S65536x2048 : Shape := ⟨2, ![65536, 2048]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S65536, .i32⟩
  | .hbm, ⟨2, _⟩ => ⟨S65536, .i32⟩
  | .hbm, ⟨3, _⟩ => ⟨S2048x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x1024, .f32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S_, .i32⟩
  | .hbm, ⟨20, _⟩ => ⟨S65536, .i32⟩
  | .hbm, ⟨21, _⟩ => ⟨S65536, .i32⟩
  | .hbm, ⟨22, _⟩ => ⟨S65536, .i32⟩
  | .hbm, ⟨23, _⟩ => ⟨S65536x1, .i32⟩
  | .hbm, ⟨24, _⟩ => ⟨S65536x1024, .f32⟩
  | .hbm, ⟨25, _⟩ => ⟨S65536x2048, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x1024_S65536x1024_S65536x2048_d1 : Shape.Concatenates [S65536x1024, S65536x1024] S65536x2048 1
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  gather_S50000x1024_S65536x1_S65536x1024_1_0_n_n_0_1_11024_wf : GatherDims.WF S50000x1024 S65536x1 S65536x1024 [1] [0] [] [0] [] 1 ![1, 1024]
  dot_S65536x2048_S2048x1024_S65536x1024_1_0_0_1_n_n_wf : DotDims.WF S65536x2048 S2048x1024 S65536x1024 [1] [0] [0] [1] [] []
  dot_S65536x1024_S1024x1024_S65536x1024_1_0_0_1_n_n_wf : DotDims.WF S65536x1024 S1024x1024 S65536x1024 [1] [0] [0] [1] [] []

variable [Facts₀]

def gather_S50000x1024_S65536x1_S65536x1024_1_0_n_n_0_1_11024 : GatherDims S50000x1024 S65536x1 S65536x1024 where
  offsetDims := [1]
  collapsedSliceDims := [0]
  operandBatchingDims := []
  startIndicesBatchingDims := []
  startIndexMap := [0]
  indexVectorDim := 1
  sliceSizes := ![1, 1024]
  wf := gather_S50000x1024_S65536x1_S65536x1024_1_0_n_n_0_1_11024_wf
def dot_S65536x2048_S2048x1024_S65536x1024_1_0_0_1_n_n : DotDims S65536x2048 S2048x1024 S65536x1024 where
  lhsContracting := [1]
  rhsContracting := [0]
  lhsNonContracting := [0]
  rhsNonContracting := [1]
  lhsBatch := []
  rhsBatch := []
  wf := dot_S65536x2048_S2048x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Range.lean ====
import proofs.«421332_j47682726921127_1_alg».proof.Pre_finite_inputs
import Idealize.ShloMosaic.Lib.ReduceAll
import Idealize.ShloMosaic.Lib.StableHlo.Predicate

noncomputable section

namespace Cert.Proof.Range

open Idealize.ShloMosaic Cert.Pre_finite_inputs

instance subsingleton_scalar_idx : Subsingleton S_.Idx := ⟨fun a b => funext fun d => d.elim0⟩

def j0 : S_.Idx := fun d => d.elim0

theorem word_lt (w : BitVec 32) (hge : IntOp.cmpi .sge w 0#32 = 1#1) (hlt : IntOp.cmpi .slt w 50000#32 = 1#1) :
    w.toNat < 50000 := by
  simp only [IntOp.cmpi, StableHlo.Predicate.ofBool_eq_one_iff, BitVec.sle, BitVec.slt, decide_eq_true_eq] at hge hlt
  have z : (0#32 : BitVec 32).toInt = 0 := by decide
  have b : (50000#32 : BitVec 32).toInt = 50000 := by decide
  rw [z] at hge
  rw [b] at hlt
  have hw := w.isLt
  have hc := BitVec.toInt_eq_toNat_cond w
  by_cases htop : 2 * w.toNat < 2 ^ 32
  · rw [if_pos htop] at hc
    omega
  · rw [if_neg htop] at hc
    omega

section decode

variable {F : FTy → Type} [FloatOps F] [Facts]

theorem conjuncts (a0 : FVec F S50000x1024 .f32) (a1 a2 : IVec S65536 32) (a3 : FVec F S2048x1024 .f32)
    (a4 : FVec F S1024 .f32) (a5 : FVec F S1024x1024 .f32) (a6 : FVec F S1024 .f32)
    (h : fn (F := F) a0 a1 a2 a3 a4 a5 a6 = fun _ => 1#1) :
    (∀ e, IntOp.cmpi .sge (a1 e) 0#32 = 1#1 ∧ IntOp.cmpi .slt (a1 e) 50000#32 = 1#1) ∧
    (∀ e, IntOp.cmpi .sge (a2 e) 0#32 = 1#1 ∧ IntOp.cmpi .slt (a2 e) 50000#32 = 1#1) := by
  have e := congrFun h j0
  unfold fn at e
  dsimp only at e
  unfold fn_part1 at e
  dsimp only at e
  unfold fn_part2 at e
  dsimp only at e

  have hd : Host.reduce IntOp.andi
      (andi (cmpi CmpIPredicate.sge a2 (broadcastInDim S65536 ![] Facts.bcast_S_S65536 (constantI S_ 32 0#32)))
        (cmpi CmpIPredicate.slt a2 (broadcastInDim S65536 ![] Facts.bcast_S_S65536 (constantI S_ 32 50000#32))))
      (constantI S_ 1 1#1) Facts.reducesTo_S65536_S_d0 Facts.h_S_ j0 = 1#1 := (IntOp.andi_eq_one.1 e).2
  have hs : Host.reduce IntOp.andi
      (andi (cmpi CmpIPredicate.sge a1 (broadcastInDim S65536 ![] Facts.bcast_S_S65536 (constantI S_ 32 0#32)))
        (cmpi CmpIPredicate.slt a1 (broadcastInDim S65536 ![] Facts.bcast_S_S65536 (constantI S_ 32 50000#32))))
      (constantI S_ 1 1#1) Facts.reducesTo_S65536_S_d0 Facts.h_S_ j0 = 1#1 :=
    (IntOp.andi_eq_one.1 (IntOp.andi_eq_one.1 e).1).2

  refine ⟨fun i => ?_, fun i => ?_⟩
  · exact IntOp.andi_eq_one.1 (Host.reduce_andi_all _ _ _ _ _ hs i)
  · exact IntOp.andi_eq_one.1 (Host.reduce_andi_all _ _ _ _ _ hd i)

theorem src_lt (a0 : FVec F S50000x1024 .f32) (a1 a2 : IVec S65536 32) (a3 : FVec F S2048x1024 .f32)
    (a4 : FVec F S1024 .f32) (a5 : FVec F S1024x1024 .f32) (a6 : FVec F S1024 .f32)
    (h : fn (F := F) a0 a1 a2 a3 a4 a5 a6 = fun _ => 1#1) : ∀ e, (a1 e).toNat < 50000 :=
  fun e => word_lt _ ((conjuncts a0 a1 a2 a3 a4 a5 a6 h).1 e).1 ((conjuncts a0 a1 a2 a3 a4 a5 a6 h).1 e).2

theorem dst_lt (a0 : FVec F S50000x1024 .f32) (a1 a2 : IVec S65536 32) (a3 : FVec F S2048x1024 .f32)
    (a4 : FVec F S1024 .f32) (a5 : FVec F S1024x1024 .f32) (a6 : FVec F S1024 .f32)
    (h : fn (F := F) a0 a1 a2 a3 a4 a5 a6 = fun _ => 1#1) : ∀ e, (a2 e).toNat < 50000 :=
  fun e => word_lt _ ((conjuncts a0 a1 a2 a3 a4 a5 a6 h).2 e).1 ((conjuncts a0 a1 a2 a3 a4 a5 a6 h).2 e).2

end decode

end Cert.Proof.Range

end
-- ==== Proof.Tile.lean ====
import proofs.«421332_j47682726921127_1_alg».proof.Proof.Gen.KernelIdeal.Skeleton
import Idealize.ShloMosaic.Lib.ValueIdx

noncomputable section

namespace Cert.Proof.EdgeMlp

open Cert.KernelIdeal Cert.KernelIdeal.Gen
open Idealize.ShloMosaic Idealize.ShloMosaic.ValueIdx

variable {F : FTy → Type} [FloatOps F]

def rowOf (w : BitVec 32) : Fin 50000 := ⟨min w.toNat 49999, by omega⟩

theorem rowOf_val_of_lt {w : BitVec 32} (h : w.toNat < 50000) : (rowOf w).val = w.toNat := by
  show min w.toNat 49999 = w.toNat; omega

def edgeOf (t : Fin 256) (r : Fin 256) : Fin 65536 := ⟨256 * t.val + r.val, by have := t.isLt; have := r.isLt; omega⟩

def gathered (src dst : IVec S65536 32) (nf : Vec F S50000x1024 .f32) (t : Fin 256) : Vec F S256x2048 .f32 :=
  fun y =>
    have hy : (y 1).val < 2048 := (y 1).isLt
    if h : (y 1).val < 1024 then nf (ix2 (rowOf (src (ix1 (edgeOf t (y 0))))) ⟨(y 1).val, h⟩)
    else nf (ix2 (rowOf (dst (ix1 (edgeOf t (y 0))))) ⟨(y 1).val - 1024, by omega⟩)

def outTile (src dst : IVec S65536 32) (nf : Vec F S50000x1024 .f32) (t : Fin 256)
    (w1 : Vec F S2048x1024 .bf16) (b1 : Vec F S1024 .f32) (w2 : Vec F S1024x1024 .bf16) (b2 : Vec F S1024 .f32) : FVec F S256x1024 .f32 :=
  k0_pay1 (k0_pay2 (gathered src dst nf t) w1 b1) w2 b2

end Cert.Proof.EdgeMlp

end
-- ==== Proof.Body.lean ====
import proofs.«421332_j47682726921127_1_alg».proof.Proof.Tile
import proofs.«421332_j47682726921127_1_alg».proof.Proof.Gen.KernelIdeal.Loops
import proofs.«421332_j47682726921127_1_alg».proof.Proof.Gen.KernelIdeal.Launch
import Idealize.ShloMosaic.Lib.Tactic
import Idealize.ShloMosaic.Lib.Pipeline.Kit

noncomputable section

namespace Cert.Proof.EdgeMlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev osem : Fin 64 → SemLoc sig := fun j => .dma ⟨6 + j.val, by have := j.isLt; show 6 + j.val < 70; omega⟩

abbrev tOf (i : grid0.Coords) : Fin 256 := ⟨(i 0).val, (i 0).isLt⟩

end Cert.Proof.EdgeMlp

end
-- ==== Proof.Lanes.lean ====
import proofs.«421332_j47682726921127_1_alg».proof.Proof.Body
import Idealize.ShloMosaic.Lib.Ring
import Idealize.ShloMosaic.Lib.Transfers

noncomputable section

namespace Cert.Proof.EdgeMlp

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev A9 : Memref sig .tc .vmem S256x2048 .f32 := Memref.whole cc0_scratch0
abbrev A3 : Memref sig .tc .hbm S50000x1024 .f32 := Memref.whole main_arg0
abbrev T1 : Memref sig .tc .smem S65536 .i32 := Memref.whole main_arg1
abbrev T2 : Memref sig .tc .smem S65536 .i32 := Memref.whole main_arg2

theorem inbA (r : Fin 256) : ∀ a, (![r.val, 0] : Fin 2 → Nat) a + S1x1024.size a ≤ S256x2048.size a := by
  have := r.isLt; intro a; fin_cases a
  · show r.val + 1 ≤ 256; omega
  · show 0 + 1024 ≤ 2048; omega
theorem inbB (r : Fin 256) : ∀ a, (![r.val, 1024] : Fin 2 → Nat) a + S1x1024.size a ≤ S256x2048.size a := by
  have := r.isLt; intro a; fin_cases a
  · show r.val + 1 ≤ 256; omega
  · show 1024 + 1024 ≤ 2048; omega

def slotA (r : Fin 256) : Memref sig .tc .vmem S1024 .f32 :=
  (A9.slice (Rect.unit (s := S256x2048) ![r.val, 0] S1x1024.size (inbA r)) (fun _ => rfl)).squeeze S1024 squeezes_S1x1024_S1024
def slotB (r : Fin 256) : Memref sig .tc .vmem S1024 .f32 :=
  (A9.slice (Rect.unit (s := S256x2048) ![r.val, 1024] S1x1024.size (inbB r)) (fun _ => rfl)).squeeze S1024 squeezes_S1x1024_S1024

abbrev cellA (j : Fin 32) : SemLoc sig := .dma ⟨6 + j.val, by have := j.isLt; show 6 + j.val < 70; omega⟩
abbrev cellB (j : Fin 32) : SemLoc sig := .dma ⟨38 + j.val, by have := j.isLt; show 38 + j.val < 70; omega⟩

abbrev laneOf (r : Fin 256) : Fin 32 := ⟨r.val % 32, Nat.mod_lt _ (by decide)⟩

theorem inbRow (w : BitVec 32) (hw : w.toNat < 50000) : ∀ a, (![w.toNat, 0] : Fin 2 → Nat) a + S1x1024.size a ≤ S50000x1024.size a := by
  intro a; fin_cases a
  · show w.toNat + 1 ≤ 50000; omega
  · show 0 + 1024 ≤ 1024; omega

def srcRow (w : BitVec 32) (hw : w.toNat < 50000) : Memref sig .tc .hbm S1024 .f32 :=
  (A3.slice (Rect.unit (s := S50000x1024) ![w.toNat, 0] S1x1024.size (inbRow w hw)) (fun _ => rfl)).squeeze S1024 squeezes_S1x1024_S1024

section Core

variable (c : Dev nD)

def wS (f1 : Bf (F := F) c T1) (i : grid0.Coords) (r : Fin 256) : BitVec 32 := T1.view.read (Elt F) f1 (ix1 (edgeOf (tOf i) r))
def wD (f2 : Bf (F := F) c T2) (i : grid0.Coords) (r : Fin 256) : BitVec 32 := T2.view.read (Elt F) f2 (ix1 (edgeOf (tOf i) r))

abbrev tok (n : ℕ) (S : Finset (Idx (A3.view.loc (c : Thread nD τ)))) (fa : Bf (F := F) c A3) : sProp 𝕄 :=
  A3.view.loc (c : Thread nD τ) ↦[S]{Transfers.shareTokN fullShare n} fa

def rowPay (fa : Bf (F := F) c A3) (w : BitVec 32) (hw : w.toNat < 50000) : S1024.Idx → Elt F .f32 :=
  ReadAs.same.apply ((srcRow w hw).view.read (Elt F) fa)

def IdleAt (fa : Bf (F := F) c A3) (n : ℕ) (cA cB : SemLoc sig) : sProp 𝕄 :=
  iprop(semVal ((c : Thread nD τ), cA) 0 ∗ semVal ((c : Thread nD τ), cB) 0
    ∗ tok c (2 * n) Finset.univ fa ∗ tok c (2 * n + 1) Finset.univ fa)

def FreshAt (sA sB : Memref sig .tc .vmem S1024 .f32) : sProp 𝕄 :=
  iprop((∃ f, sA.view.loc (c : Thread nD τ) ↦[sA.view.set]{fullShare} f)
    ∗ (∃ f, sB.view.loc (c : Thread nD τ) ↦[sB.view.set]{fullShare} f))

def FlyingAt (fa : Bf (F := F) c A3) (n : ℕ) (cA cB : SemLoc sig) (sA sB : Memref sig .tc .vmem S1024 .f32)
    (ws wd : BitVec 32) (hs : ws.toNat < 50000) (hd : wd.toNat < 50000) : sProp 𝕄 :=
  iprop((∃ f, Transfers.Flight (countersEmb (U := UU nD τ)) (c : Thread nD τ) cA () 1024
            iprop((sA.view.loc (c : Thread nD τ) ↦[sA.view.set]{fullShare}
                    sA.view.writes (Elt F) f [⟨Rect.whole S1024, rowPay c fa ws hs⟩])
              ∗ tok c (2 * n) (srcRow ws hs).view.set fa))
    ∗ tok c (2 * n) (Finset.univ \ (srcRow ws hs).view.set) fa
    ∗ (∃ f, Transfers.Flight (countersEmb (U := UU nD τ)) (c : Thread nD τ) cB () 1024
            iprop((sB.view.loc (c : Thread nD τ) ↦[sB.view.set]{fullShare}
                    sB.view.writes (Elt F) f [⟨Rect.whole S1024, rowPay c fa wd hd⟩])
              ∗ tok c (2 * n + 1) (srcRow wd hd).view.set fa))
    ∗ tok c (2 * n + 1) (Finset.univ \ (srcRow wd hd).view.set) fa)

def LandedAt (fa : Bf (F := F) c A3) (sA sB : Memref sig .tc .vmem S1024 .f32)
    (ws wd : BitVec 32) (hs : ws.toNat < 50000) (hd : wd.toNat < 50000) : sProp 𝕄 :=
  iprop((∃ f, sA.view.loc (c : Thread nD τ) ↦[sA.view.set]{fullShare}
              sA.view.writes (Elt F) f [⟨Rect.whole S1024, rowPay c fa ws hs⟩])
    ∗ (∃ f, sB.view.loc (c : Thread nD τ) ↦[sB.view.set]{fullShare}
              sB.view.writes (Elt F) f [⟨Rect.whole S1024, rowPay c fa wd hd⟩]))

/-- Lane `j` idle, row `r` fresh, flying and landed: the same over the lane's own cells and the row's own half rows. -/
def LaneIdle (fa : Bf (F := F) c A3) (j : Fin 32) : sProp 𝕄 := IdleAt c fa j.val (cellA j) (cellB j)
def RowFresh (r : Fin 256) : sProp 𝕄 := FreshAt (F := F) c (slotA r) (slotB r)
def RowFlying (fa : Bf (F := F) c A3) (r : Fin 256) (ws wd : BitVec 32) (hs : ws.toNat < 50000) (hd : wd.toNat < 50000) : sProp 𝕄 :=
  FlyingAt c fa (laneOf r).val (cellA (laneOf r)) (cellB (laneOf r)) (slotA r) (slotB r) ws wd hs hd
def RowLanded (fa : Bf (F := F) c A3) (r : Fin 256) (ws wd : BitVec 32) (hs : ws.toNat < 50000) (hd : wd.toNat < 50000) : sProp 𝕄 :=
  LandedAt c fa (slotA r) (slotB r) ws wd hs hd

end Core

end Cert.Proof.EdgeMlp

end
-- ==== Proof.TripLib.lean ====
import proofs.«421332_j47682726921127_1_alg».proof.Proof.Lanes

noncomputable section

namespace Cert.Proof.EdgeMlp

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev halfAt (o : Fin 2 → Nat) (hb : ∀ a, o a + S1x1024.size a ≤ S256x2048.size a) : Memref sig .tc .vmem S1024 .f32 :=
  (A9.slice (Rect.unit (s := S256x2048) o S1x1024.size hb) (fun _ => rfl)).squeeze S1024 squeezes_S1x1024_S1024
abbrev cell1At (o : Fin 1 → Nat) (hb : ∀ a, o a + S1.size a ≤ S32.size a) : DmaSems sig S_ :=
  (cc0_scratch1.slice (Rect.unit (s := S32) o S1.size hb)).squeeze S_ squeezes_S1_S_
abbrev cell2At (o : Fin 1 → Nat) (hb : ∀ a, o a + S1.size a ≤ S32.size a) : DmaSems sig S_ :=
  (cc0_scratch2.slice (Rect.unit (s := S32) o S1.size hb)).squeeze S_ squeezes_S1_S_

theorem inbCell (j : Fin 32) : ∀ a, (![j.val] : Fin 1 → Nat) a + S1.size a ≤ S32.size a := by
  have := j.isLt; intro a; fin_cases a; show j.val + 1 ≤ 32; omega

theorem slotA_eq (r : Fin 256) {o : Fin 2 → Nat} (ho : o = ![r.val, 0]) (hb : ∀ a, o a + S1x1024.size a ≤ S256x2048.size a) :
    slotA r = halfAt o hb := by subst ho; rfl
theorem slotB_eq (r : Fin 256) {o : Fin 2 → Nat} (ho : o = ![r.val, 1024]) (hb : ∀ a, o a + S1x1024.size a ≤ S256x2048.size a) :
    slotB r = halfAt o hb := by subst ho; rfl

theorem cell1_sem : ∀ j : Fin 32, (cell1At ![j.val] (inbCell j)).sem = ⟨6 + j.val, by have := j.isLt; show 6 + j.val < 70; omega⟩ := by decide +kernel
theorem cell2_sem : ∀ j : Fin 32, (cell2At ![j.val] (inbCell j)).sem = ⟨38 + j.val, by have := j.isLt; show 38 + j.val < 70; omega⟩ := by decide +kernel

theorem cellA_eq (j : Fin 32) {o : Fin 1 → Nat} (ho : o = ![j.val]) (hb : ∀ a, o a + S1.size a ≤ S32.size a) :
    cellA j = SemLoc.dma (cell1At o hb).sem := by subst ho; rw [cell1_sem j]
theorem cellB_eq (j : Fin 32) {o : Fin 1 → Nat} (ho : o = ![j.val]) (hb : ∀ a, o a + S1.size a ≤ S32.size a) :
    cellB j = SemLoc.dma (cell2At o hb).sem := by subst ho; rw [cell2_sem j]

theorem word_eq {κ : Kind} {sp : Space} (v : View sig κ sp S65536 .i32) (f : v.ty.Contents (Elt F)) (e : Fin 65536)
    {o : Fin 1 → Nat} (ho : o = ![e.val]) (hb : ∀ a, o a + S1.size a ≤ S65536.size a) (h1 : 0 < (Rect.unit (s := S65536) o S1.size hb).toLoadRect.shape.numel) :
    v.readAt (Elt F) (Rect.unit (s := S65536) o S1.size hb).toLoadRect f (Shape.Idx.first h1) = v.read (Elt F) f (ix1 e) := by
  subst ho
  rw [View.readAt_apply]
  congr 1
  funext a; fin_cases a
  apply Fin.ext
  simp [LoadRect.idx, Shape.Idx.first, Rect.unit]

section Core

variable (c : Dev nD)

theorem wS_eq (f1 : Bf (F := F) c T1) (i : grid0.Coords) (r : Fin 256) {o : Fin 1 → Nat} (ho : o = ![(edgeOf (tOf i) r).val])
    (hb : ∀ a, o a + S1.size a ≤ S65536.size a) (h1 : 0 < (Rect.unit (s := S65536) o S1.size hb).toLoadRect.shape.numel) :
    wS c f1 i r = T1.view.readAt (Elt F) (Rect.unit (s := S65536) o S1.size hb).toLoadRect f1 (Shape.Idx.first h1) :=
  (word_eq T1.view f1 (edgeOf (tOf i) r) ho hb h1).symm
theorem wD_eq (f2 : Bf (F := F) c T2) (i : grid0.Coords) (r : Fin 256) {o : Fin 1 → Nat} (ho : o = ![(edgeOf (tOf i) r).val])
    (hb : ∀ a, o a + S1.size a ≤ S65536.size a) (h1 : 0 < (Rect.unit (s := S65536) o S1.size hb).toLoadRect.shape.numel) :
    wD c f2 i r = T2.view.readAt (Elt F) (Rect.unit (s := S65536) o S1.size hb).toLoadRect f2 (Shape.Idx.first h1) :=
  (word_eq T2.view f2 (edgeOf (tOf i) r) ho hb h1).symm

theorem LaneIdle_at (fa : Bf (F := F) c A3) (j : Fin 32) {pA pB : Fin 1 → Nat} (hpA : pA = ![j.val]) (hpB : pB = ![j.val])
    (hbA : ∀ a, pA a + S1.size a ≤ S32.size a) (hbB : ∀ a, pB a + S1.size a ≤ S32.size a) :
    LaneIdle c fa j = IdleAt c fa j.val (SemLoc.dma (cell1At pA hbA).sem) (SemLoc.dma (cell2At pB hbB).sem) := by
  rw [← cellA_eq j hpA hbA, ← cellB_eq j hpB hbB]; rfl

theorem RowFresh_at (r : Fin 256) {oA oB : Fin 2 → Nat} (hoA : oA = ![r.val, 0]) (hoB : oB = ![r.val, 1024])
    (hbA : ∀ a, oA a + S1x1024.size a ≤ S256x2048.size a) (hbB : ∀ a, oB a + S1x1024.size a ≤ S256x2048.size a) :
    RowFresh (F := F) c r = FreshAt (F := F) c (halfAt oA hbA) (halfAt oB hbB) := by
  rw [← slotA_eq r hoA hbA, ← slotB_eq r hoB hbB]; rfl

theorem RowFlying_at (fa : Bf (F := F) c A3) (r : Fin 256) (j : Fin 32) (hj : r.val % 32 = j.val)
    {oA oB : Fin 2 → Nat} (hoA : oA = ![r.val, 0]) (hoB : oB = ![r.val, 1024])
    (hbA : ∀ a, oA a + S1x1024.size a ≤ S256x2048.size a) (hbB : ∀ a, oB a + S1x1024.size a ≤ S256x2048.size a)
    {pA pB : Fin 1 → Nat} (hpA : pA = ![j.val]) (hpB : pB = ![j.val])
    (hcA : ∀ a, pA a + S1.size a ≤ S32.size a) (hcB : ∀ a, pB a + S1.size a ≤ S32.size a)
    {ws wd ws' wd' : BitVec 32} (es : ws = ws') (ed : wd = wd')
    (hs : ws.toNat < 50000) (hd : wd.toNat < 50000) (hs' : ws'.toNat < 50000) (hd' : wd'.toNat < 50000) :
    RowFlying c fa r ws wd hs hd
      = FlyingAt c fa j.val (SemLoc.dma (cell1At pA hcA).sem) (SemLoc.dma (cell2At pB hcB).sem) (halfAt oA hbA) (halfAt oB hbB) ws' wd' hs' hd' := by
  subst es ed
  have hl : laneOf r = j := Fin.ext hj
  rw [← cellA_eq j hpA hcA, ← cellB_eq j hpB hcB, ← slotA_eq r hoA hbA, ← slotB_eq r hoB hbB, ← hl]; rfl

theorem RowLanded_at (fa : Bf (F := F) c A3) (r : Fin 256)
    {oA oB : Fin 2 → Nat} (hoA : oA = ![r.val, 0]) (hoB : oB = ![r.val, 1024])
    (hbA : ∀ a, oA a + S1x1024.size a ≤ S256x2048.size a) (hbB : ∀ a, oB a + S1x1024.size a ≤ S256x2048.size a)
    (ws wd : BitVec 32) (hs : ws.toNat < 50000) (hd : wd.toNat < 50000) :
    RowLanded c fa r ws wd hs hd = LandedAt c fa (halfAt oA hbA) (halfAt oB hbB) ws wd hs hd := by
  rw [← slotA_eq r hoA hbA, ← slotB_eq r hoB hbB]; rfl

end Core

end Cert.Proof.EdgeMlp

end
-- ==== Proof.Sep.lean ====
import Idealize.SL.ProofMode.BigOp
import Mathlib.Logic.Equiv.Fin.Basic
import Idealize.ShloMosaic.Lib.Pipeline.Kit

noncomputable section

namespace Cert.Proof.Sep

open Idealize.SL Idealize.SL.RA Idealize.SL.BI
open scoped Idealize.SL.BI
open Idealize.SL.BI.BIBase

universe u
variable {M : Type u} [URA M]

section Thresh

variable {n : ℕ} (P Q : Fin n → sProp M)

/-- Below `k` in state `P`, from `k` on in state `Q`: a loop's invariant before trip `k`. -/
def thresh (k : ℕ) : sProp M := bigSep Finset.univ fun j : Fin n => if j.val < k then P j else Q j

theorem thresh_zero : thresh P Q 0 = bigSep Finset.univ Q :=
  bigSep_congr fun j _ => if_neg (Nat.not_lt_zero _)

theorem thresh_full {k : ℕ} (h : n ≤ k) : thresh P Q k = bigSep Finset.univ P :=
  bigSep_congr fun j _ => if_pos (lt_of_lt_of_le j.isLt h)

def threshRest (k : Fin n) : sProp M := bigSep (Finset.univ.erase k) fun j : Fin n => if j.val < k.val then P j else Q j

theorem thresh_take (k : Fin n) : thresh P Q k.val = iprop(Q k ∗ threshRest P Q k) := by
  unfold thresh threshRest
  rw [bigSep_erase (Finset.mem_univ k), if_neg (lt_irrefl _)]
  rfl

theorem thresh_put (k : Fin n) : iprop(P k ∗ threshRest P Q k) = thresh P Q (k.val + 1) := by
  unfold thresh threshRest
  rw [bigSep_erase (Finset.mem_univ k) (Φ := fun j : Fin n => if j.val < k.val + 1 then P j else Q j), if_pos (Nat.lt_succ_self _)]
  congr 1
  refine bigSep_congr fun j hj => ?_
  have hne : j.val ≠ k.val := fun e => Finset.ne_of_mem_erase hj (Fin.ext e)
  by_cases h : j.val < k.val
  · rw [if_pos h, if_pos (Nat.lt_succ_of_lt h)]
  · rw [if_neg h, if_neg (by omega)]

end Thresh

/-- Lane `j`'s row in chunk `c0`: the tile's 256 rows are eight chunks of 32. -/
abbrev rowAt (c0 : Fin 8) (j : Fin 32) : Fin 256 := ⟨32 * c0.val + j.val, by have := c0.isLt; have := j.isLt; omega⟩

theorem rows_by_chunk (Φ : Fin 256 → sProp M) :
    bigSep Finset.univ Φ = bigSep Finset.univ fun c0 : Fin 8 => bigSep Finset.univ fun j : Fin 32 => Φ (rowAt c0 j) := by
  rw [bigSep_univ_equiv (finProdFinEquiv (m := 8) (n := 32)) Φ, bigSep_univ_prod]
  refine bigSep_congr fun c0 _ => bigSep_congr fun j _ => congrArg Φ (Fin.ext ?_)
  show j.val + 32 * c0.val = 32 * c0.val + j.val
  omega

theorem bigSep_fin8 (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

end Cert.Proof.Sep

end
-- ==== Proof.Chunks.lean ====
import proofs.«421332_j47682726921127_1_alg».proof.Proof.Lanes
import proofs.«421332_j47682726921127_1_alg».proof.Proof.Sep

noncomputable section

namespace Cert.Proof.EdgeMlp

open Cert.KernelIdeal Cert.KernelIdeal.Gen Cert.Proof.Sep
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Inv

variable (c : Dev nD) (i : grid0.Coords) (f1 : Bf (F := F) c T1) (f2 : Bf (F := F) c T2) (fa : Bf (F := F) c A3)
  (hs : ∀ e, ((T1.view.read (Elt F) f1) e).toNat < 50000) (hd : ∀ e, ((T2.view.read (Elt F) f2) e).toNat < 50000)

def Ready (c0 : Fin 8) (j : Fin 32) : sProp 𝕄 := iprop(LaneIdle c fa j ∗ RowFresh c (rowAt c0 j))
def Flying (c0 : Fin 8) (j : Fin 32) : sProp 𝕄 :=
  RowFlying c fa (rowAt c0 j) (wS c f1 i (rowAt c0 j)) (wD c f2 i (rowAt c0 j)) (hs _) (hd _)
def Landed (c0 : Fin 8) (j : Fin 32) : sProp 𝕄 :=
  RowLanded c fa (rowAt c0 j) (wS c f1 i (rowAt c0 j)) (wD c f2 i (rowAt c0 j)) (hs _) (hd _)
def Done (c0 : Fin 8) (j : Fin 32) : sProp 𝕄 := iprop(LaneIdle c fa j ∗ Landed c i f1 f2 fa hs hd c0 j)

def invI (c0 : Fin 8) (k : ℕ) (_ : PUnit) : sProp 𝕄 :=
  iprop(pt c T1 f1 ∗ pt c T2 f2 ∗ thresh (Flying c i f1 f2 fa hs hd c0) (Ready c fa c0) k)

def invW (c0 : Fin 8) (k : ℕ) (_ : PUnit) : sProp 𝕄 :=
  iprop((∃ W, owes (c : Thread nD τ) (0 : CellTallies nD τ sig Unit) W) ∗ thresh (Done c i f1 f2 fa hs hd c0) (Flying c i f1 f2 fa hs hd c0) k)

theorem invI_entry (c0 : Fin 8) :
    iprop(pt c T1 f1 ∗ pt c T2 f2 ∗ bigSep Finset.univ (LaneIdle c fa) ∗ bigSep Finset.univ (fun j : Fin 32 => RowFresh c (rowAt c0 j)))
      ⊢ invI c i f1 f2 fa hs hd c0 0 ⟨⟩ := by
  unfold invI
  rw [thresh_zero, show Ready c fa c0 = (fun j : Fin 32 => iprop(LaneIdle c fa j ∗ RowFresh c (rowAt c0 j))) from rfl, bigSep_sep']

theorem invI_exit (c0 : Fin 8) (N : ℕ) (hN : 32 ≤ N) (acc : PUnit) :
    invI c i f1 f2 fa hs hd c0 N acc ⊢ iprop(pt c T1 f1 ∗ pt c T2 f2 ∗ bigSep Finset.univ (Flying c i f1 f2 fa hs hd c0)) := by
  unfold invI
  rw [thresh_full _ _ hN]

theorem invW_entry (c0 : Fin 8) (W : Waits sig Unit) :
    iprop(owes (c : Thread nD τ) (0 : CellTallies nD τ sig Unit) W ∗ bigSep Finset.univ (Flying c i f1 f2 fa hs hd c0))
      ⊢ invW c i f1 f2 fa hs hd c0 0 ⟨⟩ := by
  unfold invW
  rw [thresh_zero]
  iintro ⟨HO, HF⟩
  isplitl [HO]; · iexists W; iexact HO
  iexact HF

theorem invW_exit (c0 : Fin 8) (N : ℕ) (hN : 32 ≤ N) (acc : PUnit) :
    invW c i f1 f2 fa hs hd c0 N acc
      ⊢ iprop((∃ W, owes (c : Thread nD τ) (0 : CellTallies nD τ sig Unit) W) ∗ bigSep Finset.univ (LaneIdle c fa)
          ∗ bigSep Finset.univ (Landed c i f1 f2 fa hs hd c0)) := by
  unfold invW
  rw [thresh_full _ _ hN, show Done c i f1 f2 fa hs hd c0 = (fun j : Fin 32 => iprop(LaneIdle c fa j ∗ Landed c i f1 f2 fa hs hd c0 j)) from rfl, bigSep_sep']

end Inv

end Cert.Proof.EdgeMlp

end
-- ==== Proof.Trip.lean ====
import proofs.«421332_j47682726921127_1_alg».proof.Proof.TripLib
import proofs.«421332_j47682726921127_1_alg».proof.Proof.Chunks

noncomputable section

namespace Cert.Proof.EdgeMlp

open Cert.KernelIdeal Cert.KernelIdeal.Gen Cert.Proof.Sep
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- One trip of a chunk's first loop over the offsets it computes; every chunk's trip is this one at its own offsets, by unfolding. -/
def issueBody (oE : Fin 1 → ℕ) (hE : ∀ a, oE a + S1.size a ≤ S65536.size a)
    (pA pB : Fin 1 → ℕ) (hpA : ∀ a, pA a + S1.size a ≤ S32.size a) (hpB : ∀ a, pB a + S1.size a ≤ S32.size a)
    (oA oB : Fin 2 → ℕ) (hoA : ∀ a, oA a + S1x1024.size a ≤ S256x2048.size a) (hoB : ∀ a, oB a + S1x1024.size a ≤ S256x2048.size a) :
    Prog (TpuEff nD τ sig (Elt F) Λ₀ .tc) Unit := do
  let ws : Elt F .i32 ← smemLoad T1 (Rect.unit (s := S65536) oE S1.size hE) numel1_S1 rfl
  have hws : k0_chk1 ws := (← Prog.lift (TpuEff.assume (k0_chk1 ws) (k0_chk1.dec ws))).down
  let wd : Elt F .i32 ← smemLoad T2 (Rect.unit (s := S65536) oE S1.size hE) numel1_S1 rfl
  have hwd : k0_chk2 wd := (← Prog.lift (TpuEff.assume (k0_chk2 wd) (k0_chk2.dec wd))).down
  Prog.lift (.enqueueDma ((A3.slice (Rect.unit (s := S50000x1024) (k0_off4 ws) S1x1024.size (k0_off4_inb ws hws)) (fun _ => rfl)).squeeze S1024 squeezes_S1x1024_S1024)
    (.here (halfAt oA hoA)) (.dma (cell1At pA hpA).sem) ((View.wordExact_bits rfl).reshape _ _) ((View.wordExact_bits rfl).reshape _ _) ⟨Or.inl rfl, trivial⟩)
  Prog.lift (.enqueueDma ((A3.slice (Rect.unit (s := S50000x1024) (k0_off7 wd) S1x1024.size (k0_off7_inb wd hwd)) (fun _ => rfl)).squeeze S1024 squeezes_S1x1024_S1024)
    (.here (halfAt oB hoB)) (.dma (cell2At pB hpB).sem) ((View.wordExact_bits rfl).reshape _ _) ((View.wordExact_bits rfl).reshape _ _) ⟨Or.inl rfl, trivial⟩)
  pure ⟨⟩

/-- One trip of a chunk's second loop over its offsets: the two half-row copies are waited for. -/
def waitBody (p : Fin 1 → ℕ) (hp : ∀ a, p a + S1.size a ≤ S32.size a)
    (oA oB : Fin 2 → ℕ) (hoA : ∀ a, oA a + S1x1024.size a ≤ S256x2048.size a) (hoB : ∀ a, oB a + S1x1024.size a ≤ S256x2048.size a) :
    Prog (TpuEff nD τ sig (Elt F) Λ₀ .tc) Unit := do
  Prog.lift (.waitDma2 (cell1At p hp).sem ((A3.slice (Rect.unit (s := S50000x1024) ![0, 0] S1x1024.size inb_S50000x1024_S1x1024_0_0) (fun _ => rfl)).squeeze S1024 squeezes_S1x1024_S1024)
    (halfAt oA hoA) ((View.wordExact_bits rfl).reshape _ _) ((View.wordExact_bits rfl).reshape _ _))
  Prog.lift (.waitDma2 (cell2At p hp).sem ((A3.slice (Rect.unit (s := S50000x1024) ![0, 0] S1x1024.size inb_S50000x1024_S1x1024_0_0) (fun _ => rfl)).squeeze S1024 squeezes_S1x1024_S1024)
    (halfAt oB hoB) ((View.wordExact_bits rfl).reshape _ _) ((View.wordExact_bits rfl).reshape _ _))
  pure ⟨⟩

theorem lane_rowAt (c0 : Fin 8) (k : Fin 32) : (rowAt c0 k).val % 32 = k.val := by
  have := k.isLt; show (32 * c0.val + k.val) % 32 = k.val; omega

/-- The lane a trip computes in words is the trip's number. -/
theorem lane_word (k : Fin 32) :
    (![(Scalar.addi 0#32 (Scalar.muli (Scf.iv 0#32 1#32 k) 1#32)).toNat] : Fin 1 → ℕ) = ![k.val] := by
  have hk := k.isLt
  funext a; fin_cases a
  simp [Scf.iv, Scalar.muli, Scalar.addi, IntOp.muli, IntOp.addi, BitVec.toNat_add, BitVec.toNat_mul, BitVec.toNat_ofNat]
  omega

/-- The row a trip computes in words, `C + k` with `C = 32 c0`, is row `k` of chunk `c0`. -/
theorem row_word (c0 : Fin 8) (k : Fin 32) (C : BitVec 32) (hC : C.toNat = 32 * c0.val) (z : ℕ) :
    (![(Scalar.addi C (Scalar.addi 0#32 (Scalar.muli (Scf.iv 0#32 1#32 k) 1#32))).toNat, z] : Fin 2 → ℕ) = ![(rowAt c0 k).val, z] := by
  have hk := k.isLt
  have hc := c0.isLt
  funext a; fin_cases a
  · simp [rowAt, Scf.iv, Scalar.muli, Scalar.addi, IntOp.muli, IntOp.addi, BitVec.toNat_add, BitVec.toNat_mul, BitVec.toNat_ofNat, hC]
    omega
  · rfl

/-- The table offset a trip computes in words, `256 t + (C + k)` with `C = 32 c0`, is the row's edge: it is below `2 ^ 32`, so no word wraps. -/
theorem edge_word (i : grid0.Coords) (c0 : Fin 8) (k : Fin 32) (C : BitVec 32) (hC : C.toNat = 32 * c0.val) :
    (![(Scalar.indexCast (Scalar.addi (Scalar.muli (BitVec.ofNat 32 (i 0).val) 256#32)
        (Scalar.addi C (Scalar.addi 0#32 (Scalar.muli (Scf.iv 0#32 1#32 k) 1#32))))).toNat] : Fin 1 → ℕ)
      = ![(edgeOf (tOf i) (rowAt c0 k)).val] := by
  have hk := k.isLt
  have hc := c0.isLt
  have hi : (i 0).val < 256 := (i 0).isLt
  funext a; fin_cases a
  simp [edgeOf, tOf, rowAt, Scf.iv, Scalar.muli, Scalar.addi, Scalar.indexCast, IntOp.muli, IntOp.addi, BitVec.toNat_add, BitVec.toNat_mul, BitVec.toNat_ofNat, hC]
  omega

section Core

variable [∀ e, Nonempty (Elt F e)] (c : Dev nD) (i : grid0.Coords)
  (f1 : Bf (F := F) c T1) (f2 : Bf (F := F) c T2) (fa : Bf (F := F) c A3)
  (hs : ∀ e, ((T1.view.read (Elt F) f1) e).toNat < 50000) (hd : ∀ e, ((T2.view.read (Elt F) f2) e).toNat < 50000)

/-- Lane `j` idle and row `r` fresh before; the row flying after, towards the node rows its two table words name, both in range. -/
theorem issueTrip (r : Fin 256) (j : Fin 32) (hj : r.val % 32 = j.val)
    {oE : Fin 1 → ℕ} (eE : oE = ![(edgeOf (tOf i) r).val]) (hE : ∀ a, oE a + S1.size a ≤ S65536.size a)
    {pA pB : Fin 1 → ℕ} (epA : pA = ![j.val]) (epB : pB = ![j.val])
    (hpA : ∀ a, pA a + S1.size a ≤ S32.size a) (hpB : ∀ a, pB a + S1.size a ≤ S32.size a)
    {oA oB : Fin 2 → ℕ} (eoA : oA = ![r.val, 0]) (eoB : oB = ![r.val, 1024])
    (hoA : ∀ a, oA a + S1x1024.size a ≤ S256x2048.size a) (hoB : ∀ a, oB a + S1x1024.size a ≤ S256x2048.size a)
    (Q : PUnit → sProp 𝕄) :
    iprop(pt c T1 f1 ∗ pt c T2 f2 ∗ LaneIdle c fa j ∗ RowFresh c r
        ∗ (iprop(pt c T1 f1 ∗ pt c T2 f2 ∗ RowFlying c fa r (wS c f1 i r) (wD c f2 i r) (hs _) (hd _)) -∗ Q ⟨⟩))
      ⊢ wp frame (wpE (defs₀ (F := F)) Variants.none c none) Set.univ
          (issueBody (F := F) oE hE pA pB hpA hpB oA oB hoA hoB) Q := by
  have eS := wS_eq c f1 i r eE hE Nat.one_pos
  have eD := wD_eq c f2 i r eE hE Nat.one_pos
  rw [LaneIdle_at c fa j epA epB hpA hpB, RowFresh_at c r eoA eoB hoA hoB,
    RowFlying_at c fa r j hj eoA eoB hoA hoB epA epB hpA hpB eS eD (hs _) (hd _) (hs _) (hd _)]
  unfold IdleAt FreshAt
  iintro ⟨H1, H2, ⟨HcA, HcB, HtA, HtB⟩, ⟨⟨%fA, HsA⟩, ⟨%fB, HsB⟩⟩, Hpost⟩
  unfold issueBody
  sl_exec (disch := first | exact inbRow _ (hs _) | exact inbRow _ (hd _))
  sl_step
  iapply Hpost
  unfold FlyingAt
  iframe H1 H2
  isplitl [HcA]; · iexists fA; iexact HcA
  isplitl [HtA]; · iexact HtA
  isplitl [HcB]; · iexists fB; iexact HcB
  iexact HtB

/-- Row `r` flying on lane `j` before; the lane idle and the row landed after, the two waits recorded. -/
theorem waitTrip (r : Fin 256) (j : Fin 32) (hj : r.val % 32 = j.val)
    {p : Fin 1 → ℕ} (ep : p = ![j.val]) (hp : ∀ a, p a + S1.size a ≤ S32.size a)
    {oA oB : Fin 2 → ℕ} (eoA : oA = ![r.val, 0]) (eoB : oB = ![r.val, 1024])
    (hoA : ∀ a, oA a + S1x1024.size a ≤ S256x2048.size a) (hoB : ∀ a, oB a + S1x1024.size a ≤ S256x2048.size a)
    (ws wd : BitVec 32) (hws : ws.toNat < 50000) (hwd : wd.toNat < 50000) (W : Waits sig Unit) (Q : PUnit → sProp 𝕄) :
    iprop(RowFlying c fa r ws wd hws hwd ∗ owes (c : Thread nD τ) 0 W
        ∗ (iprop(LaneIdle c fa j ∗ RowLanded c fa r ws wd hws hwd ∗ ∃ W, owes (c : Thread nD τ) 0 W) -∗ Q ⟨⟩))
      ⊢ wp frame (wpE (defs₀ (F := F)) Variants.none c none) Set.univ (waitBody (F := F) p hp oA oB hoA hoB) Q := by
  rw [RowFlying_at c fa r j hj eoA eoB hoA hoB ep ep hp hp rfl rfl hws hwd hws hwd,
    LaneIdle_at c fa j ep ep hp hp, RowLanded_at c fa r eoA eoB hoA hoB ws wd hws hwd]
  unfold FlyingAt
  iintro ⟨⟨⟨%fA, HfA⟩, HtA, ⟨%fB, HfB⟩, HtB⟩, HO, Hpost⟩
  unfold waitBody
  sl_exec
  sl_step
  iapply Hpost
  unfold IdleAt LandedAt
  isplitl [HfA HfB HtA HtB]
  · isplitl [HfA]; · iexact HfA
    iframe HfB HtA HtB
  isplitl [HfA_dst HfB_dst]
  · isplitl [HfA_dst]; · iexists fA; iexact HfA_dst
    iexists fB; iexact HfB_dst
  iexists _; iexact HO

/-- A trip of chunk `c0`'s first loop carries its invariant from trip `k` to trip `k + 1`, whatever names the offsets have. -/
theorem issueRegion (c0 : Fin 8)
    (oE : Fin 32 → Fin 1 → ℕ) (hE : ∀ k a, oE k a + S1.size a ≤ S65536.size a)
    (pA pB : Fin 32 → Fin 1 → ℕ) (hpA : ∀ k a, pA k a + S1.size a ≤ S32.size a) (hpB : ∀ k a, pB k a + S1.size a ≤ S32.size a)
    (oA oB : Fin 32 → Fin 2 → ℕ) (hoA : ∀ k a, oA k a + S1x1024.size a ≤ S256x2048.size a) (hoB : ∀ k a, oB k a + S1x1024.size a ≤ S256x2048.size a)
    (eE : ∀ k, oE k = ![(edgeOf (tOf i) (rowAt c0 k)).val]) (epA : ∀ k, pA k = ![k.val]) (epB : ∀ k, pB k = ![k.val])
    (eoA : ∀ k, oA k = ![(rowAt c0 k).val, 0]) (eoB : ∀ k, oB k = ![(rowAt c0 k).val, 1024])
    (k : Fin 32) (acc : PUnit) :
    invI c i f1 f2 fa hs hd c0 k.val acc
      ⊢ wp frame (wpE (defs₀ (F := F)) Variants.none c none) Set.univ
          (issueBody (F := F) (oE k) (hE k) (pA k) (pB k) (hpA k) (hpB k) (oA k) (oB k) (hoA k) (hoB k))
          (invI c i f1 f2 fa hs hd c0 (k.val + 1)) := by
  unfold invI
  rw [thresh_take (Flying c i f1 f2 fa hs hd c0) (Ready c fa c0) k]
  iintro ⟨H1, H2, Hk, Hrest⟩
  ihave Hk' := (Entails.of_eq (show Ready c fa c0 k = iprop(LaneIdle c fa k ∗ RowFresh c (rowAt c0 k)) from rfl)) $$ Hk
  icases Hk' with ⟨Hl, Hr⟩
  iapply (issueTrip c i f1 f2 fa hs hd (rowAt c0 k) k (lane_rowAt c0 k) (eE k) (hE k) (epA k) (epB k) (hpA k) (hpB k) (eoA k) (eoB k) (hoA k) (hoB k) _)
  iframe H1 H2 Hl Hr
  iintro ⟨H1, H2, Hf⟩
  iframe H1 H2
  iapply (Entails.of_eq (thresh_put (Flying c i f1 f2 fa hs hd c0) (Ready c fa c0) k))
  isplitl [Hf]
  · iapply (Entails.of_eq (show RowFlying c fa (rowAt c0 k) (wS c f1 i (rowAt c0 k)) (wD c f2 i (rowAt c0 k)) (hs _) (hd _)
        = Flying c i f1 f2 fa hs hd c0 k from rfl))
    iexact Hf
  iexact Hrest

/-- A trip of chunk `c0`'s second loop carries its invariant from trip `k` to trip `k + 1`. -/
theorem waitRegion (c0 : Fin 8)
    (p : Fin 32 → Fin 1 → ℕ) (hp : ∀ k a, p k a + S1.size a ≤ S32.size a)
    (oA oB : Fin 32 → Fin 2 → ℕ) (hoA : ∀ k a, oA k a + S1x1024.size a ≤ S256x2048.size a) (hoB : ∀ k a, oB k a + S1x1024.size a ≤ S256x2048.size a)
    (ep : ∀ k, p k = ![k.val]) (eoA : ∀ k, oA k = ![(rowAt c0 k).val, 0]) (eoB : ∀ k, oB k = ![(rowAt c0 k).val, 1024])
    (k : Fin 32) (acc : PUnit) :
    invW c i f1 f2 fa hs hd c0 k.val acc
      ⊢ wp frame (wpE (defs₀ (F := F)) Variants.none c none) Set.univ
          (waitBody (F := F) (p k) (hp k) (oA k) (oB k) (hoA k) (hoB k))
          (invW c i f1 f2 fa hs hd c0 (k.val + 1)) := by
  unfold invW
  rw [thresh_take (Done c i f1 f2 fa hs hd c0) (Flying c i f1 f2 fa hs hd c0) k]
  iintro ⟨⟨%W, HO⟩, Hk, Hrest⟩
  ihave Hk' := (Entails.of_eq (show Flying c i f1 f2 fa hs hd c0 k
      = RowFlying c fa (rowAt c0 k) (wS c f1 i (rowAt c0 k)) (wD c f2 i (rowAt c0 k)) (hs _) (hd _) from rfl)) $$ Hk
  iapply (waitTrip c fa (rowAt c0 k) k (lane_rowAt c0 k) (ep k) (hp k) (eoA k) (eoB k) (hoA k) (hoB k)
    (wS c f1 i (rowAt c0 k)) (wD c f2 i (rowAt c0 k)) (hs _) (hd _) W _)
  iframe Hk' HO
  iintro ⟨Hl, Hd, HO⟩
  isplitl [HO]; · iexact HO
  iapply (Entails.of_eq (thresh_put (Done c i f1 f2 fa hs hd c0) (Flying c i f1 f2 fa hs hd c0) k))
  isplitr [Hrest]
  · iapply (Entails.of_eq (show iprop(LaneIdle c fa k
          ∗ RowLanded c fa (rowAt c0 k) (wS c f1 i (rowAt c0 k)) (wD c f2 i (rowAt c0 k)) (hs _) (hd _))
        = Done c i f1 f2 fa hs hd c0 k from rfl))
    iframe Hl Hd
  · iexact Hrest

end Core

end Cert.Proof.EdgeMlp

end
-- ==== Proof.Slots.lean ====
import proofs.«421332_j47682726921127_1_alg».proof.Proof.Lanes

noncomputable section

namespace Cert.Proof.EdgeMlp

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev rectA (r : Fin 256) : Rect S256x2048 := Rect.unit (s := S256x2048) ![r.val, 0] S1x1024.size (inbA r)
abbrev rectB (r : Fin 256) : Rect S256x2048 := Rect.unit (s := S256x2048) ![r.val, 1024] S1x1024.size (inbB r)

theorem slotA_set (r : Fin 256) : (slotA r).view.set = (rectA r).set :=
  (View.set_reshape (A9.view.slice (rectA r)) _).trans (View.set_slice_whole cc0_scratch0 (rectA r))

theorem slotB_set (r : Fin 256) : (slotB r).view.set = (rectB r).set :=
  (View.set_reshape (A9.view.slice (rectB r)) _).trans (View.set_slice_whole cc0_scratch0 (rectB r))

theorem mem_rectA (r : Fin 256) (i : S256x2048.Idx) : i ∈ (rectA r).set ↔ (i 0).val = r.val ∧ (i 1).val < 1024 := by
  rw [Rect.mem_set_unit, Fin.forall_fin_two]
  show (r.val ≤ (i 0).val ∧ (i 0).val < r.val + 1) ∧ (0 ≤ (i 1).val ∧ (i 1).val < 0 + 1024) ↔ _
  omega

theorem mem_rectB (r : Fin 256) (i : S256x2048.Idx) : i ∈ (rectB r).set ↔ (i 0).val = r.val ∧ 1024 ≤ (i 1).val := by
  rw [Rect.mem_set_unit, Fin.forall_fin_two]
  show (r.val ≤ (i 0).val ∧ (i 0).val < r.val + 1) ∧ (1024 ≤ (i 1).val ∧ (i 1).val < 1024 + 1024) ↔ _
  have : (i 1).val < 2048 := (i 1).isLt
  omega

def halfSet (b : Fin 256 × Fin 2) : Finset S256x2048.Idx := if b.2 = 0 then (rectA b.1).set else (rectB b.1).set

theorem halfSet_zero (r : Fin 256) : halfSet (r, 0) = (rectA r).set := rfl
theorem halfSet_one (r : Fin 256) : halfSet (r, 1) = (rectB r).set := rfl

theorem mem_halfSet (b : Fin 256 × Fin 2) (i : S256x2048.Idx) :
    i ∈ halfSet b ↔ (i 0).val = b.1.val ∧ ((i 1).val < 1024 ↔ b.2 = 0) := by
  unfold halfSet
  split
  · next h => rw [mem_rectA]; simp only [h, iff_true]
  · next h => rw [mem_rectB]; simp only [h, iff_false, not_lt]

theorem halfSet_disjoint (b b' : Fin 256 × Fin 2) (h : b ≠ b') : Disjoint (halfSet b) (halfSet b') := by
  rw [Finset.disjoint_left]
  intro i hi hi'
  rw [mem_halfSet] at hi hi'
  apply h
  obtain ⟨r, s⟩ := b
  obtain ⟨r', s'⟩ := b'
  have e1 : r = r' := Fin.ext (hi.1.symm.trans hi'.1)
  have e2 : s = s' := by
    have h0 : s = 0 ↔ s' = 0 := hi.2.symm.trans hi'.2
    have := s.isLt; have := s'.isLt
    apply Fin.ext
    have a : s.val = 0 ↔ s = 0 := ⟨fun h => Fin.ext h, fun h => by rw [h]; rfl⟩
    have a' : s'.val = 0 ↔ s' = 0 := ⟨fun h => Fin.ext h, fun h => by rw [h]; rfl⟩
    omega
  rw [e1, e2]

theorem halfSet_cover : Finset.univ.biUnion halfSet = Finset.univ := by
  ext i
  simp only [Finset.mem_biUnion, Finset.mem_univ, true_and, iff_true]
  by_cases h : (i 1).val < 1024
  · exact ⟨(⟨(i 0).val, (i 0).isLt⟩, 0), (mem_halfSet _ i).mpr ⟨rfl, by simp only [h]⟩⟩
  · exact ⟨(⟨(i 0).val, (i 0).isLt⟩, 1), (mem_halfSet _ i).mpr ⟨rfl, by simp only [h, false_iff]; decide⟩⟩

section Split
variable (c : Dev nD)

theorem scratch_split (f : Bf (F := F) c A9) :
    (pt c A9 f : sProp 𝕄) ⊢ bigSep Finset.univ (fun r : Fin 256 => RowFresh (F := F) c r) := by
  have e : (pt c A9 f : sProp 𝕄) = bigSep Finset.univ fun b : Fin 256 × Fin 2 => A9.view.loc (c : Thread nD τ) ↦[halfSet b]{fullShare} f :=
    Ring.pointsTo_blocks (ℓ := A9.view.loc (c : Thread nD τ)) halfSet halfSet_disjoint halfSet_cover f
  rw [e, bigSep_univ_prod]
  refine bigSep_mono fun r _ => ?_
  rw [bigSep_fin_two]
  have hA : (A9.view.loc (c : Thread nD τ) ↦[halfSet (r, 0)]{fullShare} f : sProp 𝕄)
      ⊢ iprop(∃ f, (slotA r).view.loc (c : Thread nD τ) ↦[(slotA r).view.set]{fullShare} f) := by
    rw [halfSet_zero, ← slotA_set]
    iintro H; iexists f; iexact H
  have hB : (A9.view.loc (c : Thread nD τ) ↦[halfSet (r, 1)]{fullShare} f : sProp 𝕄)
      ⊢ iprop(∃ f, (slotB r).view.loc (c : Thread nD τ) ↦[(slotB r).view.set]{fullShare} f) := by
    rw [halfSet_one, ← slotB_set]
    iintro H; iexists f; iexact H
  exact BI.sep_mono hA hB

end Split

section LanesSplit
variable (c : Dev nD)

theorem bigSep_pair {I : Type} (s : Finset I) (Φ Ψ : I → sProp 𝕄) :
    bigSep s (fun i => iprop(Φ i ∗ Ψ i)) = iprop(bigSep s Φ ∗ bigSep s Ψ) := bigSep_sep s Φ Ψ

theorem sep_regroup (S d T : sProp 𝕄) : (iprop(S ∗ (d ∗ T)) : sProp 𝕄) = iprop((S ∗ T) ∗ d) := by
  have h1 : (iprop(S ∗ (d ∗ T)) : sProp 𝕄) ⊢ iprop((S ∗ T) ∗ d) := by
    iintro ⟨HS, Hd, HT⟩
    isplitr [Hd]
    · isplitl [HS] <;> iassumption
    · iexact Hd
  have h2 : (iprop((S ∗ T) ∗ d) : sProp 𝕄) ⊢ iprop(S ∗ (d ∗ T)) := by
    iintro ⟨⟨HS, HT⟩, Hd⟩
    isplitl [HS]
    · iexact HS
    · isplitl [Hd] <;> iassumption
  exact equiv_iff.mp ⟨h1, h2⟩

theorem ownSems0_lanes :
    (Pipeline.ownSems0 osem c : sProp 𝕄)
      = bigSep Finset.univ (fun j : Fin 32 =>
          iprop(semVal ((c : Thread nD τ), cellA j) 0 ∗ semVal ((c : Thread nD τ), cellB j) 0)) := by
  have hA : ∀ j : Fin 32, osem (finProdFinEquiv ((0 : Fin 2), j)) = cellA j := fun j => rfl
  have hB : ∀ j : Fin 32, osem (finProdFinEquiv ((1 : Fin 2), j)) = cellB j := fun j => by
    show SemLoc.dma _ = SemLoc.dma _
    congr 1; apply Fin.ext
    show 6 + (finProdFinEquiv ((1 : Fin 2), j)).val = 38 + j.val
    rw [finProdFinEquiv_apply_val]; show 6 + (j.val + 32 * 1) = 38 + j.val; omega
  unfold Pipeline.ownSems0
  rw [bigSep_univ_equiv (finProdFinEquiv : Fin 2 × Fin 32 ≃ Fin 64), bigSep_univ_prod, bigSep_fin_two, ← bigSep_sep]
  refine bigSep_congr fun j _ => ?_
  rw [hA, hB]
  rfl

theorem toks_lanes (fa : Bf (F := F) c A3) :
    bigSep (Finset.range 64) (fun i => (A3.view.loc (c : Thread nD τ) ↦[Finset.univ]{Transfers.shareTokN fullShare i} fa : sProp 𝕄))
      = bigSep Finset.univ (fun j : Fin 32 =>
          iprop(tok c (2 * j.val) Finset.univ fa ∗ tok c (2 * j.val + 1) Finset.univ fa)) := by
  have h1 := Ring.bigSep_range_interleave (M := 𝕄) 32 (fun k => tok c (2 * k) Finset.univ fa) (fun k => tok c (2 * k + 1) Finset.univ fa)
  rw [bigSep_pair,
    Ring.bigSep_fin_eq_range 32 (fun j : Fin 32 => tok c (2 * j.val) Finset.univ fa) (fun k => tok c (2 * k) Finset.univ fa) (fun _ _ => rfl),
    Ring.bigSep_fin_eq_range 32 (fun j : Fin 32 => tok c (2 * j.val + 1) Finset.univ fa) (fun k => tok c (2 * k + 1) Finset.univ fa) (fun _ _ => rfl)]
  refine Eq.trans ?_ h1
  show bigSep (Finset.range 64) _ = bigSep (Finset.range 64) _
  refine bigSep_congr fun t _ => ?_
  split
  · next h => rw [show 2 * (t / 2) = t by omega]
  · next h => rw [show 2 * (t / 2) + 1 = t by omega]

theorem laneIdle_eq (fa : Bf (F := F) c A3) (j : Fin 32) :
    LaneIdle c fa j
      = iprop((semVal ((c : Thread nD τ), cellA j) 0 ∗ semVal ((c : Thread nD τ), cellB j) 0)
          ∗ (tok c (2 * j.val) Finset.univ fa ∗ tok c (2 * j.val + 1) Finset.univ fa)) := by
  unfold LaneIdle IdleAt
  exact Entails.antisymm BI.sep_assoc' BI.sep_assoc

theorem lanes_eq (fa : Bf (F := F) c A3) :
    (iprop(Pipeline.ownSems0 osem c ∗ pt c A3 fa) : sProp 𝕄)
      = iprop(bigSep Finset.univ (fun j : Fin 32 => LaneIdle c fa j)
          ∗ (A3.view.loc (c : Thread nD τ) ↦[Finset.univ]{Transfers.shareDrop fullShare 64} fa)) := by
  have h := Transfers.pointsTo_toks_range (Ix := Unit) (Val := Elt F) (Name := ℕ) (U := UU nD τ) (Lvl := ℕ) (ℓ := A3.view.loc (c : Thread nD τ)) (S := Finset.univ) (f := fa) fullShare 64
  have ht : (pt c A3 fa : sProp 𝕄) = _ := equiv_iff.mp ⟨h.1, h.2⟩
  rw [bigSep_congr (fun j _ => laneIdle_eq c fa j), bigSep_pair (F := F), ht, ownSems0_lanes, toks_lanes]
  exact sep_regroup (F := F) _ _ _

theorem lanes_split (fa : Bf (F := F) c A3) :
    iprop(Pipeline.ownSems0 osem c ∗ pt c A3 fa)
      ⊢ (iprop(bigSep Finset.univ (fun j : Fin 32 => LaneIdle c fa j)
          ∗ (A3.view.loc (c : Thread nD τ) ↦[Finset.univ]{Transfers.shareDrop fullShare 64} fa)) : sProp 𝕄) := by
  rw [lanes_eq]

theorem lanes_join (fa : Bf (F := F) c A3) :
    (iprop(bigSep Finset.univ (fun j : Fin 32 => LaneIdle c fa j)
          ∗ (A3.view.loc (c : Thread nD τ) ↦[Finset.univ]{Transfers.shareDrop fullShare 64} fa)) : sProp 𝕄)
      ⊢ iprop(Pipeline.ownSems0 osem c ∗ pt c A3 fa) := by
  rw [lanes_eq]

end LanesSplit

end Cert.Proof.EdgeMlp

end
-- ==== Proof.SlotsJoin.lean ====
import proofs.«421332_j47682726921127_1_alg».proof.Proof.Slots
import Idealize.ShloMosaic.Lib.Exec.Geometry

noncomputable section

namespace Cert.Proof.EdgeMlp

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem slotA_emb (r : Fin 256) (x : S1024.Idx) (a : Fin 2) :
    (((slotA r).view.emb x : S256x2048.Idx) a : Nat) = (![r.val, (x 0).val] : Fin 2 → Nat) a := by
  show ((Rect.unit (s := S256x2048) ![r.val, 0] S1x1024.size (inbA r)).emb (Shape.reshapeEquiv squeezes_S1x1024_S1024.numel_eq x) a : Nat) = _
  rw [Shape.reshapeEquiv_cons_one, Rect.emb_apply]
  match a with
  | ⟨0, _⟩ => show r.val + 1 * 0 = r.val; omega
  | ⟨1, _⟩ => show 0 + 1 * (x 0).val = (x 0).val; omega

theorem slotB_emb (r : Fin 256) (x : S1024.Idx) (a : Fin 2) :
    (((slotB r).view.emb x : S256x2048.Idx) a : Nat) = (![r.val, 1024 + (x 0).val] : Fin 2 → Nat) a := by
  show ((Rect.unit (s := S256x2048) ![r.val, 1024] S1x1024.size (inbB r)).emb (Shape.reshapeEquiv squeezes_S1x1024_S1024.numel_eq x) a : Nat) = _
  rw [Shape.reshapeEquiv_cons_one, Rect.emb_apply]
  match a with
  | ⟨0, _⟩ => show r.val + 1 * 0 = r.val; omega
  | ⟨1, _⟩ => show 1024 + 1 * (x 0).val = 1024 + (x 0).val; omega

theorem srcRow_emb (w : BitVec 32) (hw : w.toNat < 50000) (x : S1024.Idx) (a : Fin 2) :
    (((srcRow w hw).view.emb x : S50000x1024.Idx) a : Nat) = (![w.toNat, (x 0).val] : Fin 2 → Nat) a := by
  show ((Rect.unit (s := S50000x1024) ![w.toNat, 0] S1x1024.size (inbRow w hw)).emb (Shape.reshapeEquiv squeezes_S1x1024_S1024.numel_eq x) a : Nat) = _
  rw [Shape.reshapeEquiv_cons_one, Rect.emb_apply]
  match a with
  | ⟨0, _⟩ => show w.toNat + 1 * 0 = w.toNat; omega
  | ⟨1, _⟩ => show 0 + 1 * (x 0).val = (x 0).val; omega

omit [FloatOps F] in
theorem gathered_left (src dst : IVec S65536 32) (nf : Vec F S50000x1024 .f32) (t : Fin 256) (y : S256x2048.Idx)
    (r : Fin 256) (hr : (y 0).val = r.val) (h : (y 1).val < 1024) :
    gathered src dst nf t y = nf (ix2 (rowOf (src (ix1 (edgeOf t r)))) ⟨(y 1).val, h⟩) := by
  have e : (y 0 : Fin 256) = r := Fin.ext hr
  subst e
  unfold gathered; exact dif_pos h

omit [FloatOps F] in
theorem gathered_right (src dst : IVec S65536 32) (nf : Vec F S50000x1024 .f32) (t : Fin 256) (y : S256x2048.Idx)
    (r : Fin 256) (hr : (y 0).val = r.val) (h : ¬ (y 1).val < 1024) :
    gathered src dst nf t y
      = nf (ix2 (rowOf (dst (ix1 (edgeOf t r)))) ⟨(y 1).val - 1024, by have : (y 1).val < 2048 := (y 1).isLt; omega⟩) := by
  have e : (y 0 : Fin 256) = r := Fin.ext hr
  subst e
  unfold gathered; exact dif_neg h

section Join
variable (c : Dev nD)

theorem read_slotA (g : Bf (F := F) c A9) (r : Fin 256) (y : S256x2048.Idx) (hr : (y 0).val = r.val) (h : (y 1).val < 1024) :
    A9.view.read (Elt F) g y = (slotA r).view.read (Elt F) g (ix1 ⟨(y 1).val, h⟩) := by
  have ey : ((slotA r).view.emb (ix1 ⟨(y 1).val, h⟩) : S256x2048.Idx) = y := by
    funext a; apply Fin.ext
    refine (slotA_emb r _ a).trans ?_
    match a with
    | ⟨0, _⟩ => exact hr.symm
    | ⟨1, _⟩ => rfl
  have e2 : A9.view.read (Elt F) g ((slotA r).view.emb (ix1 ⟨(y 1).val, h⟩)) = (slotA r).view.read (Elt F) g (ix1 ⟨(y 1).val, h⟩) := rfl
  exact (congrArg (A9.view.read (Elt F) g) ey.symm).trans e2

theorem read_slotB (g : Bf (F := F) c A9) (r : Fin 256) (y : S256x2048.Idx) (hr : (y 0).val = r.val) (h : ¬ (y 1).val < 1024) :
    A9.view.read (Elt F) g y
      = (slotB r).view.read (Elt F) g (ix1 ⟨(y 1).val - 1024, by have : (y 1).val < 2048 := (y 1).isLt; omega⟩) := by
  have h2 : (y 1).val < 2048 := (y 1).isLt
  have ey : ((slotB r).view.emb (ix1 ⟨(y 1).val - 1024, by omega⟩) : S256x2048.Idx) = y := by
    funext a; apply Fin.ext
    refine (slotB_emb r _ a).trans ?_
    match a with
    | ⟨0, _⟩ => exact hr.symm
    | ⟨1, _⟩ => show 1024 + ((y 1).val - 1024) = (y 1).val; omega
  have e2 : A9.view.read (Elt F) g ((slotB r).view.emb (ix1 ⟨(y 1).val - 1024, by omega⟩))
      = (slotB r).view.read (Elt F) g (ix1 ⟨(y 1).val - 1024, by omega⟩) := rfl
  exact (congrArg (A9.view.read (Elt F) g) ey.symm).trans e2

theorem rowPay_apply (fa : Bf (F := F) c A3) (w : BitVec 32) (hw : w.toNat < 50000) (q : Fin 1024) :
    rowPay c fa w hw (ix1 q) = A3.view.read (Elt F) fa (ix2 (rowOf w) q) := by
  have ey : ((srcRow w hw).view.emb (ix1 q) : S50000x1024.Idx) = ix2 (rowOf w) q := by
    funext a; apply Fin.ext
    refine (srcRow_emb w hw _ a).trans ?_
    match a with
    | ⟨0, _⟩ => exact (rowOf_val_of_lt hw).symm
    | ⟨1, _⟩ => rfl
  have e2 : (srcRow w hw).view.read (Elt F) fa (ix1 q) = A3.view.read (Elt F) fa ((srcRow w hw).view.emb (ix1 q)) := rfl
  unfold rowPay
  rw [ReadAs.apply_same]
  exact e2.trans (congrArg (A3.view.read (Elt F) fa) ey)

def landedA (fa : Bf (F := F) c A3) (r : Fin 256) (w : BitVec 32) (hw : w.toNat < 50000) (f : Bf (F := F) c A9) : Bf (F := F) c A9 :=
  (slotA r).view.writes (Elt F) f [⟨Rect.whole S1024, rowPay c fa w hw⟩]
def landedB (fa : Bf (F := F) c A3) (r : Fin 256) (w : BitVec 32) (hw : w.toNat < 50000) (f : Bf (F := F) c A9) : Bf (F := F) c A9 :=
  (slotB r).view.writes (Elt F) f [⟨Rect.whole S1024, rowPay c fa w hw⟩]

theorem read_landedA (fa : Bf (F := F) c A3) (r : Fin 256) (w : BitVec 32) (hw : w.toNat < 50000) (f : Bf (F := F) c A9) (q : Fin 1024) :
    (slotA r).view.read (Elt F) (landedA c fa r w hw f) (ix1 q) = A3.view.read (Elt F) fa (ix2 (rowOf w) q) := by
  have key := View.read_writes_cons_emb (slotA r).view f (Rect.whole S1024) (rowPay c fa w hw) [] (ix1 q)
  rw [Rect.emb_whole_apply] at key
  exact key.trans (rowPay_apply c fa w hw q)

theorem read_landedB (fa : Bf (F := F) c A3) (r : Fin 256) (w : BitVec 32) (hw : w.toNat < 50000) (f : Bf (F := F) c A9) (q : Fin 1024) :
    (slotB r).view.read (Elt F) (landedB c fa r w hw f) (ix1 q) = A3.view.read (Elt F) fa (ix2 (rowOf w) q) := by
  have key := View.read_writes_cons_emb (slotB r).view f (Rect.whole S1024) (rowPay c fa w hw) [] (ix1 q)
  rw [Rect.emb_whole_apply] at key
  exact key.trans (rowPay_apply c fa w hw q)

def landedAt (fa : Bf (F := F) c A3) (ws wd : Fin 256 → BitVec 32) (hs : ∀ r, (ws r).toNat < 50000) (hd : ∀ r, (wd r).toNat < 50000)
    (G : Fin 256 → Bf (F := F) c A9 × Bf (F := F) c A9) (b : Fin 256 × Fin 2) : Bf (F := F) c A9 :=
  if b.2 = 0 then landedA c fa b.1 (ws b.1) (hs b.1) (G b.1).1 else landedB c fa b.1 (wd b.1) (hd b.1) (G b.1).2

theorem landedAt_zero (fa : Bf (F := F) c A3) (ws wd : Fin 256 → BitVec 32) (hs : ∀ r, (ws r).toNat < 50000) (hd : ∀ r, (wd r).toNat < 50000)
    (G : Fin 256 → Bf (F := F) c A9 × Bf (F := F) c A9) (r : Fin 256) :
    landedAt c fa ws wd hs hd G (r, 0) = landedA c fa r (ws r) (hs r) (G r).1 := by
  unfold landedAt; exact if_pos rfl
theorem landedAt_one (fa : Bf (F := F) c A3) (ws wd : Fin 256 → BitVec 32) (hs : ∀ r, (ws r).toNat < 50000) (hd : ∀ r, (wd r).toNat < 50000)
    (G : Fin 256 → Bf (F := F) c A9 × Bf (F := F) c A9) (r : Fin 256) :
    landedAt c fa ws wd hs hd G (r, 1) = landedB c fa r (wd r) (hd r) (G r).2 := by
  unfold landedAt; exact if_neg (show ¬ ((1 : Fin 2) = 0) by decide)

theorem joined_read (fa : Bf (F := F) c A3) (src dst : IVec S65536 32) (t : Fin 256) (ws wd : Fin 256 → BitVec 32)
    (hs : ∀ r, (ws r).toNat < 50000) (hd : ∀ r, (wd r).toNat < 50000)
    (hws : ∀ r, ws r = src (ValueIdx.ix1 (edgeOf t r))) (hwd : ∀ r, wd r = dst (ValueIdx.ix1 (edgeOf t r)))
    (G : Fin 256 → Bf (F := F) c A9 × Bf (F := F) c A9) (g : Bf (F := F) c A9)
    (hg : ∀ b ∈ (Finset.univ : Finset (Fin 256 × Fin 2)), ∀ i ∈ halfSet b, g i = landedAt c fa ws wd hs hd G b i) :
    A9.view.read (Elt F) g = gathered src dst (A3.view.read (Elt F) fa) t := by
  funext y
  obtain ⟨r, hr⟩ : ∃ r : Fin 256, (y 0).val = r.val := ⟨⟨(y 0).val, (y 0).isLt⟩, rfl⟩
  by_cases h : (y 1).val < 1024
  · have hmem : (slotA r).view.emb (ix1 ⟨(y 1).val, h⟩) ∈ halfSet (r, 0) := by
      rw [halfSet_zero, ← slotA_set]; exact View.emb_mem_set _ _
    have e1 := read_slotA c g r y hr h
    have e2 : (slotA r).view.read (Elt F) g (ix1 ⟨(y 1).val, h⟩)
        = (slotA r).view.read (Elt F) (landedAt c fa ws wd hs hd G (r, 0)) (ix1 ⟨(y 1).val, h⟩) :=
      View.read_congr_at (ix1 ⟨(y 1).val, h⟩) (hg (r, 0) (Finset.mem_univ _) _ hmem)
    have e3 : (slotA r).view.read (Elt F) (landedAt c fa ws wd hs hd G (r, 0)) (ix1 ⟨(y 1).val, h⟩)
        = A3.view.read (Elt F) fa (ix2 (rowOf (ws r)) ⟨(y 1).val, h⟩) := by
      rw [landedAt_zero]; exact read_landedA c fa r (ws r) (hs r) (G r).1 ⟨(y 1).val, h⟩
    have e4 := gathered_left src dst (A3.view.read (Elt F) fa) t y r hr h
    rw [← hws r] at e4
    exact e1.trans (e2.trans (e3.trans e4.symm))
  · have h2 : (y 1).val < 2048 := (y 1).isLt
    have hmem : (slotB r).view.emb (ix1 ⟨(y 1).val - 1024, by omega⟩) ∈ halfSet (r, 1) := by
      rw [halfSet_one, ← slotB_set]; exact View.emb_mem_set _ _
    have e1 := read_slotB c g r y hr h
    have e2 : (slotB r).view.read (Elt F) g (ix1 ⟨(y 1).val - 1024, by omega⟩)
        = (slotB r).view.read (Elt F) (landedAt c fa ws wd hs hd G (r, 1)) (ix1 ⟨(y 1).val - 1024, by omega⟩) :=
      View.read_congr_at (ix1 ⟨(y 1).val - 1024, by omega⟩) (hg (r, 1) (Finset.mem_univ _) _ hmem)
    have e3 : (slotB r).view.read (Elt F) (landedAt c fa ws wd hs hd G (r, 1)) (ix1 ⟨(y 1).val - 1024, by omega⟩)
        = A3.view.read (Elt F) fa (ix2 (rowOf (wd r)) ⟨(y 1).val - 1024, by omega⟩) := by
      rw [landedAt_one]; exact read_landedB c fa r (wd r) (hd r) (G r).2 ⟨(y 1).val - 1024, by omega⟩
    have e4 := gathered_right src dst (A3.view.read (Elt F) fa) t y r hr h
    rw [← hwd r] at e4
    exact e1.trans (e2.trans (e3.trans e4.symm))

theorem scratch_join (fa : Bf (F := F) c A3) (src dst : IVec S65536 32) (t : Fin 256) (ws wd : Fin 256 → BitVec 32)
    (hs : ∀ r, (ws r).toNat < 50000) (hd : ∀ r, (wd r).toNat < 50000)
    (hws : ∀ r, ws r = src (ValueIdx.ix1 (edgeOf t r))) (hwd : ∀ r, wd r = dst (ValueIdx.ix1 (edgeOf t r))) :
    bigSep Finset.univ (fun r : Fin 256 => RowLanded c fa r (ws r) (wd r) (hs r) (hd r))
      ⊢ (iprop(∃ g, ⌜A9.view.read (Elt F) g = gathered src dst (A3.view.read (Elt F) fa) t⌝ ∗ pt c A9 g) : sProp 𝕄) := by
  haveI : Nonempty (Bf (F := F) c A9) := ⟨View.junk A9.view⟩

  have hrow : ∀ r : Fin 256, RowLanded c fa r (ws r) (wd r) (hs r) (hd r)
      ⊢ (iprop(∃ G : Bf (F := F) c A9 × Bf (F := F) c A9,
          (A9.view.loc (c : Thread nD τ) ↦[halfSet (r, 0)]{fullShare} landedA c fa r (ws r) (hs r) G.1)
            ∗ (A9.view.loc (c : Thread nD τ) ↦[halfSet (r, 1)]{fullShare} landedB c fa r (wd r) (hd r) G.2)) : sProp 𝕄) := by
    intro r
    have eA : ∀ f, ((A9.view.loc (c : Thread nD τ) ↦[halfSet (r, 0)]{fullShare} landedA c fa r (ws r) (hs r) f) : sProp 𝕄)
        = ((slotA r).view.loc (c : Thread nD τ) ↦[(slotA r).view.set]{fullShare}
            (slotA r).view.writes (Elt F) f [⟨Rect.whole S1024, rowPay c fa (ws r) (hs r)⟩]) := fun f => by
      rw [halfSet_zero, ← slotA_set]; rfl
    have eB : ∀ f, ((A9.view.loc (c : Thread nD τ) ↦[halfSet (r, 1)]{fullShare} landedB c fa r (wd r) (hd r) f) : sProp 𝕄)
        = ((slotB r).view.loc (c : Thread nD τ) ↦[(slotB r).view.set]{fullShare}
            (slotB r).view.writes (Elt F) f [⟨Rect.whole S1024, rowPay c fa (wd r) (hd r)⟩]) := fun f => by
      rw [halfSet_one, ← slotB_set]; rfl
    unfold RowLanded LandedAt
    iintro ⟨⟨%fA, HA⟩, ⟨%fB, HB⟩⟩
    iexists (fA, fB)
    rw [eA, eB]
    isplitl [HA]
    · iexact HA
    · iexact HB
  have h1 : bigSep Finset.univ (fun r : Fin 256 => RowLanded c fa r (ws r) (wd r) (hs r) (hd r))
      ⊢ (bigSep Finset.univ (fun r : Fin 256 => iprop(∃ G : Bf (F := F) c A9 × Bf (F := F) c A9,
          (A9.view.loc (c : Thread nD τ) ↦[halfSet (r, 0)]{fullShare} landedA c fa r (ws r) (hs r) G.1)
            ∗ (A9.view.loc (c : Thread nD τ) ↦[halfSet (r, 1)]{fullShare} landedB c fa r (wd r) (hd r) G.2))) : sProp 𝕄) :=
    bigSep_mono fun r _ => hrow r
  have h2 := bigSep_exists_pi (M := 𝕄) (Finset.univ : Finset (Fin 256))
    (fun (r : Fin 256) (G : Bf (F := F) c A9 × Bf (F := F) c A9) =>
      iprop((A9.view.loc (c : Thread nD τ) ↦[halfSet (r, 0)]{fullShare} landedA c fa r (ws r) (hs r) G.1)
            ∗ (A9.view.loc (c : Thread nD τ) ↦[halfSet (r, 1)]{fullShare} landedB c fa r (wd r) (hd r) G.2)))

  have h3 : ∀ G : Fin 256 → Bf (F := F) c A9 × Bf (F := F) c A9,
      bigSep Finset.univ (fun r : Fin 256 =>
        iprop((A9.view.loc (c : Thread nD τ) ↦[halfSet (r, 0)]{fullShare} landedA c fa r (ws r) (hs r) (G r).1)
            ∗ (A9.view.loc (c : Thread nD τ) ↦[halfSet (r, 1)]{fullShare} landedB c fa r (wd r) (hd r) (G r).2)))
      ⊢ (iprop(∃ g, ⌜∀ b ∈ (Finset.univ : Finset (Fin 256 × Fin 2)), ∀ i ∈ halfSet b, g i = landedAt c fa ws wd hs hd G b i⌝ ∗ pt c A9 g) : sProp 𝕄) := by
    intro G
    have e : bigSep Finset.univ (fun b : Fin 256 × Fin 2 => (A9.view.loc (c : Thread nD τ) ↦[halfSet b]{fullShare} landedAt c fa ws wd hs hd G b : sProp 𝕄))
        = bigSep Finset.univ (fun r : Fin 256 =>
            iprop((A9.view.loc (c : Thread nD τ) ↦[halfSet (r, 0)]{fullShare} landedA c fa r (ws r) (hs r) (G r).1)
              ∗ (A9.view.loc (c : Thread nD τ) ↦[halfSet (r, 1)]{fullShare} landedB c fa r (wd r) (hd r) (G r).2))) := by
      rw [bigSep_univ_prod]
      refine bigSep_congr fun r _ => ?_
      rw [bigSep_fin_two, landedAt_zero, landedAt_one]; rfl
    rw [← e]
    refine (pointsTo_biUnion_join (Ix := Unit) (Val := Elt F) (Name := ℕ) (U := UU nD τ) (Lvl := ℕ) (ℓ := A9.view.loc (c : Thread nD τ)) (q := fullShare) (Finset.univ : Finset (Fin 256 × Fin 2)) halfSet (landedAt c fa ws wd hs hd G)
      (View.junk A9.view) (fun b _ b' _ h => halfSet_disjoint b b' h)).trans ?_
    rw [halfSet_cover]
    iintro ⟨%g, %hg, H⟩
    iexists g
    isplitr
    · ipureintro; exact hg
    · iexact H
  iintro H
  ihave H := h1 $$ H
  ihave H := h2 $$ H
  icases H with ⟨%G, H⟩
  ihave H := h3 G $$ H
  icases H with ⟨%g, %hg, H⟩
  iexists g
  isplitr
  · ipureintro
    exact joined_read c fa src dst t ws wd hs hd hws hwd G g hg
  · iexact H

end Join

end Cert.Proof.EdgeMlp

end
-- ==== Proof.KernelRun.lean ====
import proofs.«421332_j47682726921127_1_alg».proof.Proof.Trip
import proofs.«421332_j47682726921127_1_alg».proof.Proof.Slots
import proofs.«421332_j47682726921127_1_alg».proof.Proof.SlotsJoin
import Idealize.ShloMosaic.Lib.Pipeline.FrameBody
import Idealize.ShloMosaic.Lib.Pipeline.Value

set_option maxHeartbeats 4000000

noncomputable section

namespace Cert.Proof.EdgeMlp

open Cert.KernelIdeal Cert.KernelIdeal.Gen Cert.Proof.Sep
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem kernelRun [∀ e, Nonempty (Elt F e)] (c : Dev nD) (i : grid0.Coords)
    (M4 : Memref sig .tc .vmem S2048x1024 .bf16) (h4 : M4.IsWhole) (M5 : Memref sig .tc .vmem S1024 .f32) (h5 : M5.IsWhole)
    (M6 : Memref sig .tc .vmem S1024x1024 .bf16) (h6 : M6.IsWhole) (M7 : Memref sig .tc .vmem S1024 .f32) (h7 : M7.IsWhole)
    (M8 : Memref sig .tc .vmem S256x1024 .f32) (h8 : M8.IsWhole)
    (f1 : Bf (F := F) c (Memref.whole main_arg1)) (f2 : Bf (F := F) c (Memref.whole main_arg2)) (fa : Bf (F := F) c (Memref.whole main_arg0))
    (f4 : Bf (F := F) c M4) (f5 : Bf (F := F) c M5) (f6 : Bf (F := F) c M6) (f7 : Bf (F := F) c M7) (f8 : Bf (F := F) c M8)
    (hs : ∀ e, ((Memref.whole main_arg1).view.read (Elt F) f1 e).toNat < 50000)
    (hd : ∀ e, ((Memref.whole main_arg2).view.read (Elt F) f2 e).toNat < 50000)
    (W : Waits sig Unit) (Q : PUnit → sProp 𝕄) :
    iprop(pt c (Memref.whole main_arg1) f1 ∗ pt c (Memref.whole main_arg2) f2 ∗ pt c (Memref.whole main_arg0) fa
        ∗ pt c M4 f4 ∗ pt c M5 f5 ∗ pt c M6 f6 ∗ pt c M7 f7 ∗ pt c M8 f8
        ∗ (∃ f, pt c (Memref.whole cc0_scratch0) f) ∗ Pipeline.ownSems0 osem c ∗ owes (c : Thread nD τ) 0 W
        ∗ (iprop(pt c (Memref.whole main_arg1) f1 ∗ pt c (Memref.whole main_arg2) f2 ∗ pt c (Memref.whole main_arg0) fa
              ∗ pt c M4 f4 ∗ pt c M5 f5 ∗ pt c M6 f6 ∗ pt c M7 f7
              ∗ (∃ g, ⌜M8.view.read (Elt F) g
                    = outTile ((Memref.whole main_arg1).view.read (Elt F) f1) ((Memref.whole main_arg2).view.read (Elt F) f2)
                        ((Memref.whole main_arg0).view.read (Elt F) fa) (tOf i)
                        (M4.view.read (Elt F) f4) (M5.view.read (Elt F) f5) (M6.view.read (Elt F) f6) (M7.view.read (Elt F) f7)⌝ ∗ pt c M8 g)
              ∗ (∃ f, pt c (Memref.whole cc0_scratch0) f) ∗ Pipeline.ownSems0 osem c
              ∗ ∃ W, owes (c : Thread nD τ) 0 W) -∗ Q ⟨⟩))
    ⊢ wp frame (wpE (defs₀ (F := F)) Variants.none c none) Set.univ
        (cc0__gather_mlp_kernel i (Memref.whole main_arg1) (Memref.isWhole_whole _) (Memref.whole main_arg2) (Memref.isWhole_whole _)
          (Memref.whole main_arg0) (Memref.isWhole_whole _) M4 h4 M5 h5 M6 h6 M7 h7 M8 h8
          (Memref.whole cc0_scratch0) (Memref.isWhole_whole _) cc0_scratch1 cc0_scratch2) Q := by
  iintro ⟨H1, H2, Ha, H4, H5, H6, H7, H8, ⟨%fs, Hs⟩, Hsems, HO, Hk⟩

  ihave Hrows := ((scratch_split c fs).trans (Entails.of_eq (by rw [rows_by_chunk, bigSep_fin8]))) $$ Hs
  icases Hrows with ⟨HR0, HR1, HR2, HR3, HR4, HR5, HR6, HR7⟩

  ihave Hlanes := (lanes_split c fa) $$ [Hsems Ha]
  · isplitl [Hsems]; · iexact Hsems
    iexact Ha
  icases Hlanes with ⟨HL, Hrem⟩
  simp only [cc0__gather_mlp_kernel_eq_skeleton]; unfold cc0__gather_mlp_kernel_skel
  simp only [k0_part1_eq_skeleton, k0_part2_eq_skeleton]; unfold k0_part1_skel
  sl_exec
  irw [wp_bind]

  sl_for (invI c i f1 f2 fa hs hd 0) $$ [H1 H2 HL HR0]
  · intro k acc; exact issueRegion c i f1 f2 fa hs hd 0 (k0_off1 i) (k0_off1_inb i) k0_off2 k0_off5 k0_off2_inb k0_off5_inb k0_off3 k0_off6 k0_off3_inb k0_off6_inb
      (fun k => edge_word i 0 k 0#32 rfl) lane_word lane_word (fun k => row_word 0 k 0#32 rfl 0) (fun k => row_word 0 k 0#32 rfl 1024) k acc
  · iapply (invI_entry c i f1 f2 fa hs hd 0)
    iframe H1 H2 HL HR0
  iintro %acc HI
  ihave HI' := (invI_exit c i f1 f2 fa hs hd 0 (Scf.trips k0_t1_loop.lb k0_t1_loop.ub k0_t1_loop.st) (by decide) acc) $$ HI
  icases HI' with ⟨H1, H2, HF⟩
  sl_for (invW c i f1 f2 fa hs hd 0) $$ [HO HF]
  · intro k acc; exact waitRegion c i f1 f2 fa hs hd 0 k0_off8 k0_off8_inb k0_off9 k0_off10 k0_off9_inb k0_off10_inb
      lane_word (fun k => row_word 0 k 0#32 rfl 0) (fun k => row_word 0 k 0#32 rfl 1024) k acc
  · iapply (invW_entry c i f1 f2 fa hs hd 0 _)
    iframe HO HF
  iintro %acc HI
  ihave HI' := (invW_exit c i f1 f2 fa hs hd 0 (Scf.trips k0_t2_loop.lb k0_t2_loop.ub k0_t2_loop.st) (by decide) acc) $$ HI
  icases HI' with ⟨⟨%W0, HO⟩, HL, HD0⟩

  sl_for (invI c i f1 f2 fa hs hd 1) $$ [H1 H2 HL HR1]
  · intro k acc; exact issueRegion c i f1 f2 fa hs hd 1 (k0_off11 i) (k0_off11_inb i) k0_off12 k0_off15 k0_off12_inb k0_off15_inb k0_off13 k0_off16 k0_off13_inb k0_off16_inb
      (fun k => edge_word i 1 k 32#32 rfl) lane_word lane_word (fun k => row_word 1 k 32#32 rfl 0) (fun k => row_word 1 k 32#32 rfl 1024) k acc
  · iapply (invI_entry c i f1 f2 fa hs hd 1)
    iframe H1 H2 HL HR1
  iintro %acc HI
  ihave HI' := (invI_exit c i f1 f2 fa hs hd 1 (Scf.trips k0_t3_loop.lb k0_t3_loop.ub k0_t3_loop.st) (by decide) acc) $$ HI
  icases HI' with ⟨H1, H2, HF⟩
  sl_for (invW c i f1 f2 fa hs hd 1) $$ [HO HF]
  · intro k acc; exact waitRegion c i f1 f2 fa hs hd 1 k0_off18 k0_off18_inb k0_off19 k0_off20 k0_off19_inb k0_off20_inb
      lane_word (fun k => row_word 1 k 32#32 rfl 0) (fun k => row_word 1 k 32#32 rfl 1024) k acc
  · iapply (invW_entry c i f1 f2 fa hs hd 1 _)
    iframe HO HF
  iintro %acc HI
  ihave HI' := (invW_exit c i f1 f2 fa hs hd 1 (Scf.trips k0_t4_loop.lb k0_t4_loop.ub k0_t4_loop.st) (by decide) acc) $$ HI
  icases HI' with ⟨⟨%W1, HO⟩, HL, HD1⟩

  sl_for (invI c i f1 f2 fa hs hd 2) $$ [H1 H2 HL HR2]
  · intro k acc; exact issueRegion c i f1 f2 fa hs hd 2 (k0_off21 i) (k0_off21_inb i) k0_off22 k0_off25 k0_off22_inb k0_off25_inb k0_off23 k0_off26 k0_off23_inb k0_off26_inb
      (fun k => edge_word i 2 k 64#32 rfl) lane_word lane_word (fun k => row_word 2 k 64#32 rfl 0) (fun k => row_word 2 k 64#32 rfl 1024) k acc
  · iapply (invI_entry c i f1 f2 fa hs hd 2)
    iframe H1 H2 HL HR2
  iintro %acc HI
  ihave HI' := (invI_exit c i f1 f2 fa hs hd 2 (Scf.trips k0_t5_loop.lb k0_t5_loop.ub k0_t5_loop.st) (by decide) acc) $$ HI
  icases HI' with ⟨H1, H2, HF⟩
  sl_for (invW c i f1 f2 fa hs hd 2) $$ [HO HF]
  · intro k acc; exact waitRegion c i f1 f2 fa hs hd 2 k0_off28 k0_off28_inb k0_off29 k0_off30 k0_off29_inb k0_off30_inb
      lane_word (fun k => row_word 2 k 64#32 rfl 0) (fun k => row_word 2 k 64#32 rfl 1024) k acc
  · iapply (invW_entry c i f1 f2 fa hs hd 2 _)
    iframe HO HF
  iintro %acc HI
  ihave HI' := (invW_exit c i f1 f2 fa hs hd 2 (Scf.trips k0_t6_loop.lb k0_t6_loop.ub k0_t6_loop.st) (by decide) acc) $$ HI
  icases HI' with ⟨⟨%W2, HO⟩, HL, HD2⟩

  sl_for (invI c i f1 f2 fa hs hd 3) $$ [H1 H2 HL HR3]
  · intro k acc; exact issueRegion c i f1 f2 fa hs hd 3 (k0_off31 i) (k0_off31_inb i) k0_off32 k0_off35 k0_off32_inb k0_off35_inb k0_off33 k0_off36 k0_off33_inb k0_off36_inb
      (fun k => edge_word i 3 k 96#32 rfl) lane_word lane_word (fun k => row_word 3 k 96#32 rfl 0) (fun k => row_word 3 k 96#32 rfl 1024) k acc
  · iapply (invI_entry c i f1 f2 fa hs hd 3)
    iframe H1 H2 HL HR3
  iintro %acc HI
  ihave HI' := (invI_exit c i f1 f2 fa hs hd 3 (Scf.trips k0_t7_loop.lb k0_t7_loop.ub k0_t7_loop.st) (by decide) acc) $$ HI
  icases HI' with ⟨H1, H2, HF⟩
  sl_for (invW c i f1 f2 fa hs hd 3) $$ [HO HF]
  · intro k acc; exact waitRegion c i f1 f2 fa hs hd 3 k0_off38 k0_off38_inb k0_off39 k0_off40 k0_off39_inb k0_off40_inb
      lane_word (fun k => row_word 3 k 96#32 rfl 0) (fun k => row_word 3 k 96#32 rfl 1024) k acc
  · iapply (invW_entry c i f1 f2 fa hs hd 3 _)
    iframe HO HF
  iintro %acc HI
  ihave HI' := (invW_exit c i f1 f2 fa hs hd 3 (Scf.trips k0_t8_loop.lb k0_t8_loop.ub k0_t8_loop.st) (by decide) acc) $$ HI
  icases HI' with ⟨⟨%W3, HO⟩, HL, HD3⟩

  sl_for (invI c i f1 f2 fa hs hd 4) $$ [H1 H2 HL HR4]
  · intro k acc; exact issueRegion c i f1 f2 fa hs hd 4 (k0_off41 i) (k0_off41_inb i) k0_off42 k0_off45 k0_off42_inb k0_off45_inb k0_off43 k0_off46 k0_off43_inb k0_off46_inb
      (fun k => edge_word i 4 k 128#32 rfl) lane_word lane_word (fun k => row_word 4 k 128#32 rfl 0) (fun k => row_word 4 k 128#32 rfl 1024) k acc
  · iapply (invI_entry c i f1 f2 fa hs hd 4)
    iframe H1 H2 HL HR4
  iintro %acc HI
  ihave HI' := (invI_exit c i f1 f2 fa hs hd 4 (Scf.trips k0_t9_loop.lb k0_t9_loop.ub k0_t9_loop.st) (by decide) acc) $$ HI
  icases HI' with ⟨H1, H2, HF⟩

  sl_exec
  sl_for (invW c i f1 f2 fa hs hd 4) $$ [HO HF]
  · intro k acc; exact waitRegion c i f1 f2 fa hs hd 4 k0_off48 k0_off48_inb k0_off49 k0_off50 k0_off49_inb k0_off50_inb
      lane_word (fun k => row_word 4 k 128#32 rfl 0) (fun k => row_word 4 k 128#32 rfl 1024) k acc
  · iapply (invW_entry c i f1 f2 fa hs hd 4 _)
    iframe HO HF
  iintro %acc HI
  ihave HI' := (invW_exit c i f1 f2 fa hs hd 4 (Scf.trips k0_t10_loop.lb k0_t10_loop.ub k0_t10_loop.st) (by decide) acc) $$ HI
  icases HI' with ⟨⟨%W4, HO⟩, HL, HD4⟩

  sl_for (invI c i f1 f2 fa hs hd 5) $$ [H1 H2 HL HR5]
  · intro k acc; exact issueRegion c i f1 f2 fa hs hd 5 (k0_off51 i) (k0_off51_inb i) k0_off52 k0_off55 k0_off52_inb k0_off55_inb k0_off53 k0_off56 k0_off53_inb k0_off56_inb
      (fun k => edge_word i 5 k 160#32 rfl) lane_word lane_word (fun k => row_word 5 k 160#32 rfl 0) (fun k => row_word 5 k 160#32 rfl 1024) k acc
  · iapply (invI_entry c i f1 f2 fa hs hd 5)
    iframe H1 H2 HL HR5
  iintro %acc HI
  ihave HI' := (invI_exit c i f1 f2 fa hs hd 5 (Scf.trips k0_t11_loop.lb k0_t11_loop.ub k0_t11_loop.st) (by decide) acc) $$ HI
  icases HI' with ⟨H1, H2, HF⟩
  sl_for (invW c i f1 f2 fa hs hd 5) $$ [HO HF]
  · intro k acc; exact waitRegion c i f1 f2 fa hs hd 5 k0_off58 k0_off58_inb k0_off59 k0_off60 k0_off59_inb k0_off60_inb
      lane_word (fun k => row_word 5 k 160#32 rfl 0) (fun k => row_word 5 k 160#32 rfl 1024) k acc
  · iapply (invW_entry c i f1 f2 fa hs hd 5 _)
    iframe HO HF
  iintro %acc HI
  ihave HI' := (invW_exit c i f1 f2 fa hs hd 5 (Scf.trips k0_t12_loop.lb k0_t12_loop.ub k0_t12_loop.st) (by decide) acc) $$ HI
  icases HI' with ⟨⟨%W5, HO⟩, HL, HD5⟩

  sl_for (invI c i f1 f2 fa hs hd 6) $$ [H1 H2 HL HR6]
  · intro k acc; exact issueRegion c i f1 f2 fa hs hd 6 (k0_off61 i) (k0_off61_inb i) k0_off62 k0_off65 k0_off62_inb k0_off65_inb k0_off63 k0_off66 k0_off63_inb k0_off66_inb
      (fun k => edge_word i 6 k 192#32 rfl) lane_word lane_word (fun k => row_word 6 k 192#32 rfl 0) (fun k => row_word 6 k 192#32 rfl 1024) k acc
  · iapply (invI_entry c i f1 f2 fa hs hd 6)
    iframe H1 H2 HL HR6
  iintro %acc HI
  ihave HI' := (invI_exit c i f1 f2 fa hs hd 6 (Scf.trips k0_t13_loop.lb k0_t13_loop.ub k0_t13_loop.st) (by decide) acc) $$ HI
  icases HI' with ⟨H1, H2, HF⟩
  sl_for (invW c i f1 f2 fa hs hd 6) $$ [HO HF]
  · intro k acc; exact waitRegion c i f1 f2 fa hs hd 6 k0_off68 k0_off68_inb k0_off69 k0_off70 k0_off69_inb k0_off70_inb
      lane_word (fun k => row_word 6 k 192#32 rfl 0) (fun k => row_word 6 k 192#32 rfl 1024) k acc
  · iapply (invW_entry c i f1 f2 fa hs hd 6 _)
    iframe HO HF
  iintro %acc HI
  ihave HI' := (invW_exit c i f1 f2 fa hs hd 6 (Scf.trips k0_t14_loop.lb k0_t14_loop.ub k0_t14_loop.st) (by decide) acc) $$ HI
  icases HI' with ⟨⟨%W6, HO⟩, HL, HD6⟩

  sl_for (invI c i f1 f2 fa hs hd 7) $$ [H1 H2 HL HR7]
  · intro k acc; exact issueRegion c i f1 f2 fa hs hd 7 (k0_off71 i) (k0_off71_inb i) k0_off72 k0_off75 k0_off72_inb k0_off75_inb k0_off73 k0_off76 k0_off73_inb k0_off76_inb
      (fun k => edge_word i 7 k 224#32 rfl) lane_word lane_word (fun k => row_word 7 k 224#32 rfl 0) (fun k => row_word 7 k 224#32 rfl 1024) k acc
  · iapply (invI_entry c i f1 f2 fa hs hd 7)
    iframe H1 H2 HL HR7
  iintro %acc HI
  ihave HI' := (invI_exit c i f1 f2 fa hs hd 7 (Scf.trips k0_t15_loop.lb k0_t15_loop.ub k0_t15_loop.st) (by decide) acc) $$ HI
  icases HI' with ⟨H1, H2, HF⟩
  sl_for (invW c i f1 f2 fa hs hd 7) $$ [HO HF]
  · intro k acc; exact waitRegion c i f1 f2 fa hs hd 7 k0_off78 k0_off78_inb k0_off79 k0_off80 k0_off79_inb k0_off80_inb
      lane_word (fun k => row_word 7 k 224#32 rfl 0) (fun k => row_word 7 k 224#32 rfl 1024) k acc
  · iapply (invW_entry c i f1 f2 fa hs hd 7 _)
    iframe HO HF
  iintro %acc HI
  ihave HI' := (invW_exit c i f1 f2 fa hs hd 7 (Scf.trips k0_t16_loop.lb k0_t16_loop.ub k0_t16_loop.st) (by decide) acc) $$ HI
  icases HI' with ⟨⟨%W7, HO⟩, HL, HD7⟩

  ihave Hall := (Entails.of_eq (by rw [rows_by_chunk, bigSep_fin8]; all_goals rfl :
      bigSep Finset.univ (fun r : Fin 256 => RowLanded c fa r (wS c f1 i r) (wD c f2 i r) (hs _) (hd _))
        = iprop(bigSep Finset.univ (Landed c i f1 f2 fa hs hd 0) ∗ bigSep Finset.univ (Landed c i f1 f2 fa hs hd 1)
          ∗ bigSep Finset.univ (Landed c i f1 f2 fa hs hd 2) ∗ bigSep Finset.univ (Landed c i f1 f2 fa hs hd 3)
          ∗ bigSep Finset.univ (Landed c i f1 f2 fa hs hd 4) ∗ bigSep Finset.univ (Landed c i f1 f2 fa hs hd 5)
          ∗ bigSep Finset.univ (Landed c i f1 f2 fa hs hd 6) ∗ bigSep Finset.univ (Landed c i f1 f2 fa hs hd 7))).symm) $$ [HD0 HD1 HD2 HD3 HD4 HD5 HD6 HD7]
  · isplitl [HD0]; · iexact HD0
    iframe HD1 HD2 HD3 HD4 HD5 HD6 HD7
  ihave Htile := (scratch_join c fa (T1.view.read (Elt F) f1) (T2.view.read (Elt F) f2) (tOf i)
      (fun r => wS c f1 i r) (fun r => wD c f2 i r) (fun _ => hs _) (fun _ => hd _) (fun _ => rfl) (fun _ => rfl)) $$ Hall
  icases Htile with ⟨%g, %hg, Hs⟩
  ihave Hback := (lanes_join c fa) $$ [HL Hrem]
  · isplitl [HL]; · iexact HL
    iexact Hrem
  icases Hback with ⟨Hsems, Ha⟩

  sl_exec!
  sl_step
  iapply Hk
  iframe H1 H2 Ha H4 H5 H6 H7
  isplitl [H8]
  · iexists _
    isplitr; swap; (· iexact H8)
    ipureintro
    sl_unfold_words

    have hz2 : (![0, 0] : Fin 2 → Nat) = fun _ => 0 := by funext a; fin_cases a <;> rfl
    have hz1 : (![0] : Fin 1 → Nat) = fun _ => 0 := by funext a; fin_cases a; rfl
    rw [View.read_writes_eq_canon _ _ _ (View.cover_of_tiled _ S256x1024.size rfl), View.canon_unit_zero hz2]
    simp only [View.readAt_eq_ld, View.ld_unit_zero (S := S256x2048) hz2, View.ld_unit_zero (S := S2048x1024) hz2,
      View.ld_unit_zero (S := S1024) hz1, View.ld_unit_zero (S := S1024x1024) hz2]
    rw [hg]
    rfl
  isplitl [Hs]; · iexists g; iexact Hs
  isplitl [Hsems]; · iexact Hsems
  iexists _; iexact HO

end Cert.Proof.EdgeMlp

end
-- ==== Proof.LaunchData.lean ====
import proofs.«421332_j47682726921127_1_alg».proof.Proof.KernelRun
import Idealize.ShloMosaic.Lib.Pipeline.Regions
import Idealize.ShloMosaic.Lib.Pipeline.FrameBody

noncomputable section

namespace Cert.Proof.EdgeMlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev V₀ (c : Dev nD) : Valuation τ sig (Elt F) := fun b => m ((c : Dev nD), b)

abbrev V (c : Dev nD) (b : Ref sig .tc) : Buf (Elt F) ((c : Thread nD τ).loc b) := StableHlo.after hostOps0 (V₀ m c) b

def tabs : pre0.Contents (Elt F) := fun k => m (((0 : Dev nD) : Thread nD τ).loc (pre0.ref k))

abbrev adm : (p : Fin 1) → (pcfgs (F := F) p).Adm := fun _ => ⟨tabs m, trivial⟩

abbrev cfgA : Pipeline.Cfg sig Λ₀ := Pipeline.pin (pcfgs (F := F)) (adm m) (0 : Fin 1)

def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

def Φc (c : Dev nD) : sProp 𝕄 :=
  iprop(pt c (Memref.whole main_arg1) (m ((c : Thread nD τ).loc main_arg1)) ∗ pt c (Memref.whole main_arg2) (m ((c : Thread nD τ).loc main_arg2))
    ∗ pt c (Memref.whole main_arg0) (m ((c : Thread nD τ).loc main_arg0))
    ∗ (∃ f, pt c (Memref.whole cc0_scratch0) f) ∗ Pipeline.ownSems0 osem c)

def tileAt (c : Dev nD) (t : Fin (cfgA m).N) : FVec F S256x1024 .f32 :=
  outTile ((Memref.whole main_arg1).view.read (Elt F) (m ((c : Thread nD τ).loc main_arg1)))
    ((Memref.whole main_arg2).view.read (Elt F) (m ((c : Thread nD τ).loc main_arg2)))
    ((Memref.whole main_arg0).view.read (Elt F) (m ((c : Thread nD τ).loc main_arg0)))
    (tOf (grid0.coords t)) (iblk m c 0 t) (iblk m c 1 t) (iblk m c 2 t) (iblk m c 3 t)

def dats (_ : Fin 1) (c : Dev nD) : Dat τ (Elt F) Unit ℕ (UU nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t
  Φ _ := Φc m c
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = tileAt m c t := by dsimp only [dats]; rfl

theorem before0 (c : Dev nD) (t : Fin (cfgA m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin (cfgA m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin (cfgA m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin (cfgA m).N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

theorem owns_intro_whole (c : Dev nD) {sp : Space} {S : Shape} {e : EltTy} (M : Memref sig .tc sp S e) (h : M.IsWhole) (f : Bf (F := F) c M)
    {X : S.Idx → Elt F e} (hX : M.view.read (Elt F) f = X) :
    pt c M f ⊢ (owns (c : Thread nD τ) M fullShare X : sProp 𝕄) := by
  rw [owns_of_whole c M h]; iintro H; iexists f; isplitr; · ipureintro; exact hX
  iexact H

variable (hs : ∀ (c : Dev nD) (e : S65536.Idx), ((m ((c : Thread nD τ).loc main_arg1) : IVec S65536 32) e).toNat < 50000)
  (hd : ∀ (c : Dev nD) (e : S65536.Idx), ((m ((c : Thread nD τ).loc main_arg2) : IVec S65536 32) e).toNat < 50000)

include hs hd in

theorem body_obligation (c : Dev nD) : BodyObligation (dats m 0 c) (defs₀ (F := F)) Variants.none () Set.univ := fun t => by
  rw [bigSep_W0, bigSep_W0]
  rw [show (dats m 0 c).Φ t.castSucc = Φc m c from rfl, show (dats m 0 c).Φ t.succ = Φc m c from rfl]
  unfold Φc Dat.owesAt Pipeline.owesWithin
  rw [show (dats m 0 c).owed t.castSucc = 0 from rfl, show (dats m 0 c).owed t.succ = 0 from rfl]
  rw [after0, after1, after2, after3, after4]
  simp only [fun j X => owns_of_whole (F := F) c (stage0_0 j) (hstage0_0 j) X, fun j X => owns_of_whole (F := F) c (stage0_1 j) (hstage0_1 j) X,
    fun j X => owns_of_whole (F := F) c (stage0_2 j) (hstage0_2 j) X, fun j X => owns_of_whole (F := F) c (stage0_3 j) (hstage0_3 j) X,
    fun j X => owns_of_whole (F := F) c (stage0_4 j) (hstage0_4 j) X]
  iintro ⟨⟨H1, H2, Ha, Hs, Hsems⟩, ⟨%W, %hW, HO⟩, ⟨%d0, %f0, %hf0, H0⟩, ⟨%d1, %f1, %hf1, H1'⟩, ⟨%d2, %f2, %hf2, H2'⟩, ⟨%d3, %f3, %hf3, H3'⟩, ⟨%d4, %f4, %hf4, H4'⟩⟩
  have hf0 := hf0.trans (before0 m c t d0)
  have hf1 := hf1.trans (before1 m c t d1)
  have hf2 := hf2.trans (before2 m c t d2)
  have hf3 := hf3.trans (before3 m c t d3)
  iapply (kernelRun c (grid0.coords t) (stage0_0 _) (hstage0_0 _) (stage0_1 _) (hstage0_1 _) (stage0_2 _) (hstage0_2 _) (stage0_3 _) (hstage0_3 _)
    (stage0_4 _) (hstage0_4 _) (m ((c : Thread nD τ).loc main_arg1)) (m ((c : Thread nD τ).loc main_arg2)) (m ((c : Thread nD τ).loc main_arg0))
    f0 f1 f2 f3 f4 (fun e => by simp only [Memref.view_whole, View.read_whole]; exact hs c e)
    (fun e => by simp only [Memref.view_whole, View.read_whole]; exact hd c e) W _)
  iframe H1 H2 Ha H0 H1' H2' H3' H4' Hs Hsems HO
  iintro ⟨H1, H2, Ha, H0, H1', H2', H3', ⟨%g, %hg, H4'⟩, Hs, Hsems, ⟨%W', HO⟩⟩
  isplitl [H1 H2 Ha Hs Hsems]
  · isplitl [H1]; · iexact H1
    iframe H2 Ha Hs Hsems
  isplitl [HO]
  · iexists W'; isplitr; · ipureintro; exact fun _ _ => Or.inl trivial
    iexact HO
  isplitl [H0]; · iapply (owns_intro_whole c _ (hstage0_0 _) f0 hf0); iexact H0
  isplitl [H1']; · iapply (owns_intro_whole c _ (hstage0_1 _) f1 hf1); iexact H1'
  isplitl [H2']; · iapply (owns_intro_whole c _ (hstage0_2 _) f2 hf2); iexact H2'
  isplitl [H3']; · iapply (owns_intro_whole c _ (hstage0_3 _) f3 hf3); iexact H3'
  iexists g; isplitr; swap; · iexact H4'
  ipureintro; rw [hg]; unfold tileAt; rw [hf0, hf1, hf2, hf3]

end Cert.Proof.EdgeMlp

end
-- ==== Proof.Launch.lean ====
import proofs.«421332_j47682726921127_1_alg».proof.Proof.LaunchData

noncomputable section

namespace Cert.Proof.EdgeMlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

def hostRefs : Finset (DevRef τ sig) :=
  (Finset.univ.filter fun b : Ref sig .tc => ¬ b.isScoped).map ⟨Proc.devRef (sig := sig) (.tc : Proc τ), Proc.devRef_injective _⟩

omit [FloatOps F] in

theorem held_hostRefs (c : Dev nD) (W : Valuation τ sig (Elt F)) :
    (StableHlo.held (c : Thread nD τ) hostRefs W : sProp 𝕄) = unscopedBufs c (fun b => W b) := by
  unfold StableHlo.held hostRefs unscopedBufs
  rw [bigSep_map]
  rfl

omit [FloatOps F] in

theorem bufs_sub_hostRefs (op : HloOp τ sig (Elt F)) (h : op.bufs ⊆ StableHlo.tcRefs τ sig) : op.bufs ⊆ hostRefs := fun b hb => by
  obtain ⟨r, -, rfl⟩ := Finset.mem_map.mp (h hb)
  refine Finset.mem_map.mpr ⟨r, Finset.mem_filter.mpr ⟨Finset.mem_univ _, ?_⟩, rfl⟩
  have hn := op.no_scoped _ hb
  intro hr
  exact Bool.false_ne_true (hn.symm.trans hr)

theorem hostOps0_writes : (hostOps0 (F := F)).Forall fun op =>
    op.writes ⊆ (([main_v0, main_v1] : List (Ref sig .tc)).map (Proc.devRef (τ := τ) .tc)).toFinset := by
  refine List.forall_iff_forall_mem.mpr fun op hop => ?_
  simp only [List.mem_cons, List.mem_nil_iff, or_false] at hop
  rcases hop with rfl | rfl
  · simp only [StableHlo.unary_writes]
    exact Finset.singleton_subset_iff.mpr (List.mem_toFinset.mpr (List.mem_map.mpr ⟨main_v0, by decide, rfl⟩))
  · simp only [StableHlo.unary_writes]
    exact Finset.singleton_subset_iff.mpr (List.mem_toFinset.mpr (List.mem_map.mpr ⟨main_v1, by decide, rfl⟩))

theorem V_of_not_mem (c : Dev nD) (b : Ref sig .tc) (hb : b ∉ ([main_v0, main_v1] : List (Ref sig .tc))) :
    V m c b = m ((c : Thread nD τ).loc b) :=
  StableHlo.after_of_writes_sub hostOps0 (V₀ m c) hostOps0_writes hb

abbrev EP : Emb (UR sig nD τ) (MT nD τ sig Unit (Elt F) ℕ (UU nD τ) ℕ) := embL

abbrev 𝒱₀ : Variants := Variants.none

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

def seg0 : Pipeline.HostSeg (Name := ℕ) (U := UU nD τ) (pcfgs (F := F)) defs₀ 𝒱₀ L lv :=
  Pipeline.HostSeg.ofOps _ _ _ _ _ hostRefs hostOps0 (fun op h => bufs_sub_hostRefs op ((List.forall_iff_forall_mem.mp hostOps0_sub) op h))
    (by
      intro op h
      simp only [List.mem_cons, List.mem_nil_iff, or_false] at h
      rcases h with rfl | rfl <;> rfl) (V₀ m) R

variable (hs : ∀ (c : Dev nD) (e : S65536.Idx), ((m ((c : Thread nD τ).loc main_arg1) : IVec S65536 32) e).toNat < 50000)
  (hd : ∀ (c : Dev nD) (e : S65536.Idx), ((m ((c : Thread nD τ).loc main_arg2) : IVec S65536 32) e).toNat < 50000)

theorem ownSemFacts : Pipeline.OwnSemFacts spec0 osem := by decide

theorem tabs_eq (c : Dev nD) : (fun k => V m c (pre0.ref k)) = tabs m := by
  obtain rfl : c = 0 := Subsingleton.elim _ _
  funext k
  exact V_of_not_mem m 0 (pre0.ref k) (by revert k; decide)

theorem prefHeld_tabs (c : Dev nD) :
    (Pipeline.prefHeld (Ix := Unit) (Name := ℕ) (U := UU nD τ) (Lvl := ℕ) pre0 c (fun _ => fullShare) (tabs m) : sProp 𝕄)
      = iprop(pt c (Memref.whole main_arg1) (m ((c : Thread nD τ).loc main_arg1)) ∗ pt c (Memref.whole main_arg2) (m ((c : Thread nD τ).loc main_arg2))) := by
  obtain rfl : c = 0 := Subsingleton.elim _ _
  unfold Pipeline.prefHeld
  rw [bigSep_univ_eq_bigSepL [(0 : Fin 2), 1] (by decide) (by decide)]
  rfl

def finalOut (_ρ : Dev nD → PrngReg) (c : Dev nD) : Buf (Elt F) ((c : Thread nD τ).loc main_v2) := (dats m 0 c).arrAt 4 (cfgA m).N

abbrev Tₙ (c : Dev nD) : sProp 𝕄 :=
  iprop((dats m 0 c).arrays ((dats m 0 c).arrAt · (cfgA m).N)
    ∗ pt c (Memref.whole main_arg1) (m ((c : Thread nD τ).loc main_arg1)) ∗ pt c (Memref.whole main_arg2) (m ((c : Thread nD τ).loc main_arg2))
    ∗ pt c (Memref.whole main_arg0) (m ((c : Thread nD τ).loc main_arg0))
    ∗ pt c (Memref.whole main_arg3) (m ((c : Thread nD τ).loc main_arg3)) ∗ pt c (Memref.whole main_arg5) (m ((c : Thread nD τ).loc main_arg5)))

set_option backward.isDefEq.respectTransparency.types false in

def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 64
  osem := osem
  ho := ownSemFacts
  hbody c := (body_obligation m hs hd c).loose
  hwaits := Pipeline.hwaits_of_owed_zero _ _ _ _ L lv 0 fun _ _ => rfl
  pre c := iprop(StableHlo.held (c : Thread nD τ) hostRefs (StableHlo.after hostOps0 (V₀ m c)) ∗ R c)
  post c := iprop(Tₙ m c ∗ R c)
  X c := iprop(pt c (Memref.whole main_arg0) (m ((c : Thread nD τ).loc main_arg0)) ∗ Pipeline.ownSems0 osem c)
  Y c := iprop(pt c (Memref.whole main_arg1) (m ((c : Thread nD τ).loc main_arg1)) ∗ pt c (Memref.whole main_arg2) (m ((c : Thread nD τ).loc main_arg2))
    ∗ pt c (Memref.whole main_arg0) (m ((c : Thread nD τ).loc main_arg0)))
  Z c := iprop(pt c (Memref.whole main_arg3) (m ((c : Thread nD τ).loc main_arg3)) ∗ pt c (Memref.whole main_arg5) (m ((c : Thread nD τ).loc main_arg5)))
  hentry c := by
    rw [held_hostRefs]
    have hsplit := Pipeline.arrays_of_unscopedBufs (pcfgs (F := F)) (adm m) (dats m) (launch0 (F := F)).win (launch0 (F := F)).arr_whole c
      ((dats m 0 c).share_full fun _ => rfl) (V m c) (A_eq m c)
    rw [Pipeline.unscopedRest_split (launch0 (F := F)).pre c (V m c), unscopedRestP0_eq c (V m c), tabs_eq m c,
      V_of_not_mem m c main_arg0 (by decide), V_of_not_mem m c main_arg3 (by decide), V_of_not_mem m c main_arg5 (by decide)] at hsplit
    iintro ⟨⟨Hub, HO⟩, Hos, -⟩
    ihave H := hsplit $$ Hub
    icases H with ⟨Ha, Hpf, H0, H3, H5⟩
    imodintro
    iframe Ha Hpf
    isplitl [HO]
    · unfold Pipeline.Dat.owesAt Pipeline.owesWithin
      icases HO with ⟨%W, HO⟩; iexists W; isplitr; · ipureintro; exact fun _ _ => Or.inl trivial
      iexact HO
    isplitl [H0 Hos]
    · isplitl [H0]; · iexact H0
      iexact Hos
    iframe H3 H5
  hin c := by
    rw [show (dats m 0 c).Φ 0 = Φc m c from rfl, show (adm m 0).1 = tabs m from rfl, prefHeld_tabs, scopedRest0_eq]; unfold Φc
    iintro ⟨⟨H0, Hos⟩, ⟨H1, H2⟩, Hr⟩
    iframe H1 H2 H0 Hr Hos
  hout c := by
    rw [show (dats m 0 c).Φ (Fin.last (cfgA m).N) = Φc m c from rfl, scopedRest0_eq]; unfold Φc
    iintro ⟨H1, H2, H0, Hr, Hos⟩
    isplitl [H1 H2 H0]
    · isplitl [H1]; · iexact H1
      iframe H2 H0
    iframe Hos Hr
  hexit c := by
    iintro ⟨Ha, HO, ⟨H1, H2, H0⟩, ⟨H3, H5⟩⟩
    imodintro
    isplitr [HO]
    · isplitl [Ha]; · iexact Ha
      iframe H1 H2 H0 H3 H5
    · unfold Pipeline.Dat.owesAt Pipeline.owesWithin
      icases HO with ⟨%W, -, HO⟩; iexists W; iexact HO

abbrev segs : List (Pipeline.Seg (pcfgs (F := F)) (adm m) (dats m) () defs₀ 𝒱₀ L lv) := [.host (seg0 m), .region (reg0 m hs hd)]

def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

include hs hd in
set_option backward.isDefEq.respectTransparency.types false in

theorem run_main : θ_run (defs (F := F)) (onTc (τ := τ) (main (F := F))) ⟨m, fun _ => 0, ρ⟩ (fun r => ∀ c : Dev nD,
      r.2.mem ((c.tc : Thread nD τ).loc main_v2) = finalOut m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) (adm m) (dats m) () (cellOf_inj (adm m)) EP defs₀ 𝒱₀ L lv m ρ main (segs m hs hd)
    (fun c Q => by rw [main_segs (adm m) (dats m) () 𝒱₀ L lv (seg0 m) (reg0 m hs hd) rfl c])
    (by simp only [Pipeline.Seg.pipes_host, Pipeline.Seg.pipes_region, Pipeline.Seg.pipes_nil]; decide) (O₀ := 0) (hL := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) hostRefs (V₀ m c) from (held_hostRefs c (V₀ m c)).symm]
      iintro ⟨⟨Hh, -, HO, -, -, -⟩, -⟩
      imodintro
      isplitl [Hh]; · iexact Hh
      iexists ∅; iexact HO)
    (QY := fun c s => s.mem ((c.tc : Thread nD τ).loc main_v2) = finalOut m ρ c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => by
      iintro ⟨⟨Ha, H1, H2, H0, H3, H5⟩, HSI⟩
      icombine HSI H1 gives %h1
      icombine HSI H2 gives %h2
      icombine HSI H0 gives %h0
      icombine HSI H3 gives %h3
      icombine HSI H5 gives %h5
      ihave Hr := (Pipeline.arrays_read (pcfgs (F := F)) (adm m) (dats m) (launch0 (F := F)).arr_whole c ((dats m 0 c).share_full fun _ => rfl) _ s') $$ [Ha HSI]
      · isplitl [Ha] <;> iassumption
      icases Hr with ⟨%ha, HSI⟩
      imodintro
      isplitr; swap; · iexact HSI
      ipureintro
      exact ⟨ha 4, Buf.eq_of_forall_mem_univ h0, Buf.eq_of_forall_mem_univ h1, Buf.eq_of_forall_mem_univ h2, Buf.eq_of_forall_mem_univ h3,
        (ha 1).trans ((((dats m 0 c).arrAt_in 1 rfl _).trans (A_eq m c 1)).trans (V_of_not_mem m c main_arg4 (by decide))),
        Buf.eq_of_forall_mem_univ h5,
        (ha 3).trans ((((dats m 0 c).arrAt_in 3 rfl _).trans (A_eq m c 3)).trans (V_of_not_mem m c main_arg6 (by decide)))⟩)
    (hQ := fun _ h => h)

end Cert.Proof.EdgeMlp

end
-- ==== Proof.LaunchValue.lean ====
import proofs.«421332_j47682726921127_1_alg».proof.Proof.Launch
import Idealize.ShloMosaic.Lib.Pipeline.Value

noncomputable section

namespace Cert.Proof.EdgeMlp

open Cert.KernelIdeal Cert.KernelIdeal.Gen
open Idealize.ShloMosaic Idealize.ShloMosaic.ValueIdx
open Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

theorem coords0 (t : Fin grid0.N) : (grid0.coords t 0).val = t.val := by
  have hN : grid0.N = 256 := N_0
  have ht : t.val < 256 := hN ▸ t.isLt
  show t.val / grid0.stride 0 % 256 = t.val
  rw [show grid0.stride 0 = 1 from by decide, Nat.div_one, Nat.mod_eq_of_lt ht]

theorem tOf_coords (t : Fin grid0.N) : tOf (grid0.coords t) = ⟨t.val, N_0 ▸ t.isLt⟩ := Fin.ext (coords0 t)

theorem index4 (t : Fin (cfgA m).N) : ((cfgA m).win 4).index t (0 : Fin 2) = t.val ∧ ((cfgA m).win 4).index t (1 : Fin 2) = 0 := by
  have ht : t.val < 256 := (N_0 ▸ t.isLt : t.val < 256)
  refine ⟨?_, rfl⟩
  show (BitVec.ofNat 32 (grid0.coords t 0).val).toNat = t.val
  rw [coords0, BitVec.toNat_ofNat]
  exact Nat.mod_eq_of_lt (by omega)

theorem index0 (t : Fin (cfgA m).N) (a : Fin 2) : ((cfgA m).win 0).index t a = 0 := by
  fin_cases a <;> rfl
theorem index1 (t : Fin (cfgA m).N) (a : Fin 1) : ((cfgA m).win 1).index t a = 0 := by
  fin_cases a; rfl
theorem index2 (t : Fin (cfgA m).N) (a : Fin 2) : ((cfgA m).win 2).index t a = 0 := by
  fin_cases a <;> rfl
theorem index3 (t : Fin (cfgA m).N) (a : Fin 1) : ((cfgA m).win 3).index t a = 0 := by
  fin_cases a; rfl

theorem flush4 (t : Fin (cfgA m).N) : ((cfgA m).win 4).flush t = true := by
  have hN : (cfgA m).N = (cfgA m).grid.N := rfl
  unfold Window.flush
  rw [show ((cfgA m).win 4).isOut = true from rfl, Bool.true_and, Bool.or_eq_true, decide_eq_true_eq, decide_eq_true_eq]
  by_cases h : t.val + 1 = (cfgA m).grid.N
  · exact .inl h
  · have hlt : t.val + 1 < (cfgA m).grid.N := by have := t.isLt; omega
    refine .inr ⟨hlt, fun e => ?_⟩
    have e0 : t.val + 1 = t.val := by
      have := congrFun e (0 : Fin 2)
      rwa [(index4 m ⟨t.val + 1, hlt⟩).1, (index4 m t).1] at this
    omega

theorem iblk0_eq (c : Dev nD) (t : Fin (cfgA m).N) : (iblk m c 0 t : Vec F S2048x1024 .bf16) = (V m c main_v0 : Vec F S2048x1024 .bf16) := by
  refine funext fun (x : S2048x1024.Idx) => ?_
  unfold iblk
  refine Eq.trans (View.read_apply (Val := Elt F) (v := (((cfgA m).win 0).blk t).view) (V m c (Pipeline.arrRef spec0 0)) x) ?_
  show V m c main_v0 _ = V m c main_v0 x
  congr 1
  funext a; apply Fin.ext
  match a with
  | ⟨0, _⟩ => show ((cfgA m).win 0).index t (0 : Fin 2) * 2048 + 1 * (x (0 : Fin 2)).val = (x (0 : Fin 2)).val; rw [index0]; omega
  | ⟨1, _⟩ => show ((cfgA m).win 0).index t (1 : Fin 2) * 1024 + 1 * (x (1 : Fin 2)).val = (x (1 : Fin 2)).val; rw [index0]; omega
theorem iblk1_eq (c : Dev nD) (t : Fin (cfgA m).N) : (iblk m c 1 t : Vec F S1024 .f32) = (V m c main_arg4 : Vec F S1024 .f32) := by
  refine funext fun (x : S1024.Idx) => ?_
  unfold iblk
  refine Eq.trans (View.read_apply (Val := Elt F) (v := (((cfgA m).win 1).blk t).view) (V m c (Pipeline.arrRef spec0 1)) x) ?_
  show V m c main_arg4 _ = V m c main_arg4 x
  congr 1
  funext a; apply Fin.ext
  match a with
  | ⟨0, _⟩ => show ((cfgA m).win 1).index t (0 : Fin 1) * 1024 + 1 * (x (0 : Fin 1)).val = (x (0 : Fin 1)).val; rw [index1]; omega
theorem iblk2_eq (c : Dev nD) (t : Fin (cfgA m).N) : (iblk m c 2 t : Vec F S1024x1024 .bf16) = (V m c main_v1 : Vec F S1024x1024 .bf16) := by
  refine funext fun (x : S1024x1024.Idx) => ?_
  unfold iblk
  refine Eq.trans (View.read_apply (Val := Elt F) (v := (((cfgA m).win 2).blk t).view) (V m c (Pipeline.arrRef spec0 2)) x) ?_
  show V m c main_v1 _ = V m c main_v1 x
  congr 1
  funext a; apply Fin.ext
  match a with
  | ⟨0, _⟩ => show ((cfgA m).win 2).index t (0 : Fin 2) * 1024 + 1 * (x (0 : Fin 2)).val = (x (0 : Fin 2)).val; rw [index2]; omega
  | ⟨1, _⟩ => show ((cfgA m).win 2).index t (1 : Fin 2) * 1024 + 1 * (x (1 : Fin 2)).val = (x (1 : Fin 2)).val; rw [index2]; omega
theorem iblk3_eq (c : Dev nD) (t : Fin (cfgA m).N) : (iblk m c 3 t : Vec F S1024 .f32) = (V m c main_arg6 : Vec F S1024 .f32) := by
  refine funext fun (x : S1024.Idx) => ?_
  unfold iblk
  refine Eq.trans (View.read_apply (Val := Elt F) (v := (((cfgA m).win 3).blk t).view) (V m c (Pipeline.arrRef spec0 3)) x) ?_
  show V m c main_arg6 _ = V m c main_arg6 x
  congr 1
  funext a; apply Fin.ext
  match a with
  | ⟨0, _⟩ => show ((cfgA m).win 3).index t (0 : Fin 1) * 1024 + 1 * (x (0 : Fin 1)).val = (x (0 : Fin 1)).val; rw [index3]; omega

theorem V_v0 (c : Dev nD) : V m c main_v0 = truncf .bf16 (m ((c : Thread nD τ).loc main_arg3)) bitsLt_bf16_f32 := by
  show StableHlo.after hostOps0 (V₀ m c) (Proc.devRef .tc main_v0) = _
  after_results
theorem V_v1 (c : Dev nD) : V m c main_v1 = truncf .bf16 (m ((c : Thread nD τ).loc main_arg5)) bitsLt_bf16_f32 := by
  show StableHlo.after hostOps0 (V₀ m c) (Proc.devRef .tc main_v1) = _
  after_results

def tileOf (c : Dev nD) (t : Fin 256) : FVec F S256x1024 .f32 :=
  outTile (m ((c : Thread nD τ).loc main_arg1)) (m ((c : Thread nD τ).loc main_arg2)) (m ((c : Thread nD τ).loc main_arg0))
    t (truncf .bf16 (m ((c : Thread nD τ).loc main_arg3)) bitsLt_bf16_f32) (m ((c : Thread nD τ).loc main_arg4))
    (truncf .bf16 (m ((c : Thread nD τ).loc main_arg5)) bitsLt_bf16_f32) (m ((c : Thread nD τ).loc main_arg6))

theorem tileAt_eq (c : Dev nD) (t : Fin (cfgA m).N) : tileAt m c t = tileOf m c ⟨t.val, N_0 ▸ t.isLt⟩ := by
  unfold tileAt tileOf
  rw [iblk0_eq, iblk1_eq, iblk2_eq, iblk3_eq, V_v0, V_v1, V_of_not_mem m c main_arg4 (by decide), V_of_not_mem m c main_arg6 (by decide), tOf_coords]
  simp only [Memref.view_whole, View.read_whole]

def outAll (c : Dev nD) : Buf (Elt F) ((c : Thread nD τ).loc main_v2) := fun (i : S65536x1024.Idx) =>
  tileOf m c ⟨(i (0 : Fin 2)).val / 256, by have : (i (0 : Fin 2)).val < 65536 := (i (0 : Fin 2)).isLt; omega⟩
    (ix2 (⟨(i (0 : Fin 2)).val % 256, Nat.mod_lt _ (by decide)⟩ : Fin 256) (i (1 : Fin 2) : Fin 1024))

theorem outAll_emb (c : Dev nD) (t : Fin (cfgA m).N) (y : S256x1024.Idx) :
    outAll m c ((((cfgA m).win 4).blk t).view.emb y) = tileOf m c ⟨t.val, N_0 ▸ t.isLt⟩ y := by
  have ht : t.val < 256 := (N_0 ▸ t.isLt : t.val < 256)
  have hy0 : (y (0 : Fin 2)).val < 256 := (y (0 : Fin 2)).isLt
  have h0 : ((((cfgA m).win 4).blk t).view.emb y (0 : Fin 2)).val = t.val * 256 + (y (0 : Fin 2)).val := by
    show ((cfgA m).win 4).index t (0 : Fin 2) * 256 + 1 * (y (0 : Fin 2)).val = _
    rw [(index4 m t).1]; omega
  have h1 : ((((cfgA m).win 4).blk t).view.emb y (1 : Fin 2)).val = (y (1 : Fin 2)).val := by
    show ((cfgA m).win 4).index t (1 : Fin 2) * 1024 + 1 * (y (1 : Fin 2)).val = _
    rw [(index4 m t).2]; omega
  have e1 : (⟨((((cfgA m).win 4).blk t).view.emb y (0 : Fin 2)).val / 256, by rw [h0]; omega⟩ : Fin 256) = ⟨t.val, ht⟩ :=
    Fin.ext (by show ((((cfgA m).win 4).blk t).view.emb y (0 : Fin 2)).val / 256 = t.val; rw [h0]; omega)
  have e2 : ix2 (⟨((((cfgA m).win 4).blk t).view.emb y (0 : Fin 2)).val % 256, Nat.mod_lt _ (by decide)⟩ : Fin 256)
      (((((cfgA m).win 4).blk t).view.emb y (1 : Fin 2)) : Fin 1024) = y := by
    funext a
    match a with
    | ⟨0, _⟩ => exact Fin.ext (by show ((((cfgA m).win 4).blk t).view.emb y (0 : Fin 2)).val % 256 = (y (0 : Fin 2)).val; rw [h0]; omega)
    | ⟨1, _⟩ => exact Fin.ext h1
  show tileOf m c ⟨((((cfgA m).win 4).blk t).view.emb y (0 : Fin 2)).val / 256, _⟩ _ = _
  exact (congrArg (fun q => tileOf m c q _) e1).trans (congrArg (tileOf m c ⟨t.val, ht⟩) e2)

theorem flushed4_eq (c : Dev nD) (t : Fin (cfgA m).N) :
    (dats m 0 c).flushed 4 t = (((cfgA m).win 4).blk t).view.read (Elt F) (outAll m c) := by
  show ((cfgA m).win 4).cut (grid0.coords t) ((dats m 0 c).after 4 t) = _
  rw [after4, tileAt_eq]
  refine funext fun (y : S256x1024.Idx) => ?_
  exact (outAll_emb m c t y).symm

theorem mem_blk4 (t : Fin (cfgA m).N) (i : S65536x1024.Idx) (h : t.val * 256 ≤ (i (0 : Fin 2)).val ∧ (i (0 : Fin 2)).val < t.val * 256 + 256) :
    i ∈ (((cfgA m).win 4).blk t).view.set := by
  refine (Finset.ext_iff.mp (View.set_slice_whole main_v2 (((cfgA m).win 4).rect t)) i).mpr (Rect.mem_set_unit.mpr fun a => ?_)
  match a with
  | ⟨0, _⟩ =>
    show ((cfgA m).win 4).index t (0 : Fin 2) * 256 ≤ (i (0 : Fin 2)).val ∧ (i (0 : Fin 2)).val < ((cfgA m).win 4).index t (0 : Fin 2) * 256 + 256
    rw [(index4 m t).1]; exact h
  | ⟨1, _⟩ =>
    have h1 : (i (1 : Fin 2)).val < 1024 := (i (1 : Fin 2)).isLt
    show ((cfgA m).win 4).index t (1 : Fin 2) * 1024 ≤ (i (1 : Fin 2)).val ∧ (i (1 : Fin 2)).val < ((cfgA m).win 4).index t (1 : Fin 2) * 1024 + 1024
    rw [(index4 m t).2, Nat.zero_mul, Nat.zero_add]
    exact ⟨Nat.zero_le _, h1⟩

theorem finalOut_eq (c : Dev nD) : finalOut m ρ c = outAll m c :=
  (dats m 0 c).arrAt_eq_of_cover 4 (outAll m c) (fun t _ => flushed4_eq m c t) fun (i : S65536x1024.Idx) => by
    have hi : (i (0 : Fin 2)).val < 65536 := (i (0 : Fin 2)).isLt
    have hN : (cfgA m).N = 256 := N_0
    refine ⟨⟨(i (0 : Fin 2)).val / 256, by rw [hN]; omega⟩, flush4 m _, mem_blk4 m _ i ?_⟩
    show (i (0 : Fin 2)).val / 256 * 256 ≤ (i (0 : Fin 2)).val ∧ (i (0 : Fin 2)).val < (i (0 : Fin 2)).val / 256 * 256 + 256
    omega

theorem finalOut_apply (c : Dev nD) (e : Fin 65536) (j : Fin 1024) :
    (finalOut m ρ c : S65536x1024.Idx → Elt F .f32) (ix2 e j)
      = outTile (m ((c : Thread nD τ).loc main_arg1)) (m ((c : Thread nD τ).loc main_arg2)) (m ((c : Thread nD τ).loc main_arg0))
          ⟨e.val / 256, by have := e.isLt; omega⟩
          (truncf .bf16 (m ((c : Thread nD τ).loc main_arg3)) bitsLt_bf16_f32) (m ((c : Thread nD τ).loc main_arg4))
          (truncf .bf16 (m ((c : Thread nD τ).loc main_arg5)) bitsLt_bf16_f32) (m ((c : Thread nD τ).loc main_arg6))
          (ix2 (⟨e.val % 256, Nat.mod_lt _ (by decide)⟩ : Fin 256) j) := by
  rw [finalOut_eq]
  rfl

end Cert.Proof.EdgeMlp

end
-- ==== Proof.WTile.lean ====
import proofs.«421332_j47682726921127_1_alg».proof.Proof.Gen.Kernel.Skeleton
import Idealize.ShloMosaic.Lib.ValueIdx

noncomputable section

namespace Cert.Proof.EdgeMlpW

open Cert.Kernel Cert.Kernel.Gen
open Idealize.ShloMosaic Idealize.ShloMosaic.ValueIdx

variable {F : FTy → Type} [FloatOps F]

def rowOf (w : BitVec 32) : Fin 50000 := ⟨min w.toNat 49999, by omega⟩

theorem rowOf_val_of_lt {w : BitVec 32} (h : w.toNat < 50000) : (rowOf w).val = w.toNat := by
  show min w.toNat 49999 = w.toNat; omega

def edgeOf (t : Fin 256) (r : Fin 256) : Fin 65536 := ⟨256 * t.val + r.val, by have := t.isLt; have := r.isLt; omega⟩

def gathered (src dst : IVec S65536 32) (nf : Vec F S50000x1024 .f32) (t : Fin 256) : Vec F S256x2048 .f32 :=
  fun y =>
    have hy : (y 1).val < 2048 := (y 1).isLt
    if h : (y 1).val < 1024 then nf (ix2 (rowOf (src (ix1 (edgeOf t (y 0))))) ⟨(y 1).val, h⟩)
    else nf (ix2 (rowOf (dst (ix1 (edgeOf t (y 0))))) ⟨(y 1).val - 1024, by omega⟩)

def outTile (src dst : IVec S65536 32) (nf : Vec F S50000x1024 .f32) (t : Fin 256)
    (w1 : Vec F S2048x1024 .bf16) (b1 : Vec F S1024 .f32) (w2 : Vec F S1024x1024 .bf16) (b2 : Vec F S1024 .f32) : FVec F S256x1024 .f32 :=
  k0_pay1 (k0_pay2 (gathered src dst nf t) w1 b1) w2 b2

end Cert.Proof.EdgeMlpW

end
-- ==== Proof.WBody.lean ====
import proofs.«421332_j47682726921127_1_alg».proof.Proof.WTile
import proofs.«421332_j47682726921127_1_alg».proof.Proof.Gen.Kernel.Loops
import proofs.«421332_j47682726921127_1_alg».proof.Proof.Gen.Kernel.Launch
import Idealize.ShloMosaic.Lib.Tactic
import Idealize.ShloMosaic.Lib.Pipeline.Kit

noncomputable section

namespace Cert.Proof.EdgeMlpW

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev osem : Fin 64 → SemLoc sig := fun j => .dma ⟨6 + j.val, by have := j.isLt; show 6 + j.val < 70; omega⟩

abbrev tOf (i : grid0.Coords) : Fin 256 := ⟨(i 0).val, (i 0).isLt⟩

end Cert.Proof.EdgeMlpW

end
-- ==== Proof.WLanes.lean ====
import proofs.«421332_j47682726921127_1_alg».proof.Proof.WBody
import Idealize.ShloMosaic.Lib.Ring
import Idealize.ShloMosaic.Lib.Transfers

noncomputable section

namespace Cert.Proof.EdgeMlpW

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev A9 : Memref sig .tc .vmem S256x2048 .f32 := Memref.whole cc0_scratch0
abbrev A3 : Memref sig .tc .hbm S50000x1024 .f32 := Memref.whole main_arg0
abbrev T1 : Memref sig .tc .smem S65536 .i32 := Memref.whole main_arg1
abbrev T2 : Memref sig .tc .smem S65536 .i32 := Memref.whole main_arg2

theorem inbA (r : Fin 256) : ∀ a, (![r.val, 0] : Fin 2 → Nat) a + S1x1024.size a ≤ S256x2048.size a := by
  have := r.isLt; intro a; fin_cases a
  · show r.val + 1 ≤ 256; omega
  · show 0 + 1024 ≤ 2048; omega
theorem inbB (r : Fin 256) : ∀ a, (![r.val, 1024] : Fin 2 → Nat) a + S1x1024.size a ≤ S256x2048.size a := by
  have := r.isLt; intro a; fin_cases a
  · show r.val + 1 ≤ 256; omega
  · show 1024 + 1024 ≤ 2048; omega

def slotA (r : Fin 256) : Memref sig .tc .vmem S1024 .f32 :=
  (A9.slice (Rect.unit (s := S256x2048) ![r.val, 0] S1x1024.size (inbA r)) (fun _ => rfl)).squeeze S1024 squeezes_S1x1024_S1024
def slotB (r : Fin 256) : Memref sig .tc .vmem S1024 .f32 :=
  (A9.slice (Rect.unit (s := S256x2048) ![r.val, 1024] S1x1024.size (inbB r)) (fun _ => rfl)).squeeze S1024 squeezes_S1x1024_S1024

abbrev cellA (j : Fin 32) : SemLoc sig := .dma ⟨6 + j.val, by have := j.isLt; show 6 + j.val < 70; omega⟩
abbrev cellB (j : Fin 32) : SemLoc sig := .dma ⟨38 + j.val, by have := j.isLt; show 38 + j.val < 70; omega⟩

abbrev laneOf (r : Fin 256) : Fin 32 := ⟨r.val % 32, Nat.mod_lt _ (by decide)⟩

theorem inbRow (w : BitVec 32) (hw : w.toNat < 50000) : ∀ a, (![w.toNat, 0] : Fin 2 → Nat) a + S1x1024.size a ≤ S50000x1024.size a := by
  intro a; fin_cases a
  · show w.toNat + 1 ≤ 50000; omega
  · show 0 + 1024 ≤ 1024; omega

def srcRow (w : BitVec 32) (hw : w.toNat < 50000) : Memref sig .tc .hbm S1024 .f32 :=
  (A3.slice (Rect.unit (s := S50000x1024) ![w.toNat, 0] S1x1024.size (inbRow w hw)) (fun _ => rfl)).squeeze S1024 squeezes_S1x1024_S1024

section Core

variable (c : Dev nD)

def wS (f1 : Bf (F := F) c T1) (i : grid0.Coords) (r : Fin 256) : BitVec 32 := T1.view.read (Elt F) f1 (ix1 (edgeOf (tOf i) r))
def wD (f2 : Bf (F := F) c T2) (i : grid0.Coords) (r : Fin 256) : BitVec 32 := T2.view.read (Elt F) f2 (ix1 (edgeOf (tOf i) r))

abbrev tok (n : ℕ) (S : Finset (Idx (A3.view.loc (c : Thread nD τ)))) (fa : Bf (F := F) c A3) : sProp 𝕄 :=
  A3.view.loc (c : Thread nD τ) ↦[S]{Transfers.shareTokN fullShare n} fa

def rowPay (fa : Bf (F := F) c A3) (w : BitVec 32) (hw : w.toNat < 50000) : S1024.Idx → Elt F .f32 :=
  ReadAs.same.apply ((srcRow w hw).view.read (Elt F) fa)

def IdleAt (fa : Bf (F := F) c A3) (n : ℕ) (cA cB : SemLoc sig) : sProp 𝕄 :=
  iprop(semVal ((c : Thread nD τ), cA) 0 ∗ semVal ((c : Thread nD τ), cB) 0
    ∗ tok c (2 * n) Finset.univ fa ∗ tok c (2 * n + 1) Finset.univ fa)

def FreshAt (sA sB : Memref sig .tc .vmem S1024 .f32) : sProp 𝕄 :=
  iprop((∃ f, sA.view.loc (c : Thread nD τ) ↦[sA.view.set]{fullShare} f)
    ∗ (∃ f, sB.view.loc (c : Thread nD τ) ↦[sB.view.set]{fullShare} f))

def FlyingAt (fa : Bf (F := F) c A3) (n : ℕ) (cA cB : SemLoc sig) (sA sB : Memref sig .tc .vmem S1024 .f32)
    (ws wd : BitVec 32) (hs : ws.toNat < 50000) (hd : wd.toNat < 50000) : sProp 𝕄 :=
  iprop((∃ f, Transfers.Flight (countersEmb (U := UU nD τ)) (c : Thread nD τ) cA () 1024
            iprop((sA.view.loc (c : Thread nD τ) ↦[sA.view.set]{fullShare}
                    sA.view.writes (Elt F) f [⟨Rect.whole S1024, rowPay c fa ws hs⟩])
              ∗ tok c (2 * n) (srcRow ws hs).view.set fa))
    ∗ tok c (2 * n) (Finset.univ \ (srcRow ws hs).view.set) fa
    ∗ (∃ f, Transfers.Flight (countersEmb (U := UU nD τ)) (c : Thread nD τ) cB () 1024
            iprop((sB.view.loc (c : Thread nD τ) ↦[sB.view.set]{fullShare}
                    sB.view.writes (Elt F) f [⟨Rect.whole S1024, rowPay c fa wd hd⟩])
              ∗ tok c (2 * n + 1) (srcRow wd hd).view.set fa))
    ∗ tok c (2 * n + 1) (Finset.univ \ (srcRow wd hd).view.set) fa)

def LandedAt (fa : Bf (F := F) c A3) (sA sB : Memref sig .tc .vmem S1024 .f32)
    (ws wd : BitVec 32) (hs : ws.toNat < 50000) (hd : wd.toNat < 50000) : sProp 𝕄 :=
  iprop((∃ f, sA.view.loc (c : Thread nD τ) ↦[sA.view.set]{fullShare}
              sA.view.writes (Elt F) f [⟨Rect.whole S1024, rowPay c fa ws hs⟩])
    ∗ (∃ f, sB.view.loc (c : Thread nD τ) ↦[sB.view.set]{fullShare}
              sB.view.writes (Elt F) f [⟨Rect.whole S1024, rowPay c fa wd hd⟩]))

/-- Lane `j` idle, row `r` fresh, flying and landed: the same over the lane's own cells and the row's own half rows. -/
def LaneIdle (fa : Bf (F := F) c A3) (j : Fin 32) : sProp 𝕄 := IdleAt c fa j.val (cellA j) (cellB j)
def RowFresh (r : Fin 256) : sProp 𝕄 := FreshAt (F := F) c (slotA r) (slotB r)
def RowFlying (fa : Bf (F := F) c A3) (r : Fin 256) (ws wd : BitVec 32) (hs : ws.toNat < 50000) (hd : wd.toNat < 50000) : sProp 𝕄 :=
  FlyingAt c fa (laneOf r).val (cellA (laneOf r)) (cellB (laneOf r)) (slotA r) (slotB r) ws wd hs hd
def RowLanded (fa : Bf (F := F) c A3) (r : Fin 256) (ws wd : BitVec 32) (hs : ws.toNat < 50000) (hd : wd.toNat < 50000) : sProp 𝕄 :=
  LandedAt c fa (slotA r) (slotB r) ws wd hs hd

end Core

end Cert.Proof.EdgeMlpW

end
-- ==== Proof.WTripLib.lean ====
import proofs.«421332_j47682726921127_1_alg».proof.Proof.WLanes

noncomputable section

namespace Cert.Proof.EdgeMlpW

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev halfAt (o : Fin 2 → Nat) (hb : ∀ a, o a + S1x1024.size a ≤ S256x2048.size a) : Memref sig .tc .vmem S1024 .f32 :=
  (A9.slice (Rect.unit (s := S256x2048) o S1x1024.size hb) (fun _ => rfl)).squeeze S1024 squeezes_S1x1024_S1024
abbrev cell1At (o : Fin 1 → Nat) (hb : ∀ a, o a + S1.size a ≤ S32.size a) : DmaSems sig S_ :=
  (cc0_scratch1.slice (Rect.unit (s := S32) o S1.size hb)).squeeze S_ squeezes_S1_S_
abbrev cell2At (o : Fin 1 → Nat) (hb : ∀ a, o a + S1.size a ≤ S32.size a) : DmaSems sig S_ :=
  (cc0_scratch2.slice (Rect.unit (s := S32) o S1.size hb)).squeeze S_ squeezes_S1_S_

theorem inbCell (j : Fin 32) : ∀ a, (![j.val] : Fin 1 → Nat) a + S1.size a ≤ S32.size a := by
  have := j.isLt; intro a; fin_cases a; show j.val + 1 ≤ 32; omega

theorem slotA_eq (r : Fin 256) {o : Fin 2 → Nat} (ho : o = ![r.val, 0]) (hb : ∀ a, o a + S1x1024.size a ≤ S256x2048.size a) :
    slotA r = halfAt o hb := by subst ho; rfl
theorem slotB_eq (r : Fin 256) {o : Fin 2 → Nat} (ho : o = ![r.val, 1024]) (hb : ∀ a, o a + S1x1024.size a ≤ S256x2048.size a) :
    slotB r = halfAt o hb := by subst ho; rfl

theorem cell1_sem : ∀ j : Fin 32, (cell1At ![j.val] (inbCell j)).sem = ⟨6 + j.val, by have := j.isLt; show 6 + j.val < 70; omega⟩ := by decide +kernel
theorem cell2_sem : ∀ j : Fin 32, (cell2At ![j.val] (inbCell j)).sem = ⟨38 + j.val, by have := j.isLt; show 38 + j.val < 70; omega⟩ := by decide +kernel

theorem cellA_eq (j : Fin 32) {o : Fin 1 → Nat} (ho : o = ![j.val]) (hb : ∀ a, o a + S1.size a ≤ S32.size a) :
    cellA j = SemLoc.dma (cell1At o hb).sem := by subst ho; rw [cell1_sem j]
theorem cellB_eq (j : Fin 32) {o : Fin 1 → Nat} (ho : o = ![j.val]) (hb : ∀ a, o a + S1.size a ≤ S32.size a) :
    cellB j = SemLoc.dma (cell2At o hb).sem := by subst ho; rw [cell2_sem j]

theorem word_eq {κ : Kind} {sp : Space} (v : View sig κ sp S65536 .i32) (f : v.ty.Contents (Elt F)) (e : Fin 65536)
    {o : Fin 1 → Nat} (ho : o = ![e.val]) (hb : ∀ a, o a + S1.size a ≤ S65536.size a) (h1 : 0 < (Rect.unit (s := S65536) o S1.size hb).toLoadRect.shape.numel) :
    v.readAt (Elt F) (Rect.unit (s := S65536) o S1.size hb).toLoadRect f (Shape.Idx.first h1) = v.read (Elt F) f (ix1 e) := by
  subst ho
  rw [View.readAt_apply]
  congr 1
  funext a; fin_cases a
  apply Fin.ext
  simp [LoadRect.idx, Shape.Idx.first, Rect.unit]

section Core

variable (c : Dev nD)

theorem wS_eq (f1 : Bf (F := F) c T1) (i : grid0.Coords) (r : Fin 256) {o : Fin 1 → Nat} (ho : o = ![(edgeOf (tOf i) r).val])
    (hb : ∀ a, o a + S1.size a ≤ S65536.size a) (h1 : 0 < (Rect.unit (s := S65536) o S1.size hb).toLoadRect.shape.numel) :
    wS c f1 i r = T1.view.readAt (Elt F) (Rect.unit (s := S65536) o S1.size hb).toLoadRect f1 (Shape.Idx.first h1) :=
  (word_eq T1.view f1 (edgeOf (tOf i) r) ho hb h1).symm
theorem wD_eq (f2 : Bf (F := F) c T2) (i : grid0.Coords) (r : Fin 256) {o : Fin 1 → Nat} (ho : o = ![(edgeOf (tOf i) r).val])
    (hb : ∀ a, o a + S1.size a ≤ S65536.size a) (h1 : 0 < (Rect.unit (s := S65536) o S1.size hb).toLoadRect.shape.numel) :
    wD c f2 i r = T2.view.readAt (Elt F) (Rect.unit (s := S65536) o S1.size hb).toLoadRect f2 (Shape.Idx.first h1) :=
  (word_eq T2.view f2 (edgeOf (tOf i) r) ho hb h1).symm

theorem LaneIdle_at (fa : Bf (F := F) c A3) (j : Fin 32) {pA pB : Fin 1 → Nat} (hpA : pA = ![j.val]) (hpB : pB = ![j.val])
    (hbA : ∀ a, pA a + S1.size a ≤ S32.size a) (hbB : ∀ a, pB a + S1.size a ≤ S32.size a) :
    LaneIdle c fa j = IdleAt c fa j.val (SemLoc.dma (cell1At pA hbA).sem) (SemLoc.dma (cell2At pB hbB).sem) := by
  rw [← cellA_eq j hpA hbA, ← cellB_eq j hpB hbB]; rfl

theorem RowFresh_at (r : Fin 256) {oA oB : Fin 2 → Nat} (hoA : oA = ![r.val, 0]) (hoB : oB = ![r.val, 1024])
    (hbA : ∀ a, oA a + S1x1024.size a ≤ S256x2048.size a) (hbB : ∀ a, oB a + S1x1024.size a ≤ S256x2048.size a) :
    RowFresh (F := F) c r = FreshAt (F := F) c (halfAt oA hbA) (halfAt oB hbB) := by
  rw [← slotA_eq r hoA hbA, ← slotB_eq r hoB hbB]; rfl

theorem RowFlying_at (fa : Bf (F := F) c A3) (r : Fin 256) (j : Fin 32) (hj : r.val % 32 = j.val)
    {oA oB : Fin 2 → Nat} (hoA : oA = ![r.val, 0]) (hoB : oB = ![r.val, 1024])
    (hbA : ∀ a, oA a + S1x1024.size a ≤ S256x2048.size a) (hbB : ∀ a, oB a + S1x1024.size a ≤ S256x2048.size a)
    {pA pB : Fin 1 → Nat} (hpA : pA = ![j.val]) (hpB : pB = ![j.val])
    (hcA : ∀ a, pA a + S1.size a ≤ S32.size a) (hcB : ∀ a, pB a + S1.size a ≤ S32.size a)
    {ws wd ws' wd' : BitVec 32} (es : ws = ws') (ed : wd = wd')
    (hs : ws.toNat < 50000) (hd : wd.toNat < 50000) (hs' : ws'.toNat < 50000) (hd' : wd'.toNat < 50000) :
    RowFlying c fa r ws wd hs hd
      = FlyingAt c fa j.val (SemLoc.dma (cell1At pA hcA).sem) (SemLoc.dma (cell2At pB hcB).sem) (halfAt oA hbA) (halfAt oB hbB) ws' wd' hs' hd' := by
  subst es ed
  have hl : laneOf r = j := Fin.ext hj
  rw [← cellA_eq j hpA hcA, ← cellB_eq j hpB hcB, ← slotA_eq r hoA hbA, ← slotB_eq r hoB hbB, ← hl]; rfl

theorem RowLanded_at (fa : Bf (F := F) c A3) (r : Fin 256)
    {oA oB : Fin 2 → Nat} (hoA : oA = ![r.val, 0]) (hoB : oB = ![r.val, 1024])
    (hbA : ∀ a, oA a + S1x1024.size a ≤ S256x2048.size a) (hbB : ∀ a, oB a + S1x1024.size a ≤ S256x2048.size a)
    (ws wd : BitVec 32) (hs : ws.toNat < 50000) (hd : wd.toNat < 50000) :
    RowLanded c fa r ws wd hs hd = LandedAt c fa (halfAt oA hbA) (halfAt oB hbB) ws wd hs hd := by
  rw [← slotA_eq r hoA hbA, ← slotB_eq r hoB hbB]; rfl

end Core

end Cert.Proof.EdgeMlpW

end
-- ==== Proof.WChunks.lean ====
import proofs.«421332_j47682726921127_1_alg».proof.Proof.WLanes
import proofs.«421332_j47682726921127_1_alg».proof.Proof.Sep

noncomputable section

namespace Cert.Proof.EdgeMlpW

open Cert.Kernel Cert.Kernel.Gen Cert.Proof.Sep
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Inv

variable (c : Dev nD) (i : grid0.Coords) (f1 : Bf (F := F) c T1) (f2 : Bf (F := F) c T2) (fa : Bf (F := F) c A3)
  (hs : ∀ e, ((T1.view.read (Elt F) f1) e).toNat < 50000) (hd : ∀ e, ((T2.view.read (Elt F) f2) e).toNat < 50000)

def Ready (c0 : Fin 8) (j : Fin 32) : sProp 𝕄 := iprop(LaneIdle c fa j ∗ RowFresh c (rowAt c0 j))
def Flying (c0 : Fin 8) (j : Fin 32) : sProp 𝕄 :=
  RowFlying c fa (rowAt c0 j) (wS c f1 i (rowAt c0 j)) (wD c f2 i (rowAt c0 j)) (hs _) (hd _)
def Landed (c0 : Fin 8) (j : Fin 32) : sProp 𝕄 :=
  RowLanded c fa (rowAt c0 j) (wS c f1 i (rowAt c0 j)) (wD c f2 i (rowAt c0 j)) (hs _) (hd _)
def Done (c0 : Fin 8) (j : Fin 32) : sProp 𝕄 := iprop(LaneIdle c fa j ∗ Landed c i f1 f2 fa hs hd c0 j)

def invI (c0 : Fin 8) (k : ℕ) (_ : PUnit) : sProp 𝕄 :=
  iprop(pt c T1 f1 ∗ pt c T2 f2 ∗ thresh (Flying c i f1 f2 fa hs hd c0) (Ready c fa c0) k)

def invW (c0 : Fin 8) (k : ℕ) (_ : PUnit) : sProp 𝕄 :=
  iprop((∃ W, owes (c : Thread nD τ) (0 : CellTallies nD τ sig Unit) W) ∗ thresh (Done c i f1 f2 fa hs hd c0) (Flying c i f1 f2 fa hs hd c0) k)

theorem invI_entry (c0 : Fin 8) :
    iprop(pt c T1 f1 ∗ pt c T2 f2 ∗ bigSep Finset.univ (LaneIdle c fa) ∗ bigSep Finset.univ (fun j : Fin 32 => RowFresh c (rowAt c0 j)))
      ⊢ invI c i f1 f2 fa hs hd c0 0 ⟨⟩ := by
  unfold invI
  rw [thresh_zero, show Ready c fa c0 = (fun j : Fin 32 => iprop(LaneIdle c fa j ∗ RowFresh c (rowAt c0 j))) from rfl, bigSep_sep']

theorem invI_exit (c0 : Fin 8) (N : ℕ) (hN : 32 ≤ N) (acc : PUnit) :
    invI c i f1 f2 fa hs hd c0 N acc ⊢ iprop(pt c T1 f1 ∗ pt c T2 f2 ∗ bigSep Finset.univ (Flying c i f1 f2 fa hs hd c0)) := by
  unfold invI
  rw [thresh_full _ _ hN]

theorem invW_entry (c0 : Fin 8) (W : Waits sig Unit) :
    iprop(owes (c : Thread nD τ) (0 : CellTallies nD τ sig Unit) W ∗ bigSep Finset.univ (Flying c i f1 f2 fa hs hd c0))
      ⊢ invW c i f1 f2 fa hs hd c0 0 ⟨⟩ := by
  unfold invW
  rw [thresh_zero]
  iintro ⟨HO, HF⟩
  isplitl [HO]; · iexists W; iexact HO
  iexact HF

theorem invW_exit (c0 : Fin 8) (N : ℕ) (hN : 32 ≤ N) (acc : PUnit) :
    invW c i f1 f2 fa hs hd c0 N acc
      ⊢ iprop((∃ W, owes (c : Thread nD τ) (0 : CellTallies nD τ sig Unit) W) ∗ bigSep Finset.univ (LaneIdle c fa)
          ∗ bigSep Finset.univ (Landed c i f1 f2 fa hs hd c0)) := by
  unfold invW
  rw [thresh_full _ _ hN, show Done c i f1 f2 fa hs hd c0 = (fun j : Fin 32 => iprop(LaneIdle c fa j ∗ Landed c i f1 f2 fa hs hd c0 j)) from rfl, bigSep_sep']

end Inv

end Cert.Proof.EdgeMlpW

end
-- ==== Proof.WTrip.lean ====
import proofs.«421332_j47682726921127_1_alg».proof.Proof.WTripLib
import proofs.«421332_j47682726921127_1_alg».proof.Proof.WChunks

noncomputable section

namespace Cert.Proof.EdgeMlpW

open Cert.Kernel Cert.Kernel.Gen Cert.Proof.Sep
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- One trip of a chunk's first loop over the offsets it computes; every chunk's trip is this one at its own offsets, by unfolding. -/
def issueBody (oE : Fin 1 → ℕ) (hE : ∀ a, oE a + S1.size a ≤ S65536.size a)
    (pA pB : Fin 1 → ℕ) (hpA : ∀ a, pA a + S1.size a ≤ S32.size a) (hpB : ∀ a, pB a + S1.size a ≤ S32.size a)
    (oA oB : Fin 2 → ℕ) (hoA : ∀ a, oA a + S1x1024.size a ≤ S256x2048.size a) (hoB : ∀ a, oB a + S1x1024.size a ≤ S256x2048.size a) :
    Prog (TpuEff nD τ sig (Elt F) Λ₀ .tc) Unit := do
  let ws : Elt F .i32 ← smemLoad T1 (Rect.unit (s := S65536) oE S1.size hE) numel1_S1 rfl
  have hws : k0_chk1 ws := (← Prog.lift (TpuEff.assume (k0_chk1 ws) (k0_chk1.dec ws))).down
  let wd : Elt F .i32 ← smemLoad T2 (Rect.unit (s := S65536) oE S1.size hE) numel1_S1 rfl
  have hwd : k0_chk2 wd := (← Prog.lift (TpuEff.assume (k0_chk2 wd) (k0_chk2.dec wd))).down
  Prog.lift (.enqueueDma ((A3.slice (Rect.unit (s := S50000x1024) (k0_off4 ws) S1x1024.size (k0_off4_inb ws hws)) (fun _ => rfl)).squeeze S1024 squeezes_S1x1024_S1024)
    (.here (halfAt oA hoA)) (.dma (cell1At pA hpA).sem) ((View.wordExact_bits rfl).reshape _ _) ((View.wordExact_bits rfl).reshape _ _) ⟨Or.inl rfl, trivial⟩)
  Prog.lift (.enqueueDma ((A3.slice (Rect.unit (s := S50000x1024) (k0_off7 wd) S1x1024.size (k0_off7_inb wd hwd)) (fun _ => rfl)).squeeze S1024 squeezes_S1x1024_S1024)
    (.here (halfAt oB hoB)) (.dma (cell2At pB hpB).sem) ((View.wordExact_bits rfl).reshape _ _) ((View.wordExact_bits rfl).reshape _ _) ⟨Or.inl rfl, trivial⟩)
  pure ⟨⟩

/-- One trip of a chunk's second loop over its offsets: the two half-row copies are waited for. -/
def waitBody (p : Fin 1 → ℕ) (hp : ∀ a, p a + S1.size a ≤ S32.size a)
    (oA oB : Fin 2 → ℕ) (hoA : ∀ a, oA a + S1x1024.size a ≤ S256x2048.size a) (hoB : ∀ a, oB a + S1x1024.size a ≤ S256x2048.size a) :
    Prog (TpuEff nD τ sig (Elt F) Λ₀ .tc) Unit := do
  Prog.lift (.waitDma2 (cell1At p hp).sem ((A3.slice (Rect.unit (s := S50000x1024) ![0, 0] S1x1024.size inb_S50000x1024_S1x1024_0_0) (fun _ => rfl)).squeeze S1024 squeezes_S1x1024_S1024)
    (halfAt oA hoA) ((View.wordExact_bits rfl).reshape _ _) ((View.wordExact_bits rfl).reshape _ _))
  Prog.lift (.waitDma2 (cell2At p hp).sem ((A3.slice (Rect.unit (s := S50000x1024) ![0, 0] S1x1024.size inb_S50000x1024_S1x1024_0_0) (fun _ => rfl)).squeeze S1024 squeezes_S1x1024_S1024)
    (halfAt oB hoB) ((View.wordExact_bits rfl).reshape _ _) ((View.wordExact_bits rfl).reshape _ _))
  pure ⟨⟩

theorem lane_rowAt (c0 : Fin 8) (k : Fin 32) : (rowAt c0 k).val % 32 = k.val := by
  have := k.isLt; show (32 * c0.val + k.val) % 32 = k.val; omega

/-- The lane a trip computes in words is the trip's number. -/
theorem lane_word (k : Fin 32) :
    (![(Scalar.addi 0#32 (Scalar.muli (Scf.iv 0#32 1#32 k) 1#32)).toNat] : Fin 1 → ℕ) = ![k.val] := by
  have hk := k.isLt
  funext a; fin_cases a
  simp [Scf.iv, Scalar.muli, Scalar.addi, IntOp.muli, IntOp.addi, BitVec.toNat_add, BitVec.toNat_mul, BitVec.toNat_ofNat]
  omega

/-- The row a trip computes in words, `C + k` with `C = 32 c0`, is row `k` of chunk `c0`. -/
theorem row_word (c0 : Fin 8) (k : Fin 32) (C : BitVec 32) (hC : C.toNat = 32 * c0.val) (z : ℕ) :
    (![(Scalar.addi C (Scalar.addi 0#32 (Scalar.muli (Scf.iv 0#32 1#32 k) 1#32))).toNat, z] : Fin 2 → ℕ) = ![(rowAt c0 k).val, z] := by
  have hk := k.isLt
  have hc := c0.isLt
  funext a; fin_cases a
  · simp [rowAt, Scf.iv, Scalar.muli, Scalar.addi, IntOp.muli, IntOp.addi, BitVec.toNat_add, BitVec.toNat_mul, BitVec.toNat_ofNat, hC]
    omega
  · rfl

/-- The table offset a trip computes in words, `256 t + (C + k)` with `C = 32 c0`, is the row's edge: it is below `2 ^ 32`, so no word wraps. -/
theorem edge_word (i : grid0.Coords) (c0 : Fin 8) (k : Fin 32) (C : BitVec 32) (hC : C.toNat = 32 * c0.val) :
    (![(Scalar.indexCast (Scalar.addi (Scalar.muli (BitVec.ofNat 32 (i 0).val) 256#32)
        (Scalar.addi C (Scalar.addi 0#32 (Scalar.muli (Scf.iv 0#32 1#32 k) 1#32))))).toNat] : Fin 1 → ℕ)
      = ![(edgeOf (tOf i) (rowAt c0 k)).val] := by
  have hk := k.isLt
  have hc := c0.isLt
  have hi : (i 0).val < 256 := (i 0).isLt
  funext a; fin_cases a
  simp [edgeOf, tOf, rowAt, Scf.iv, Scalar.muli, Scalar.addi, Scalar.indexCast, IntOp.muli, IntOp.addi, BitVec.toNat_add, BitVec.toNat_mul, BitVec.toNat_ofNat, hC]
  omega

section Core

variable [∀ e, Nonempty (Elt F e)] (c : Dev nD) (i : grid0.Coords)
  (f1 : Bf (F := F) c T1) (f2 : Bf (F := F) c T2) (fa : Bf (F := F) c A3)
  (hs : ∀ e, ((T1.view.read (Elt F) f1) e).toNat < 50000) (hd : ∀ e, ((T2.view.read (Elt F) f2) e).toNat < 50000)

/-- Lane `j` idle and row `r` fresh before; the row flying after, towards the node rows its two table words name, both in range. -/
theorem issueTrip (r : Fin 256) (j : Fin 32) (hj : r.val % 32 = j.val)
    {oE : Fin 1 → ℕ} (eE : oE = ![(edgeOf (tOf i) r).val]) (hE : ∀ a, oE a + S1.size a ≤ S65536.size a)
    {pA pB : Fin 1 → ℕ} (epA : pA = ![j.val]) (epB : pB = ![j.val])
    (hpA : ∀ a, pA a + S1.size a ≤ S32.size a) (hpB : ∀ a, pB a + S1.size a ≤ S32.size a)
    {oA oB : Fin 2 → ℕ} (eoA : oA = ![r.val, 0]) (eoB : oB = ![r.val, 1024])
    (hoA : ∀ a, oA a + S1x1024.size a ≤ S256x2048.size a) (hoB : ∀ a, oB a + S1x1024.size a ≤ S256x2048.size a)
    (Q : PUnit → sProp 𝕄) :
    iprop(pt c T1 f1 ∗ pt c T2 f2 ∗ LaneIdle c fa j ∗ RowFresh c r
        ∗ (iprop(pt c T1 f1 ∗ pt c T2 f2 ∗ RowFlying c fa r (wS c f1 i r) (wD c f2 i r) (hs _) (hd _)) -∗ Q ⟨⟩))
      ⊢ wp frame (wpE (defs₀ (F := F)) Variants.none c none) Set.univ
          (issueBody (F := F) oE hE pA pB hpA hpB oA oB hoA hoB) Q := by
  have eS := wS_eq c f1 i r eE hE Nat.one_pos
  have eD := wD_eq c f2 i r eE hE Nat.one_pos
  rw [LaneIdle_at c fa j epA epB hpA hpB, RowFresh_at c r eoA eoB hoA hoB,
    RowFlying_at c fa r j hj eoA eoB hoA hoB epA epB hpA hpB eS eD (hs _) (hd _) (hs _) (hd _)]
  unfold IdleAt FreshAt
  iintro ⟨H1, H2, ⟨HcA, HcB, HtA, HtB⟩, ⟨⟨%fA, HsA⟩, ⟨%fB, HsB⟩⟩, Hpost⟩
  unfold issueBody
  sl_exec (disch := first | exact inbRow _ (hs _) | exact inbRow _ (hd _))
  sl_step
  iapply Hpost
  unfold FlyingAt
  iframe H1 H2
  isplitl [HcA]; · iexists fA; iexact HcA
  isplitl [HtA]; · iexact HtA
  isplitl [HcB]; · iexists fB; iexact HcB
  iexact HtB

/-- Row `r` flying on lane `j` before; the lane idle and the row landed after, the two waits recorded. -/
theorem waitTrip (r : Fin 256) (j : Fin 32) (hj : r.val % 32 = j.val)
    {p : Fin 1 → ℕ} (ep : p = ![j.val]) (hp : ∀ a, p a + S1.size a ≤ S32.size a)
    {oA oB : Fin 2 → ℕ} (eoA : oA = ![r.val, 0]) (eoB : oB = ![r.val, 1024])
    (hoA : ∀ a, oA a + S1x1024.size a ≤ S256x2048.size a) (hoB : ∀ a, oB a + S1x1024.size a ≤ S256x2048.size a)
    (ws wd : BitVec 32) (hws : ws.toNat < 50000) (hwd : wd.toNat < 50000) (W : Waits sig Unit) (Q : PUnit → sProp 𝕄) :
    iprop(RowFlying c fa r ws wd hws hwd ∗ owes (c : Thread nD τ) 0 W
        ∗ (iprop(LaneIdle c fa j ∗ RowLanded c fa r ws wd hws hwd ∗ ∃ W, owes (c : Thread nD τ) 0 W) -∗ Q ⟨⟩))
      ⊢ wp frame (wpE (defs₀ (F := F)) Variants.none c none) Set.univ (waitBody (F := F) p hp oA oB hoA hoB) Q := by
  rw [RowFlying_at c fa r j hj eoA eoB hoA hoB ep ep hp hp rfl rfl hws hwd hws hwd,
    LaneIdle_at c fa j ep ep hp hp, RowLanded_at c fa r eoA eoB hoA hoB ws wd hws hwd]
  unfold FlyingAt
  iintro ⟨⟨⟨%fA, HfA⟩, HtA, ⟨%fB, HfB⟩, HtB⟩, HO, Hpost⟩
  unfold waitBody
  sl_exec
  sl_step
  iapply Hpost
  unfold IdleAt LandedAt
  isplitl [HfA HfB HtA HtB]
  · isplitl [HfA]; · iexact HfA
    iframe HfB HtA HtB
  isplitl [HfA_dst HfB_dst]
  · isplitl [HfA_dst]; · iexists fA; iexact HfA_dst
    iexists fB; iexact HfB_dst
  iexists _; iexact HO

/-- A trip of chunk `c0`'s first loop carries its invariant from trip `k` to trip `k + 1`, whatever names the offsets have. -/
theorem issueRegion (c0 : Fin 8)
    (oE : Fin 32 → Fin 1 → ℕ) (hE : ∀ k a, oE k a + S1.size a ≤ S65536.size a)
    (pA pB : Fin 32 → Fin 1 → ℕ) (hpA : ∀ k a, pA k a + S1.size a ≤ S32.size a) (hpB : ∀ k a, pB k a + S1.size a ≤ S32.size a)
    (oA oB : Fin 32 → Fin 2 → ℕ) (hoA : ∀ k a, oA k a + S1x1024.size a ≤ S256x2048.size a) (hoB : ∀ k a, oB k a + S1x1024.size a ≤ S256x2048.size a)
    (eE : ∀ k, oE k = ![(edgeOf (tOf i) (rowAt c0 k)).val]) (epA : ∀ k, pA k = ![k.val]) (epB : ∀ k, pB k = ![k.val])
    (eoA : ∀ k, oA k = ![(rowAt c0 k).val, 0]) (eoB : ∀ k, oB k = ![(rowAt c0 k).val, 1024])
    (k : Fin 32) (acc : PUnit) :
    invI c i f1 f2 fa hs hd c0 k.val acc
      ⊢ wp frame (wpE (defs₀ (F := F)) Variants.none c none) Set.univ
          (issueBody (F := F) (oE k) (hE k) (pA k) (pB k) (hpA k) (hpB k) (oA k) (oB k) (hoA k) (hoB k))
          (invI c i f1 f2 fa hs hd c0 (k.val + 1)) := by
  unfold invI
  rw [thresh_take (Flying c i f1 f2 fa hs hd c0) (Ready c fa c0) k]
  iintro ⟨H1, H2, Hk, Hrest⟩
  ihave Hk' := (Entails.of_eq (show Ready c fa c0 k = iprop(LaneIdle c fa k ∗ RowFresh c (rowAt c0 k)) from rfl)) $$ Hk
  icases Hk' with ⟨Hl, Hr⟩
  iapply (issueTrip c i f1 f2 fa hs hd (rowAt c0 k) k (lane_rowAt c0 k) (eE k) (hE k) (epA k) (epB k) (hpA k) (hpB k) (eoA k) (eoB k) (hoA k) (hoB k) _)
  iframe H1 H2 Hl Hr
  iintro ⟨H1, H2, Hf⟩
  iframe H1 H2
  iapply (Entails.of_eq (thresh_put (Flying c i f1 f2 fa hs hd c0) (Ready c fa c0) k))
  isplitl [Hf]
  · iapply (Entails.of_eq (show RowFlying c fa (rowAt c0 k) (wS c f1 i (rowAt c0 k)) (wD c f2 i (rowAt c0 k)) (hs _) (hd _)
        = Flying c i f1 f2 fa hs hd c0 k from rfl))
    iexact Hf
  iexact Hrest

/-- A trip of chunk `c0`'s second loop carries its invariant from trip `k` to trip `k + 1`. -/
theorem waitRegion (c0 : Fin 8)
    (p : Fin 32 → Fin 1 → ℕ) (hp : ∀ k a, p k a + S1.size a ≤ S32.size a)
    (oA oB : Fin 32 → Fin 2 → ℕ) (hoA : ∀ k a, oA k a + S1x1024.size a ≤ S256x2048.size a) (hoB : ∀ k a, oB k a + S1x1024.size a ≤ S256x2048.size a)
    (ep : ∀ k, p k = ![k.val]) (eoA : ∀ k, oA k = ![(rowAt c0 k).val, 0]) (eoB : ∀ k, oB k = ![(rowAt c0 k).val, 1024])
    (k : Fin 32) (acc : PUnit) :
    invW c i f1 f2 fa hs hd c0 k.val acc
      ⊢ wp frame (wpE (defs₀ (F := F)) Variants.none c none) Set.univ
          (waitBody (F := F) (p k) (hp k) (oA k) (oB k) (hoA k) (hoB k))
          (invW c i f1 f2 fa hs hd c0 (k.val + 1)) := by
  unfold invW
  rw [thresh_take (Done c i f1 f2 fa hs hd c0) (Flying c i f1 f2 fa hs hd c0) k]
  iintro ⟨⟨%W, HO⟩, Hk, Hrest⟩
  ihave Hk' := (Entails.of_eq (show Flying c i f1 f2 fa hs hd c0 k
      = RowFlying c fa (rowAt c0 k) (wS c f1 i (rowAt c0 k)) (wD c f2 i (rowAt c0 k)) (hs _) (hd _) from rfl)) $$ Hk
  iapply (waitTrip c fa (rowAt c0 k) k (lane_rowAt c0 k) (ep k) (hp k) (eoA k) (eoB k) (hoA k) (hoB k)
    (wS c f1 i (rowAt c0 k)) (wD c f2 i (rowAt c0 k)) (hs _) (hd _) W _)
  iframe Hk' HO
  iintro ⟨Hl, Hd, HO⟩
  isplitl [HO]; · iexact HO
  iapply (Entails.of_eq (thresh_put (Done c i f1 f2 fa hs hd c0) (Flying c i f1 f2 fa hs hd c0) k))
  isplitr [Hrest]
  · iapply (Entails.of_eq (show iprop(LaneIdle c fa k
          ∗ RowLanded c fa (rowAt c0 k) (wS c f1 i (rowAt c0 k)) (wD c f2 i (rowAt c0 k)) (hs _) (hd _))
        = Done c i f1 f2 fa hs hd c0 k from rfl))
    iframe Hl Hd
  · iexact Hrest

end Core

end Cert.Proof.EdgeMlpW

end
-- ==== Proof.WSlots.lean ====
import proofs.«421332_j47682726921127_1_alg».proof.Proof.WLanes

noncomputable section

namespace Cert.Proof.EdgeMlpW

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev rectA (r : Fin 256) : Rect S256x2048 := Rect.unit (s := S256x2048) ![r.val, 0] S1x1024.size (inbA r)
abbrev rectB (r : Fin 256) : Rect S256x2048 := Rect.unit (s := S256x2048) ![r.val, 1024] S1x1024.size (inbB r)

theorem slotA_set (r : Fin 256) : (slotA r).view.set = (rectA r).set :=
  (View.set_reshape (A9.view.slice (rectA r)) _).trans (View.set_slice_whole cc0_scratch0 (rectA r))

theorem slotB_set (r : Fin 256) : (slotB r).view.set = (rectB r).set :=
  (View.set_reshape (A9.view.slice (rectB r)) _).trans (View.set_slice_whole cc0_scratch0 (rectB r))

theorem mem_rectA (r : Fin 256) (i : S256x2048.Idx) : i ∈ (rectA r).set ↔ (i 0).val = r.val ∧ (i 1).val < 1024 := by
  rw [Rect.mem_set_unit, Fin.forall_fin_two]
  show (r.val ≤ (i 0).val ∧ (i 0).val < r.val + 1) ∧ (0 ≤ (i 1).val ∧ (i 1).val < 0 + 1024) ↔ _
  omega

theorem mem_rectB (r : Fin 256) (i : S256x2048.Idx) : i ∈ (rectB r).set ↔ (i 0).val = r.val ∧ 1024 ≤ (i 1).val := by
  rw [Rect.mem_set_unit, Fin.forall_fin_two]
  show (r.val ≤ (i 0).val ∧ (i 0).val < r.val + 1) ∧ (1024 ≤ (i 1).val ∧ (i 1).val < 1024 + 1024) ↔ _
  have : (i 1).val < 2048 := (i 1).isLt
  omega

def halfSet (b : Fin 256 × Fin 2) : Finset S256x2048.Idx := if b.2 = 0 then (rectA b.1).set else (rectB b.1).set

theorem halfSet_zero (r : Fin 256) : halfSet (r, 0) = (rectA r).set := rfl
theorem halfSet_one (r : Fin 256) : halfSet (r, 1) = (rectB r).set := rfl

theorem mem_halfSet (b : Fin 256 × Fin 2) (i : S256x2048.Idx) :
    i ∈ halfSet b ↔ (i 0).val = b.1.val ∧ ((i 1).val < 1024 ↔ b.2 = 0) := by
  unfold halfSet
  split
  · next h => rw [mem_rectA]; simp only [h, iff_true]
  · next h => rw [mem_rectB]; simp only [h, iff_false, not_lt]

theorem halfSet_disjoint (b b' : Fin 256 × Fin 2) (h : b ≠ b') : Disjoint (halfSet b) (halfSet b') := by
  rw [Finset.disjoint_left]
  intro i hi hi'
  rw [mem_halfSet] at hi hi'
  apply h
  obtain ⟨r, s⟩ := b
  obtain ⟨r', s'⟩ := b'
  have e1 : r = r' := Fin.ext (hi.1.symm.trans hi'.1)
  have e2 : s = s' := by
    have h0 : s = 0 ↔ s' = 0 := hi.2.symm.trans hi'.2
    have := s.isLt; have := s'.isLt
    apply Fin.ext
    have a : s.val = 0 ↔ s = 0 := ⟨fun h => Fin.ext h, fun h => by rw [h]; rfl⟩
    have a' : s'.val = 0 ↔ s' = 0 := ⟨fun h => Fin.ext h, fun h => by rw [h]; rfl⟩
    omega
  rw [e1, e2]

theorem halfSet_cover : Finset.univ.biUnion halfSet = Finset.univ := by
  ext i
  simp only [Finset.mem_biUnion, Finset.mem_univ, true_and, iff_true]
  by_cases h : (i 1).val < 1024
  · exact ⟨(⟨(i 0).val, (i 0).isLt⟩, 0), (mem_halfSet _ i).mpr ⟨rfl, by simp only [h]⟩⟩
  · exact ⟨(⟨(i 0).val, (i 0).isLt⟩, 1), (mem_halfSet _ i).mpr ⟨rfl, by simp only [h, false_iff]; decide⟩⟩

section Split
variable (c : Dev nD)

theorem scratch_split (f : Bf (F := F) c A9) :
    (pt c A9 f : sProp 𝕄) ⊢ bigSep Finset.univ (fun r : Fin 256 => RowFresh (F := F) c r) := by
  have e : (pt c A9 f : sProp 𝕄) = bigSep Finset.univ fun b : Fin 256 × Fin 2 => A9.view.loc (c : Thread nD τ) ↦[halfSet b]{fullShare} f :=
    Ring.pointsTo_blocks (ℓ := A9.view.loc (c : Thread nD τ)) halfSet halfSet_disjoint halfSet_cover f
  rw [e, bigSep_univ_prod]
  refine bigSep_mono fun r _ => ?_
  rw [bigSep_fin_two]
  have hA : (A9.view.loc (c : Thread nD τ) ↦[halfSet (r, 0)]{fullShare} f : sProp 𝕄)
      ⊢ iprop(∃ f, (slotA r).view.loc (c : Thread nD τ) ↦[(slotA r).view.set]{fullShare} f) := by
    rw [halfSet_zero, ← slotA_set]
    iintro H; iexists f; iexact H
  have hB : (A9.view.loc (c : Thread nD τ) ↦[halfSet (r, 1)]{fullShare} f : sProp 𝕄)
      ⊢ iprop(∃ f, (slotB r).view.loc (c : Thread nD τ) ↦[(slotB r).view.set]{fullShare} f) := by
    rw [halfSet_one, ← slotB_set]
    iintro H; iexists f; iexact H
  exact BI.sep_mono hA hB

end Split

section LanesSplit
variable (c : Dev nD)

theorem bigSep_pair {I : Type} (s : Finset I) (Φ Ψ : I → sProp 𝕄) :
    bigSep s (fun i => iprop(Φ i ∗ Ψ i)) = iprop(bigSep s Φ ∗ bigSep s Ψ) := bigSep_sep s Φ Ψ

theorem sep_regroup (S d T : sProp 𝕄) : (iprop(S ∗ (d ∗ T)) : sProp 𝕄) = iprop((S ∗ T) ∗ d) := by
  have h1 : (iprop(S ∗ (d ∗ T)) : sProp 𝕄) ⊢ iprop((S ∗ T) ∗ d) := by
    iintro ⟨HS, Hd, HT⟩
    isplitr [Hd]
    · isplitl [HS] <;> iassumption
    · iexact Hd
  have h2 : (iprop((S ∗ T) ∗ d) : sProp 𝕄) ⊢ iprop(S ∗ (d ∗ T)) := by
    iintro ⟨⟨HS, HT⟩, Hd⟩
    isplitl [HS]
    · iexact HS
    · isplitl [Hd] <;> iassumption
  exact equiv_iff.mp ⟨h1, h2⟩

theorem ownSems0_lanes :
    (Pipeline.ownSems0 osem c : sProp 𝕄)
      = bigSep Finset.univ (fun j : Fin 32 =>
          iprop(semVal ((c : Thread nD τ), cellA j) 0 ∗ semVal ((c : Thread nD τ), cellB j) 0)) := by
  have hA : ∀ j : Fin 32, osem (finProdFinEquiv ((0 : Fin 2), j)) = cellA j := fun j => rfl
  have hB : ∀ j : Fin 32, osem (finProdFinEquiv ((1 : Fin 2), j)) = cellB j := fun j => by
    show SemLoc.dma _ = SemLoc.dma _
    congr 1; apply Fin.ext
    show 6 + (finProdFinEquiv ((1 : Fin 2), j)).val = 38 + j.val
    rw [finProdFinEquiv_apply_val]; show 6 + (j.val + 32 * 1) = 38 + j.val; omega
  unfold Pipeline.ownSems0
  rw [bigSep_univ_equiv (finProdFinEquiv : Fin 2 × Fin 32 ≃ Fin 64), bigSep_univ_prod, bigSep_fin_two, ← bigSep_sep]
  refine bigSep_congr fun j _ => ?_
  rw [hA, hB]
  rfl

theorem toks_lanes (fa : Bf (F := F) c A3) :
    bigSep (Finset.range 64) (fun i => (A3.view.loc (c : Thread nD τ) ↦[Finset.univ]{Transfers.shareTokN fullShare i} fa : sProp 𝕄))
      = bigSep Finset.univ (fun j : Fin 32 =>
          iprop(tok c (2 * j.val) Finset.univ fa ∗ tok c (2 * j.val + 1) Finset.univ fa)) := by
  have h1 := Ring.bigSep_range_interleave (M := 𝕄) 32 (fun k => tok c (2 * k) Finset.univ fa) (fun k => tok c (2 * k + 1) Finset.univ fa)
  rw [bigSep_pair,
    Ring.bigSep_fin_eq_range 32 (fun j : Fin 32 => tok c (2 * j.val) Finset.univ fa) (fun k => tok c (2 * k) Finset.univ fa) (fun _ _ => rfl),
    Ring.bigSep_fin_eq_range 32 (fun j : Fin 32 => tok c (2 * j.val + 1) Finset.univ fa) (fun k => tok c (2 * k + 1) Finset.univ fa) (fun _ _ => rfl)]
  refine Eq.trans ?_ h1
  show bigSep (Finset.range 64) _ = bigSep (Finset.range 64) _
  refine bigSep_congr fun t _ => ?_
  split
  · next h => rw [show 2 * (t / 2) = t by omega]
  · next h => rw [show 2 * (t / 2) + 1 = t by omega]

theorem laneIdle_eq (fa : Bf (F := F) c A3) (j : Fin 32) :
    LaneIdle c fa j
      = iprop((semVal ((c : Thread nD τ), cellA j) 0 ∗ semVal ((c : Thread nD τ), cellB j) 0)
          ∗ (tok c (2 * j.val) Finset.univ fa ∗ tok c (2 * j.val + 1) Finset.univ fa)) := by
  unfold LaneIdle IdleAt
  exact Entails.antisymm BI.sep_assoc' BI.sep_assoc

theorem lanes_eq (fa : Bf (F := F) c A3) :
    (iprop(Pipeline.ownSems0 osem c ∗ pt c A3 fa) : sProp 𝕄)
      = iprop(bigSep Finset.univ (fun j : Fin 32 => LaneIdle c fa j)
          ∗ (A3.view.loc (c : Thread nD τ) ↦[Finset.univ]{Transfers.shareDrop fullShare 64} fa)) := by
  have h := Transfers.pointsTo_toks_range (Ix := Unit) (Val := Elt F) (Name := ℕ) (U := UU nD τ) (Lvl := ℕ) (ℓ := A3.view.loc (c : Thread nD τ)) (S := Finset.univ) (f := fa) fullShare 64
  have ht : (pt c A3 fa : sProp 𝕄) = _ := equiv_iff.mp ⟨h.1, h.2⟩
  rw [bigSep_congr (fun j _ => laneIdle_eq c fa j), bigSep_pair (F := F), ht, ownSems0_lanes, toks_lanes]
  exact sep_regroup (F := F) _ _ _

theorem lanes_split (fa : Bf (F := F) c A3) :
    iprop(Pipeline.ownSems0 osem c ∗ pt c A3 fa)
      ⊢ (iprop(bigSep Finset.univ (fun j : Fin 32 => LaneIdle c fa j)
          ∗ (A3.view.loc (c : Thread nD τ) ↦[Finset.univ]{Transfers.shareDrop fullShare 64} fa)) : sProp 𝕄) := by
  rw [lanes_eq]

theorem lanes_join (fa : Bf (F := F) c A3) :
    (iprop(bigSep Finset.univ (fun j : Fin 32 => LaneIdle c fa j)
          ∗ (A3.view.loc (c : Thread nD τ) ↦[Finset.univ]{Transfers.shareDrop fullShare 64} fa)) : sProp 𝕄)
      ⊢ iprop(Pipeline.ownSems0 osem c ∗ pt c A3 fa) := by
  rw [lanes_eq]

end LanesSplit

end Cert.Proof.EdgeMlpW

end
-- ==== Proof.WSlotsJoin.lean ====
import proofs.«421332_j47682726921127_1_alg».proof.Proof.WSlots
import Idealize.ShloMosaic.Lib.Exec.Geometry

noncomputable section

namespace Cert.Proof.EdgeMlpW

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem slotA_emb (r : Fin 256) (x : S1024.Idx) (a : Fin 2) :
    (((slotA r).view.emb x : S256x2048.Idx) a : Nat) = (![r.val, (x 0).val] : Fin 2 → Nat) a := by
  show ((Rect.unit (s := S256x2048) ![r.val, 0] S1x1024.size (inbA r)).emb (Shape.reshapeEquiv squeezes_S1x1024_S1024.numel_eq x) a : Nat) = _
  rw [Shape.reshapeEquiv_cons_one, Rect.emb_apply]
  match a with
  | ⟨0, _⟩ => show r.val + 1 * 0 = r.val; omega
  | ⟨1, _⟩ => show 0 + 1 * (x 0).val = (x 0).val; omega

theorem slotB_emb (r : Fin 256) (x : S1024.Idx) (a : Fin 2) :
    (((slotB r).view.emb x : S256x2048.Idx) a : Nat) = (![r.val, 1024 + (x 0).val] : Fin 2 → Nat) a := by
  show ((Rect.unit (s := S256x2048) ![r.val, 1024] S1x1024.size (inbB r)).emb (Shape.reshapeEquiv squeezes_S1x1024_S1024.numel_eq x) a : Nat) = _
  rw [Shape.reshapeEquiv_cons_one, Rect.emb_apply]
  match a with
  | ⟨0, _⟩ => show r.val + 1 * 0 = r.val; omega
  | ⟨1, _⟩ => show 1024 + 1 * (x 0).val = 1024 + (x 0).val; omega

theorem srcRow_emb (w : BitVec 32) (hw : w.toNat < 50000) (x : S1024.Idx) (a : Fin 2) :
    (((srcRow w hw).view.emb x : S50000x1024.Idx) a : Nat) = (![w.toNat, (x 0).val] : Fin 2 → Nat) a := by
  show ((Rect.unit (s := S50000x1024) ![w.toNat, 0] S1x1024.size (inbRow w hw)).emb (Shape.reshapeEquiv squeezes_S1x1024_S1024.numel_eq x) a : Nat) = _
  rw [Shape.reshapeEquiv_cons_one, Rect.emb_apply]
  match a with
  | ⟨0, _⟩ => show w.toNat + 1 * 0 = w.toNat; omega
  | ⟨1, _⟩ => show 0 + 1 * (x 0).val = (x 0).val; omega

omit [FloatOps F] in
theorem gathered_left (src dst : IVec S65536 32) (nf : Vec F S50000x1024 .f32) (t : Fin 256) (y : S256x2048.Idx)
    (r : Fin 256) (hr : (y 0).val = r.val) (h : (y 1).val < 1024) :
    gathered src dst nf t y = nf (ix2 (rowOf (src (ix1 (edgeOf t r)))) ⟨(y 1).val, h⟩) := by
  have e : (y 0 : Fin 256) = r := Fin.ext hr
  subst e
  unfold gathered; exact dif_pos h

omit [FloatOps F] in
theorem gathered_right (src dst : IVec S65536 32) (nf : Vec F S50000x1024 .f32) (t : Fin 256) (y : S256x2048.Idx)
    (r : Fin 256) (hr : (y 0).val = r.val) (h : ¬ (y 1).val < 1024) :
    gathered src dst nf t y
      = nf (ix2 (rowOf (dst (ix1 (edgeOf t r)))) ⟨(y 1).val - 1024, by have : (y 1).val < 2048 := (y 1).isLt; omega⟩) := by
  have e : (y 0 : Fin 256) = r := Fin.ext hr
  subst e
  unfold gathered; exact dif_neg h

section Join
variable (c : Dev nD)

theorem read_slotA (g : Bf (F := F) c A9) (r : Fin 256) (y : S256x2048.Idx) (hr : (y 0).val = r.val) (h : (y 1).val < 1024) :
    A9.view.read (Elt F) g y = (slotA r).view.read (Elt F) g (ix1 ⟨(y 1).val, h⟩) := by
  have ey : ((slotA r).view.emb (ix1 ⟨(y 1).val, h⟩) : S256x2048.Idx) = y := by
    funext a; apply Fin.ext
    refine (slotA_emb r _ a).trans ?_
    match a with
    | ⟨0, _⟩ => exact hr.symm
    | ⟨1, _⟩ => rfl
  have e2 : A9.view.read (Elt F) g ((slotA r).view.emb (ix1 ⟨(y 1).val, h⟩)) = (slotA r).view.read (Elt F) g (ix1 ⟨(y 1).val, h⟩) := rfl
  exact (congrArg (A9.view.read (Elt F) g) ey.symm).trans e2

theorem read_slotB (g : Bf (F := F) c A9) (r : Fin 256) (y : S256x2048.Idx) (hr : (y 0).val = r.val) (h : ¬ (y 1).val < 1024) :
    A9.view.read (Elt F) g y
      = (slotB r).view.read (Elt F) g (ix1 ⟨(y 1).val - 1024, by have : (y 1).val < 2048 := (y 1).isLt; omega⟩) := by
  have h2 : (y 1).val < 2048 := (y 1).isLt
  have ey : ((slotB r).view.emb (ix1 ⟨(y 1).val - 1024, by omega⟩) : S256x2048.Idx) = y := by
    funext a; apply Fin.ext
    refine (slotB_emb r _ a).trans ?_
    match a with
    | ⟨0, _⟩ => exact hr.symm
    | ⟨1, _⟩ => show 1024 + ((y 1).val - 1024) = (y 1).val; omega
  have e2 : A9.view.read (Elt F) g ((slotB r).view.emb (ix1 ⟨(y 1).val - 1024, by omega⟩))
      = (slotB r).view.read (Elt F) g (ix1 ⟨(y 1).val - 1024, by omega⟩) := rfl
  exact (congrArg (A9.view.read (Elt F) g) ey.symm).trans e2

theorem rowPay_apply (fa : Bf (F := F) c A3) (w : BitVec 32) (hw : w.toNat < 50000) (q : Fin 1024) :
    rowPay c fa w hw (ix1 q) = A3.view.read (Elt F) fa (ix2 (rowOf w) q) := by
  have ey : ((srcRow w hw).view.emb (ix1 q) : S50000x1024.Idx) = ix2 (rowOf w) q := by
    funext a; apply Fin.ext
    refine (srcRow_emb w hw _ a).trans ?_
    match a with
    | ⟨0, _⟩ => exact (rowOf_val_of_lt hw).symm
    | ⟨1, _⟩ => rfl
  have e2 : (srcRow w hw).view.read (Elt F) fa (ix1 q) = A3.view.read (Elt F) fa ((srcRow w hw).view.emb (ix1 q)) := rfl
  unfold rowPay
  rw [ReadAs.apply_same]
  exact e2.trans (congrArg (A3.view.read (Elt F) fa) ey)

def landedA (fa : Bf (F := F) c A3) (r : Fin 256) (w : BitVec 32) (hw : w.toNat < 50000) (f : Bf (F := F) c A9) : Bf (F := F) c A9 :=
  (slotA r).view.writes (Elt F) f [⟨Rect.whole S1024, rowPay c fa w hw⟩]
def landedB (fa : Bf (F := F) c A3) (r : Fin 256) (w : BitVec 32) (hw : w.toNat < 50000) (f : Bf (F := F) c A9) : Bf (F := F) c A9 :=
  (slotB r).view.writes (Elt F) f [⟨Rect.whole S1024, rowPay c fa w hw⟩]

theorem read_landedA (fa : Bf (F := F) c A3) (r : Fin 256) (w : BitVec 32) (hw : w.toNat < 50000) (f : Bf (F := F) c A9) (q : Fin 1024) :
    (slotA r).view.read (Elt F) (landedA c fa r w hw f) (ix1 q) = A3.view.read (Elt F) fa (ix2 (rowOf w) q) := by
  have key := View.read_writes_cons_emb (slotA r).view f (Rect.whole S1024) (rowPay c fa w hw) [] (ix1 q)
  rw [Rect.emb_whole_apply] at key
  exact key.trans (rowPay_apply c fa w hw q)

theorem read_landedB (fa : Bf (F := F) c A3) (r : Fin 256) (w : BitVec 32) (hw : w.toNat < 50000) (f : Bf (F := F) c A9) (q : Fin 1024) :
    (slotB r).view.read (Elt F) (landedB c fa r w hw f) (ix1 q) = A3.view.read (Elt F) fa (ix2 (rowOf w) q) := by
  have key := View.read_writes_cons_emb (slotB r).view f (Rect.whole S1024) (rowPay c fa w hw) [] (ix1 q)
  rw [Rect.emb_whole_apply] at key
  exact key.trans (rowPay_apply c fa w hw q)

def landedAt (fa : Bf (F := F) c A3) (ws wd : Fin 256 → BitVec 32) (hs : ∀ r, (ws r).toNat < 50000) (hd : ∀ r, (wd r).toNat < 50000)
    (G : Fin 256 → Bf (F := F) c A9 × Bf (F := F) c A9) (b : Fin 256 × Fin 2) : Bf (F := F) c A9 :=
  if b.2 = 0 then landedA c fa b.1 (ws b.1) (hs b.1) (G b.1).1 else landedB c fa b.1 (wd b.1) (hd b.1) (G b.1).2

theorem landedAt_zero (fa : Bf (F := F) c A3) (ws wd : Fin 256 → BitVec 32) (hs : ∀ r, (ws r).toNat < 50000) (hd : ∀ r, (wd r).toNat < 50000)
    (G : Fin 256 → Bf (F := F) c A9 × Bf (F := F) c A9) (r : Fin 256) :
    landedAt c fa ws wd hs hd G (r, 0) = landedA c fa r (ws r) (hs r) (G r).1 := by
  unfold landedAt; exact if_pos rfl
theorem landedAt_one (fa : Bf (F := F) c A3) (ws wd : Fin 256 → BitVec 32) (hs : ∀ r, (ws r).toNat < 50000) (hd : ∀ r, (wd r).toNat < 50000)
    (G : Fin 256 → Bf (F := F) c A9 × Bf (F := F) c A9) (r : Fin 256) :
    landedAt c fa ws wd hs hd G (r, 1) = landedB c fa r (wd r) (hd r) (G r).2 := by
  unfold landedAt; exact if_neg (show ¬ ((1 : Fin 2) = 0) by decide)

theorem joined_read (fa : Bf (F := F) c A3) (src dst : IVec S65536 32) (t : Fin 256) (ws wd : Fin 256 → BitVec 32)
    (hs : ∀ r, (ws r).toNat < 50000) (hd : ∀ r, (wd r).toNat < 50000)
    (hws : ∀ r, ws r = src (ValueIdx.ix1 (edgeOf t r))) (hwd : ∀ r, wd r = dst (ValueIdx.ix1 (edgeOf t r)))
    (G : Fin 256 → Bf (F := F) c A9 × Bf (F := F) c A9) (g : Bf (F := F) c A9)
    (hg : ∀ b ∈ (Finset.univ : Finset (Fin 256 × Fin 2)), ∀ i ∈ halfSet b, g i = landedAt c fa ws wd hs hd G b i) :
    A9.view.read (Elt F) g = gathered src dst (A3.view.read (Elt F) fa) t := by
  funext y
  obtain ⟨r, hr⟩ : ∃ r : Fin 256, (y 0).val = r.val := ⟨⟨(y 0).val, (y 0).isLt⟩, rfl⟩
  by_cases h : (y 1).val < 1024
  · have hmem : (slotA r).view.emb (ix1 ⟨(y 1).val, h⟩) ∈ halfSet (r, 0) := by
      rw [halfSet_zero, ← slotA_set]; exact View.emb_mem_set _ _
    have e1 := read_slotA c g r y hr h
    have e2 : (slotA r).view.read (Elt F) g (ix1 ⟨(y 1).val, h⟩)
        = (slotA r).view.read (Elt F) (landedAt c fa ws wd hs hd G (r, 0)) (ix1 ⟨(y 1).val, h⟩) :=
      View.read_congr_at (ix1 ⟨(y 1).val, h⟩) (hg (r, 0) (Finset.mem_univ _) _ hmem)
    have e3 : (slotA r).view.read (Elt F) (landedAt c fa ws wd hs hd G (r, 0)) (ix1 ⟨(y 1).val, h⟩)
        = A3.view.read (Elt F) fa (ix2 (rowOf (ws r)) ⟨(y 1).val, h⟩) := by
      rw [landedAt_zero]; exact read_landedA c fa r (ws r) (hs r) (G r).1 ⟨(y 1).val, h⟩
    have e4 := gathered_left src dst (A3.view.read (Elt F) fa) t y r hr h
    rw [← hws r] at e4
    exact e1.trans (e2.trans (e3.trans e4.symm))
  · have h2 : (y 1).val < 2048 := (y 1).isLt
    have hmem : (slotB r).view.emb (ix1 ⟨(y 1).val - 1024, by omega⟩) ∈ halfSet (r, 1) := by
      rw [halfSet_one, ← slotB_set]; exact View.emb_mem_set _ _
    have e1 := read_slotB c g r y hr h
    have e2 : (slotB r).view.read (Elt F) g (ix1 ⟨(y 1).val - 1024, by omega⟩)
        = (slotB r).view.read (Elt F) (landedAt c fa ws wd hs hd G (r, 1)) (ix1 ⟨(y 1).val - 1024, by omega⟩) :=
      View.read_congr_at (ix1 ⟨(y 1).val - 1024, by omega⟩) (hg (r, 1) (Finset.mem_univ _) _ hmem)
    have e3 : (slotB r).view.read (Elt F) (landedAt c fa ws wd hs hd G (r, 1)) (ix1 ⟨(y 1).val - 1024, by omega⟩)
        = A3.view.read (Elt F) fa (ix2 (rowOf (wd r)) ⟨(y 1).val - 1024, by omega⟩) := by
      rw [landedAt_one]; exact read_landedB c fa r (wd r) (hd r) (G r).2 ⟨(y 1).val - 1024, by omega⟩
    have e4 := gathered_right src dst (A3.view.read (Elt F) fa) t y r hr h
    rw [← hwd r] at e4
    exact e1.trans (e2.trans (e3.trans e4.symm))

theorem scratch_join (fa : Bf (F := F) c A3) (src dst : IVec S65536 32) (t : Fin 256) (ws wd : Fin 256 → BitVec 32)
    (hs : ∀ r, (ws r).toNat < 50000) (hd : ∀ r, (wd r).toNat < 50000)
    (hws : ∀ r, ws r = src (ValueIdx.ix1 (edgeOf t r))) (hwd : ∀ r, wd r = dst (ValueIdx.ix1 (edgeOf t r))) :
    bigSep Finset.univ (fun r : Fin 256 => RowLanded c fa r (ws r) (wd r) (hs r) (hd r))
      ⊢ (iprop(∃ g, ⌜A9.view.read (Elt F) g = gathered src dst (A3.view.read (Elt F) fa) t⌝ ∗ pt c A9 g) : sProp 𝕄) := by
  haveI : Nonempty (Bf (F := F) c A9) := ⟨View.junk A9.view⟩

  have hrow : ∀ r : Fin 256, RowLanded c fa r (ws r) (wd r) (hs r) (hd r)
      ⊢ (iprop(∃ G : Bf (F := F) c A9 × Bf (F := F) c A9,
          (A9.view.loc (c : Thread nD τ) ↦[halfSet (r, 0)]{fullShare} landedA c fa r (ws r) (hs r) G.1)
            ∗ (A9.view.loc (c : Thread nD τ) ↦[halfSet (r, 1)]{fullShare} landedB c fa r (wd r) (hd r) G.2)) : sProp 𝕄) := by
    intro r
    have eA : ∀ f, ((A9.view.loc (c : Thread nD τ) ↦[halfSet (r, 0)]{fullShare} landedA c fa r (ws r) (hs r) f) : sProp 𝕄)
        = ((slotA r).view.loc (c : Thread nD τ) ↦[(slotA r).view.set]{fullShare}
            (slotA r).view.writes (Elt F) f [⟨Rect.whole S1024, rowPay c fa (ws r) (hs r)⟩]) := fun f => by
      rw [halfSet_zero, ← slotA_set]; rfl
    have eB : ∀ f, ((A9.view.loc (c : Thread nD τ) ↦[halfSet (r, 1)]{fullShare} landedB c fa r (wd r) (hd r) f) : sProp 𝕄)
        = ((slotB r).view.loc (c : Thread nD τ) ↦[(slotB r).view.set]{fullShare}
            (slotB r).view.writes (Elt F) f [⟨Rect.whole S1024, rowPay c fa (wd r) (hd r)⟩]) := fun f => by
      rw [halfSet_one, ← slotB_set]; rfl
    unfold RowLanded LandedAt
    iintro ⟨⟨%fA, HA⟩, ⟨%fB, HB⟩⟩
    iexists (fA, fB)
    rw [eA, eB]
    isplitl [HA]
    · iexact HA
    · iexact HB
  have h1 : bigSep Finset.univ (fun r : Fin 256 => RowLanded c fa r (ws r) (wd r) (hs r) (hd r))
      ⊢ (bigSep Finset.univ (fun r : Fin 256 => iprop(∃ G : Bf (F := F) c A9 × Bf (F := F) c A9,
          (A9.view.loc (c : Thread nD τ) ↦[halfSet (r, 0)]{fullShare} landedA c fa r (ws r) (hs r) G.1)
            ∗ (A9.view.loc (c : Thread nD τ) ↦[halfSet (r, 1)]{fullShare} landedB c fa r (wd r) (hd r) G.2))) : sProp 𝕄) :=
    bigSep_mono fun r _ => hrow r
  have h2 := bigSep_exists_pi (M := 𝕄) (Finset.univ : Finset (Fin 256))
    (fun (r : Fin 256) (G : Bf (F := F) c A9 × Bf (F := F) c A9) =>
      iprop((A9.view.loc (c : Thread nD τ) ↦[halfSet (r, 0)]{fullShare} landedA c fa r (ws r) (hs r) G.1)
            ∗ (A9.view.loc (c : Thread nD τ) ↦[halfSet (r, 1)]{fullShare} landedB c fa r (wd r) (hd r) G.2)))

  have h3 : ∀ G : Fin 256 → Bf (F := F) c A9 × Bf (F := F) c A9,
      bigSep Finset.univ (fun r : Fin 256 =>
        iprop((A9.view.loc (c : Thread nD τ) ↦[halfSet (r, 0)]{fullShare} landedA c fa r (ws r) (hs r) (G r).1)
            ∗ (A9.view.loc (c : Thread nD τ) ↦[halfSet (r, 1)]{fullShare} landedB c fa r (wd r) (hd r) (G r).2)))
      ⊢ (iprop(∃ g, ⌜∀ b ∈ (Finset.univ : Finset (Fin 256 × Fin 2)), ∀ i ∈ halfSet b, g i = landedAt c fa ws wd hs hd G b i⌝ ∗ pt c A9 g) : sProp 𝕄) := by
    intro G
    have e : bigSep Finset.univ (fun b : Fin 256 × Fin 2 => (A9.view.loc (c : Thread nD τ) ↦[halfSet b]{fullShare} landedAt c fa ws wd hs hd G b : sProp 𝕄))
        = bigSep Finset.univ (fun r : Fin 256 =>
            iprop((A9.view.loc (c : Thread nD τ) ↦[halfSet (r, 0)]{fullShare} landedA c fa r (ws r) (hs r) (G r).1)
              ∗ (A9.view.loc (c : Thread nD τ) ↦[halfSet (r, 1)]{fullShare} landedB c fa r (wd r) (hd r) (G r).2))) := by
      rw [bigSep_univ_prod]
      refine bigSep_congr fun r _ => ?_
      rw [bigSep_fin_two, landedAt_zero, landedAt_one]; rfl
    rw [← e]
    refine (pointsTo_biUnion_join (Ix := Unit) (Val := Elt F) (Name := ℕ) (U := UU nD τ) (Lvl := ℕ) (ℓ := A9.view.loc (c : Thread nD τ)) (q := fullShare) (Finset.univ : Finset (Fin 256 × Fin 2)) halfSet (landedAt c fa ws wd hs hd G)
      (View.junk A9.view) (fun b _ b' _ h => halfSet_disjoint b b' h)).trans ?_
    rw [halfSet_cover]
    iintro ⟨%g, %hg, H⟩
    iexists g
    isplitr
    · ipureintro; exact hg
    · iexact H
  iintro H
  ihave H := h1 $$ H
  ihave H := h2 $$ H
  icases H with ⟨%G, H⟩
  ihave H := h3 G $$ H
  icases H with ⟨%g, %hg, H⟩
  iexists g
  isplitr
  · ipureintro
    exact joined_read c fa src dst t ws wd hs hd hws hwd G g hg
  · iexact H

end Join

end Cert.Proof.EdgeMlpW

end
-- ==== Proof.WKernelRun.lean ====
import proofs.«421332_j47682726921127_1_alg».proof.Proof.WTrip
import proofs.«421332_j47682726921127_1_alg».proof.Proof.WSlots
import proofs.«421332_j47682726921127_1_alg».proof.Proof.WSlotsJoin
import Idealize.ShloMosaic.Lib.Pipeline.FrameBody
import Idealize.ShloMosaic.Lib.Pipeline.Value

set_option maxHeartbeats 4000000

noncomputable section

namespace Cert.Proof.EdgeMlpW

open Cert.Kernel Cert.Kernel.Gen Cert.Proof.Sep
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem kernelRun [∀ e, Nonempty (Elt F e)] (c : Dev nD) (i : grid0.Coords)
    (M4 : Memref sig .tc .vmem S2048x1024 .bf16) (h4 : M4.IsWhole) (M5 : Memref sig .tc .vmem S1024 .f32) (h5 : M5.IsWhole)
    (M6 : Memref sig .tc .vmem S1024x1024 .bf16) (h6 : M6.IsWhole) (M7 : Memref sig .tc .vmem S1024 .f32) (h7 : M7.IsWhole)
    (M8 : Memref sig .tc .vmem S256x1024 .f32) (h8 : M8.IsWhole)
    (f1 : Bf (F := F) c (Memref.whole main_arg1)) (f2 : Bf (F := F) c (Memref.whole main_arg2)) (fa : Bf (F := F) c (Memref.whole main_arg0))
    (f4 : Bf (F := F) c M4) (f5 : Bf (F := F) c M5) (f6 : Bf (F := F) c M6) (f7 : Bf (F := F) c M7) (f8 : Bf (F := F) c M8)
    (hs : ∀ e, ((Memref.whole main_arg1).view.read (Elt F) f1 e).toNat < 50000)
    (hd : ∀ e, ((Memref.whole main_arg2).view.read (Elt F) f2 e).toNat < 50000)
    (W : Waits sig Unit) (Q : PUnit → sProp 𝕄) :
    iprop(pt c (Memref.whole main_arg1) f1 ∗ pt c (Memref.whole main_arg2) f2 ∗ pt c (Memref.whole main_arg0) fa
        ∗ pt c M4 f4 ∗ pt c M5 f5 ∗ pt c M6 f6 ∗ pt c M7 f7 ∗ pt c M8 f8
        ∗ (∃ f, pt c (Memref.whole cc0_scratch0) f) ∗ Pipeline.ownSems0 osem c ∗ owes (c : Thread nD τ) 0 W
        ∗ (iprop(pt c (Memref.whole main_arg1) f1 ∗ pt c (Memref.whole main_arg2) f2 ∗ pt c (Memref.whole main_arg0) fa
              ∗ pt c M4 f4 ∗ pt c M5 f5 ∗ pt c M6 f6 ∗ pt c M7 f7
              ∗ (∃ g, ⌜M8.view.read (Elt F) g
                    = outTile ((Memref.whole main_arg1).view.read (Elt F) f1) ((Memref.whole main_arg2).view.read (Elt F) f2)
                        ((Memref.whole main_arg0).view.read (Elt F) fa) (tOf i)
                        (M4.view.read (Elt F) f4) (M5.view.read (Elt F) f5) (M6.view.read (Elt F) f6) (M7.view.read (Elt F) f7)⌝ ∗ pt c M8 g)
              ∗ (∃ f, pt c (Memref.whole cc0_scratch0) f) ∗ Pipeline.ownSems0 osem c
              ∗ ∃ W, owes (c : Thread nD τ) 0 W) -∗ Q ⟨⟩))
    ⊢ wp frame (wpE (defs₀ (F := F)) Variants.none c none) Set.univ
        (cc0__gather_mlp_kernel i (Memref.whole main_arg1) (Memref.isWhole_whole _) (Memref.whole main_arg2) (Memref.isWhole_whole _)
          (Memref.whole main_arg0) (Memref.isWhole_whole _) M4 h4 M5 h5 M6 h6 M7 h7 M8 h8
          (Memref.whole cc0_scratch0) (Memref.isWhole_whole _) cc0_scratch1 cc0_scratch2) Q := by
  iintro ⟨H1, H2, Ha, H4, H5, H6, H7, H8, ⟨%fs, Hs⟩, Hsems, HO, Hk⟩

  ihave Hrows := ((scratch_split c fs).trans (Entails.of_eq (by rw [rows_by_chunk, bigSep_fin8]))) $$ Hs
  icases Hrows with ⟨HR0, HR1, HR2, HR3, HR4, HR5, HR6, HR7⟩

  ihave Hlanes := (lanes_split c fa) $$ [Hsems Ha]
  · isplitl [Hsems]; · iexact Hsems
    iexact Ha
  icases Hlanes with ⟨HL, Hrem⟩
  simp only [cc0__gather_mlp_kernel_eq_skeleton]; unfold cc0__gather_mlp_kernel_skel
  simp only [k0_part1_eq_skeleton, k0_part2_eq_skeleton]; unfold k0_part1_skel
  sl_exec
  irw [wp_bind]

  sl_for (invI c i f1 f2 fa hs hd 0) $$ [H1 H2 HL HR0]
  · intro k acc; exact issueRegion c i f1 f2 fa hs hd 0 (k0_off1 i) (k0_off1_inb i) k0_off2 k0_off5 k0_off2_inb k0_off5_inb k0_off3 k0_off6 k0_off3_inb k0_off6_inb
      (fun k => edge_word i 0 k 0#32 rfl) lane_word lane_word (fun k => row_word 0 k 0#32 rfl 0) (fun k => row_word 0 k 0#32 rfl 1024) k acc
  · iapply (invI_entry c i f1 f2 fa hs hd 0)
    iframe H1 H2 HL HR0
  iintro %acc HI
  ihave HI' := (invI_exit c i f1 f2 fa hs hd 0 (Scf.trips k0_t1_loop.lb k0_t1_loop.ub k0_t1_loop.st) (by decide) acc) $$ HI
  icases HI' with ⟨H1, H2, HF⟩
  sl_for (invW c i f1 f2 fa hs hd 0) $$ [HO HF]
  · intro k acc; exact waitRegion c i f1 f2 fa hs hd 0 k0_off8 k0_off8_inb k0_off9 k0_off10 k0_off9_inb k0_off10_inb
      lane_word (fun k => row_word 0 k 0#32 rfl 0) (fun k => row_word 0 k 0#32 rfl 1024) k acc
  · iapply (invW_entry c i f1 f2 fa hs hd 0 _)
    iframe HO HF
  iintro %acc HI
  ihave HI' := (invW_exit c i f1 f2 fa hs hd 0 (Scf.trips k0_t2_loop.lb k0_t2_loop.ub k0_t2_loop.st) (by decide) acc) $$ HI
  icases HI' with ⟨⟨%W0, HO⟩, HL, HD0⟩

  sl_for (invI c i f1 f2 fa hs hd 1) $$ [H1 H2 HL HR1]
  · intro k acc; exact issueRegion c i f1 f2 fa hs hd 1 (k0_off11 i) (k0_off11_inb i) k0_off12 k0_off15 k0_off12_inb k0_off15_inb k0_off13 k0_off16 k0_off13_inb k0_off16_inb
      (fun k => edge_word i 1 k 32#32 rfl) lane_word lane_word (fun k => row_word 1 k 32#32 rfl 0) (fun k => row_word 1 k 32#32 rfl 1024) k acc
  · iapply (invI_entry c i f1 f2 fa hs hd 1)
    iframe H1 H2 HL HR1
  iintro %acc HI
  ihave HI' := (invI_exit c i f1 f2 fa hs hd 1 (Scf.trips k0_t3_loop.lb k0_t3_loop.ub k0_t3_loop.st) (by decide) acc) $$ HI
  icases HI' with ⟨H1, H2, HF⟩
  sl_for (invW c i f1 f2 fa hs hd 1) $$ [HO HF]
  · intro k acc; exact waitRegion c i f1 f2 fa hs hd 1 k0_off18 k0_off18_inb k0_off19 k0_off20 k0_off19_inb k0_off20_inb
      lane_word (fun k => row_word 1 k 32#32 rfl 0) (fun k => row_word 1 k 32#32 rfl 1024) k acc
  · iapply (invW_entry c i f1 f2 fa hs hd 1 _)
    iframe HO HF
  iintro %acc HI
  ihave HI' := (invW_exit c i f1 f2 fa hs hd 1 (Scf.trips k0_t4_loop.lb k0_t4_loop.ub k0_t4_loop.st) (by decide) acc) $$ HI
  icases HI' with ⟨⟨%W1, HO⟩, HL, HD1⟩

  sl_for (invI c i f1 f2 fa hs hd 2) $$ [H1 H2 HL HR2]
  · intro k acc; exact issueRegion c i f1 f2 fa hs hd 2 (k0_off21 i) (k0_off21_inb i) k0_off22 k0_off25 k0_off22_inb k0_off25_inb k0_off23 k0_off26 k0_off23_inb k0_off26_inb
      (fun k => edge_word i 2 k 64#32 rfl) lane_word lane_word (fun k => row_word 2 k 64#32 rfl 0) (fun k => row_word 2 k 64#32 rfl 1024) k acc
  · iapply (invI_entry c i f1 f2 fa hs hd 2)
    iframe H1 H2 HL HR2
  iintro %acc HI
  ihave HI' := (invI_exit c i f1 f2 fa hs hd 2 (Scf.trips k0_t5_loop.lb k0_t5_loop.ub k0_t5_loop.st) (by decide) acc) $$ HI
  icases HI' with ⟨H1, H2, HF⟩
  sl_for (invW c i f1 f2 fa hs hd 2) $$ [HO HF]
  · intro k acc; exact waitRegion c i f1 f2 fa hs hd 2 k0_off28 k0_off28_inb k0_off29 k0_off30 k0_off29_inb k0_off30_inb
      lane_word (fun k => row_word 2 k 64#32 rfl 0) (fun k => row_word 2 k 64#32 rfl 1024) k acc
  · iapply (invW_entry c i f1 f2 fa hs hd 2 _)
    iframe HO HF
  iintro %acc HI
  ihave HI' := (invW_exit c i f1 f2 fa hs hd 2 (Scf.trips k0_t6_loop.lb k0_t6_loop.ub k0_t6_loop.st) (by decide) acc) $$ HI
  icases HI' with ⟨⟨%W2, HO⟩, HL, HD2⟩

  sl_for (invI c i f1 f2 fa hs hd 3) $$ [H1 H2 HL HR3]
  · intro k acc; exact issueRegion c i f1 f2 fa hs hd 3 (k0_off31 i) (k0_off31_inb i) k0_off32 k0_off35 k0_off32_inb k0_off35_inb k0_off33 k0_off36 k0_off33_inb k0_off36_inb
      (fun k => edge_word i 3 k 96#32 rfl) lane_word lane_word (fun k => row_word 3 k 96#32 rfl 0) (fun k => row_word 3 k 96#32 rfl 1024) k acc
  · iapply (invI_entry c i f1 f2 fa hs hd 3)
    iframe H1 H2 HL HR3
  iintro %acc HI
  ihave HI' := (invI_exit c i f1 f2 fa hs hd 3 (Scf.trips k0_t7_loop.lb k0_t7_loop.ub k0_t7_loop.st) (by decide) acc) $$ HI
  icases HI' with ⟨H1, H2, HF⟩
  sl_for (invW c i f1 f2 fa hs hd 3) $$ [HO HF]
  · intro k acc; exact waitRegion c i f1 f2 fa hs hd 3 k0_off38 k0_off38_inb k0_off39 k0_off40 k0_off39_inb k0_off40_inb
      lane_word (fun k => row_word 3 k 96#32 rfl 0) (fun k => row_word 3 k 96#32 rfl 1024) k acc
  · iapply (invW_entry c i f1 f2 fa hs hd 3 _)
    iframe HO HF
  iintro %acc HI
  ihave HI' := (invW_exit c i f1 f2 fa hs hd 3 (Scf.trips k0_t8_loop.lb k0_t8_loop.ub k0_t8_loop.st) (by decide) acc) $$ HI
  icases HI' with ⟨⟨%W3, HO⟩, HL, HD3⟩

  sl_for (invI c i f1 f2 fa hs hd 4) $$ [H1 H2 HL HR4]
  · intro k acc; exact issueRegion c i f1 f2 fa hs hd 4 (k0_off41 i) (k0_off41_inb i) k0_off42 k0_off45 k0_off42_inb k0_off45_inb k0_off43 k0_off46 k0_off43_inb k0_off46_inb
      (fun k => edge_word i 4 k 128#32 rfl) lane_word lane_word (fun k => row_word 4 k 128#32 rfl 0) (fun k => row_word 4 k 128#32 rfl 1024) k acc
  · iapply (invI_entry c i f1 f2 fa hs hd 4)
    iframe H1 H2 HL HR4
  iintro %acc HI
  ihave HI' := (invI_exit c i f1 f2 fa hs hd 4 (Scf.trips k0_t9_loop.lb k0_t9_loop.ub k0_t9_loop.st) (by decide) acc) $$ HI
  icases HI' with ⟨H1, H2, HF⟩

  sl_exec
  sl_for (invW c i f1 f2 fa hs hd 4) $$ [HO HF]
  · intro k acc; exact waitRegion c i f1 f2 fa hs hd 4 k0_off48 k0_off48_inb k0_off49 k0_off50 k0_off49_inb k0_off50_inb
      lane_word (fun k => row_word 4 k 128#32 rfl 0) (fun k => row_word 4 k 128#32 rfl 1024) k acc
  · iapply (invW_entry c i f1 f2 fa hs hd 4 _)
    iframe HO HF
  iintro %acc HI
  ihave HI' := (invW_exit c i f1 f2 fa hs hd 4 (Scf.trips k0_t10_loop.lb k0_t10_loop.ub k0_t10_loop.st) (by decide) acc) $$ HI
  icases HI' with ⟨⟨%W4, HO⟩, HL, HD4⟩

  sl_for (invI c i f1 f2 fa hs hd 5) $$ [H1 H2 HL HR5]
  · intro k acc; exact issueRegion c i f1 f2 fa hs hd 5 (k0_off51 i) (k0_off51_inb i) k0_off52 k0_off55 k0_off52_inb k0_off55_inb k0_off53 k0_off56 k0_off53_inb k0_off56_inb
      (fun k => edge_word i 5 k 160#32 rfl) lane_word lane_word (fun k => row_word 5 k 160#32 rfl 0) (fun k => row_word 5 k 160#32 rfl 1024) k acc
  · iapply (invI_entry c i f1 f2 fa hs hd 5)
    iframe H1 H2 HL HR5
  iintro %acc HI
  ihave HI' := (invI_exit c i f1 f2 fa hs hd 5 (Scf.trips k0_t11_loop.lb k0_t11_loop.ub k0_t11_loop.st) (by decide) acc) $$ HI
  icases HI' with ⟨H1, H2, HF⟩
  sl_for (invW c i f1 f2 fa hs hd 5) $$ [HO HF]
  · intro k acc; exact waitRegion c i f1 f2 fa hs hd 5 k0_off58 k0_off58_inb k0_off59 k0_off60 k0_off59_inb k0_off60_inb
      lane_word (fun k => row_word 5 k 160#32 rfl 0) (fun k => row_word 5 k 160#32 rfl 1024) k acc
  · iapply (invW_entry c i f1 f2 fa hs hd 5 _)
    iframe HO HF
  iintro %acc HI
  ihave HI' := (invW_exit c i f1 f2 fa hs hd 5 (Scf.trips k0_t12_loop.lb k0_t12_loop.ub k0_t12_loop.st) (by decide) acc) $$ HI
  icases HI' with ⟨⟨%W5, HO⟩, HL, HD5⟩

  sl_for (invI c i f1 f2 fa hs hd 6) $$ [H1 H2 HL HR6]
  · intro k acc; exact issueRegion c i f1 f2 fa hs hd 6 (k0_off61 i) (k0_off61_inb i) k0_off62 k0_off65 k0_off62_inb k0_off65_inb k0_off63 k0_off66 k0_off63_inb k0_off66_inb
      (fun k => edge_word i 6 k 192#32 rfl) lane_word lane_word (fun k => row_word 6 k 192#32 rfl 0) (fun k => row_word 6 k 192#32 rfl 1024) k acc
  · iapply (invI_entry c i f1 f2 fa hs hd 6)
    iframe H1 H2 HL HR6
  iintro %acc HI
  ihave HI' := (invI_exit c i f1 f2 fa hs hd 6 (Scf.trips k0_t13_loop.lb k0_t13_loop.ub k0_t13_loop.st) (by decide) acc) $$ HI
  icases HI' with ⟨H1, H2, HF⟩
  sl_for (invW c i f1 f2 fa hs hd 6) $$ [HO HF]
  · intro k acc; exact waitRegion c i f1 f2 fa hs hd 6 k0_off68 k0_off68_inb k0_off69 k0_off70 k0_off69_inb k0_off70_inb
      lane_word (fun k => row_word 6 k 192#32 rfl 0) (fun k => row_word 6 k 192#32 rfl 1024) k acc
  · iapply (invW_entry c i f1 f2 fa hs hd 6 _)
    iframe HO HF
  iintro %acc HI
  ihave HI' := (invW_exit c i f1 f2 fa hs hd 6 (Scf.trips k0_t14_loop.lb k0_t14_loop.ub k0_t14_loop.st) (by decide) acc) $$ HI
  icases HI' with ⟨⟨%W6, HO⟩, HL, HD6⟩

  sl_for (invI c i f1 f2 fa hs hd 7) $$ [H1 H2 HL HR7]
  · intro k acc; exact issueRegion c i f1 f2 fa hs hd 7 (k0_off71 i) (k0_off71_inb i) k0_off72 k0_off75 k0_off72_inb k0_off75_inb k0_off73 k0_off76 k0_off73_inb k0_off76_inb
      (fun k => edge_word i 7 k 224#32 rfl) lane_word lane_word (fun k => row_word 7 k 224#32 rfl 0) (fun k => row_word 7 k 224#32 rfl 1024) k acc
  · iapply (invI_entry c i f1 f2 fa hs hd 7)
    iframe H1 H2 HL HR7
  iintro %acc HI
  ihave HI' := (invI_exit c i f1 f2 fa hs hd 7 (Scf.trips k0_t15_loop.lb k0_t15_loop.ub k0_t15_loop.st) (by decide) acc) $$ HI
  icases HI' with ⟨H1, H2, HF⟩
  sl_for (invW c i f1 f2 fa hs hd 7) $$ [HO HF]
  · intro k acc; exact waitRegion c i f1 f2 fa hs hd 7 k0_off78 k0_off78_inb k0_off79 k0_off80 k0_off79_inb k0_off80_inb
      lane_word (fun k => row_word 7 k 224#32 rfl 0) (fun k => row_word 7 k 224#32 rfl 1024) k acc
  · iapply (invW_entry c i f1 f2 fa hs hd 7 _)
    iframe HO HF
  iintro %acc HI
  ihave HI' := (invW_exit c i f1 f2 fa hs hd 7 (Scf.trips k0_t16_loop.lb k0_t16_loop.ub k0_t16_loop.st) (by decide) acc) $$ HI
  icases HI' with ⟨⟨%W7, HO⟩, HL, HD7⟩

  ihave Hall := (Entails.of_eq (by rw [rows_by_chunk, bigSep_fin8]; all_goals rfl :
      bigSep Finset.univ (fun r : Fin 256 => RowLanded c fa r (wS c f1 i r) (wD c f2 i r) (hs _) (hd _))
        = iprop(bigSep Finset.univ (Landed c i f1 f2 fa hs hd 0) ∗ bigSep Finset.univ (Landed c i f1 f2 fa hs hd 1)
          ∗ bigSep Finset.univ (Landed c i f1 f2 fa hs hd 2) ∗ bigSep Finset.univ (Landed c i f1 f2 fa hs hd 3)
          ∗ bigSep Finset.univ (Landed c i f1 f2 fa hs hd 4) ∗ bigSep Finset.univ (Landed c i f1 f2 fa hs hd 5)
          ∗ bigSep Finset.univ (Landed c i f1 f2 fa hs hd 6) ∗ bigSep Finset.univ (Landed c i f1 f2 fa hs hd 7))).symm) $$ [HD0 HD1 HD2 HD3 HD4 HD5 HD6 HD7]
  · isplitl [HD0]; · iexact HD0
    iframe HD1 HD2 HD3 HD4 HD5 HD6 HD7
  ihave Htile := (scratch_join c fa (T1.view.read (Elt F) f1) (T2.view.read (Elt F) f2) (tOf i)
      (fun r => wS c f1 i r) (fun r => wD c f2 i r) (fun _ => hs _) (fun _ => hd _) (fun _ => rfl) (fun _ => rfl)) $$ Hall
  icases Htile with ⟨%g, %hg, Hs⟩
  ihave Hback := (lanes_join c fa) $$ [HL Hrem]
  · isplitl [HL]; · iexact HL
    iexact Hrem
  icases Hback with ⟨Hsems, Ha⟩

  sl_exec!
  sl_step
  iapply Hk
  iframe H1 H2 Ha H4 H5 H6 H7
  isplitl [H8]
  · iexists _
    isplitr; swap; (· iexact H8)
    ipureintro
    sl_unfold_words

    have hz2 : (![0, 0] : Fin 2 → Nat) = fun _ => 0 := by funext a; fin_cases a <;> rfl
    have hz1 : (![0] : Fin 1 → Nat) = fun _ => 0 := by funext a; fin_cases a; rfl
    rw [View.read_writes_eq_canon _ _ _ (View.cover_of_tiled _ S256x1024.size rfl), View.canon_unit_zero hz2]
    simp only [View.readAt_eq_ld, View.ld_unit_zero (S := S256x2048) hz2, View.ld_unit_zero (S := S2048x1024) hz2,
      View.ld_unit_zero (S := S1024) hz1, View.ld_unit_zero (S := S1024x1024) hz2]
    rw [hg]
    rfl
  isplitl [Hs]; · iexists g; iexact Hs
  isplitl [Hsems]; · iexact Hsems
  iexists _; iexact HO

end Cert.Proof.EdgeMlpW

end
-- ==== Proof.WLaunchData.lean ====
import proofs.«421332_j47682726921127_1_alg».proof.Proof.WKernelRun
import Idealize.ShloMosaic.Lib.Pipeline.Regions
import Idealize.ShloMosaic.Lib.Pipeline.FrameBody

noncomputable section

namespace Cert.Proof.EdgeMlpW

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev V₀ (c : Dev nD) : Valuation τ sig (Elt F) := fun b => m ((c : Dev nD), b)

abbrev V (c : Dev nD) (b : Ref sig .tc) : Buf (Elt F) ((c : Thread nD τ).loc b) := StableHlo.after hostOps0 (V₀ m c) b

def tabs : pre0.Contents (Elt F) := fun k => m (((0 : Dev nD) : Thread nD τ).loc (pre0.ref k))

abbrev adm : (p : Fin 1) → (pcfgs (F := F) p).Adm := fun _ => ⟨tabs m, trivial⟩

abbrev cfgA : Pipeline.Cfg sig Λ₀ := Pipeline.pin (pcfgs (F := F)) (adm m) (0 : Fin 1)

def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

def Φc (c : Dev nD) : sProp 𝕄 :=
  iprop(pt c (Memref.whole main_arg1) (m ((c : Thread nD τ).loc main_arg1)) ∗ pt c (Memref.whole main_arg2) (m ((c : Thread nD τ).loc main_arg2))
    ∗ pt c (Memref.whole main_arg0) (m ((c : Thread nD τ).loc main_arg0))
    ∗ (∃ f, pt c (Memref.whole cc0_scratch0) f) ∗ Pipeline.ownSems0 osem c)

def tileAt (c : Dev nD) (t : Fin (cfgA m).N) : FVec F S256x1024 .f32 :=
  outTile ((Memref.whole main_arg1).view.read (Elt F) (m ((c : Thread nD τ).loc main_arg1)))
    ((Memref.whole main_arg2).view.read (Elt F) (m ((c : Thread nD τ).loc main_arg2)))
    ((Memref.whole main_arg0).view.read (Elt F) (m ((c : Thread nD τ).loc main_arg0)))
    (tOf (grid0.coords t)) (iblk m c 0 t) (iblk m c 1 t) (iblk m c 2 t) (iblk m c 3 t)

def dats (_ : Fin 1) (c : Dev nD) : Dat τ (Elt F) Unit ℕ (UU nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t
  Φ _ := Φc m c
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = tileAt m c t := by dsimp only [dats]; rfl

theorem before0 (c : Dev nD) (t : Fin (cfgA m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin (cfgA m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin (cfgA m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin (cfgA m).N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

theorem owns_intro_whole (c : Dev nD) {sp : Space} {S : Shape} {e : EltTy} (M : Memref sig .tc sp S e) (h : M.IsWhole) (f : Bf (F := F) c M)
    {X : S.Idx → Elt F e} (hX : M.view.read (Elt F) f = X) :
    pt c M f ⊢ (owns (c : Thread nD τ) M fullShare X : sProp 𝕄) := by
  rw [owns_of_whole c M h]; iintro H; iexists f; isplitr; · ipureintro; exact hX
  iexact H

variable (hs : ∀ (c : Dev nD) (e : S65536.Idx), ((m ((c : Thread nD τ).loc main_arg1) : IVec S65536 32) e).toNat < 50000)
  (hd : ∀ (c : Dev nD) (e : S65536.Idx), ((m ((c : Thread nD τ).loc main_arg2) : IVec S65536 32) e).toNat < 50000)

include hs hd in

theorem body_obligation (c : Dev nD) : BodyObligation (dats m 0 c) (defs₀ (F := F)) Variants.none () Set.univ := fun t => by
  rw [bigSep_W0, bigSep_W0]
  rw [show (dats m 0 c).Φ t.castSucc = Φc m c from rfl, show (dats m 0 c).Φ t.succ = Φc m c from rfl]
  unfold Φc Dat.owesAt Pipeline.owesWithin
  rw [show (dats m 0 c).owed t.castSucc = 0 from rfl, show (dats m 0 c).owed t.succ = 0 from rfl]
  rw [after0, after1, after2, after3, after4]
  simp only [fun j X => owns_of_whole (F := F) c (stage0_0 j) (hstage0_0 j) X, fun j X => owns_of_whole (F := F) c (stage0_1 j) (hstage0_1 j) X,
    fun j X => owns_of_whole (F := F) c (stage0_2 j) (hstage0_2 j) X, fun j X => owns_of_whole (F := F) c (stage0_3 j) (hstage0_3 j) X,
    fun j X => owns_of_whole (F := F) c (stage0_4 j) (hstage0_4 j) X]
  iintro ⟨⟨H1, H2, Ha, Hs, Hsems⟩, ⟨%W, %hW, HO⟩, ⟨%d0, %f0, %hf0, H0⟩, ⟨%d1, %f1, %hf1, H1'⟩, ⟨%d2, %f2, %hf2, H2'⟩, ⟨%d3, %f3, %hf3, H3'⟩, ⟨%d4, %f4, %hf4, H4'⟩⟩
  have hf0 := hf0.trans (before0 m c t d0)
  have hf1 := hf1.trans (before1 m c t d1)
  have hf2 := hf2.trans (before2 m c t d2)
  have hf3 := hf3.trans (before3 m c t d3)
  iapply (kernelRun c (grid0.coords t) (stage0_0 _) (hstage0_0 _) (stage0_1 _) (hstage0_1 _) (stage0_2 _) (hstage0_2 _) (stage0_3 _) (hstage0_3 _)
    (stage0_4 _) (hstage0_4 _) (m ((c : Thread nD τ).loc main_arg1)) (m ((c : Thread nD τ).loc main_arg2)) (m ((c : Thread nD τ).loc main_arg0))
    f0 f1 f2 f3 f4 (fun e => by simp only [Memref.view_whole, View.read_whole]; exact hs c e)
    (fun e => by simp only [Memref.view_whole, View.read_whole]; exact hd c e) W _)
  iframe H1 H2 Ha H0 H1' H2' H3' H4' Hs Hsems HO
  iintro ⟨H1, H2, Ha, H0, H1', H2', H3', ⟨%g, %hg, H4'⟩, Hs, Hsems, ⟨%W', HO⟩⟩
  isplitl [H1 H2 Ha Hs Hsems]
  · isplitl [H1]; · iexact H1
    iframe H2 Ha Hs Hsems
  isplitl [HO]
  · iexists W'; isplitr; · ipureintro; exact fun _ _ => Or.inl trivial
    iexact HO
  isplitl [H0]; · iapply (owns_intro_whole c _ (hstage0_0 _) f0 hf0); iexact H0
  isplitl [H1']; · iapply (owns_intro_whole c _ (hstage0_1 _) f1 hf1); iexact H1'
  isplitl [H2']; · iapply (owns_intro_whole c _ (hstage0_2 _) f2 hf2); iexact H2'
  isplitl [H3']; · iapply (owns_intro_whole c _ (hstage0_3 _) f3 hf3); iexact H3'
  iexists g; isplitr; swap; · iexact H4'
  ipureintro; rw [hg]; unfold tileAt; rw [hf0, hf1, hf2, hf3]

end Cert.Proof.EdgeMlpW

end
-- ==== Proof.WLaunch.lean ====
import proofs.«421332_j47682726921127_1_alg».proof.Proof.WLaunchData

noncomputable section

namespace Cert.Proof.EdgeMlpW

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

def hostRefs : Finset (DevRef τ sig) :=
  (Finset.univ.filter fun b : Ref sig .tc => ¬ b.isScoped).map ⟨Proc.devRef (sig := sig) (.tc : Proc τ), Proc.devRef_injective _⟩

omit [FloatOps F] in

theorem held_hostRefs (c : Dev nD) (W : Valuation τ sig (Elt F)) :
    (StableHlo.held (c : Thread nD τ) hostRefs W : sProp 𝕄) = unscopedBufs c (fun b => W b) := by
  unfold StableHlo.held hostRefs unscopedBufs
  rw [bigSep_map]
  rfl

omit [FloatOps F] in

theorem bufs_sub_hostRefs (op : HloOp τ sig (Elt F)) (h : op.bufs ⊆ StableHlo.tcRefs τ sig) : op.bufs ⊆ hostRefs := fun b hb => by
  obtain ⟨r, -, rfl⟩ := Finset.mem_map.mp (h hb)
  refine Finset.mem_map.mpr ⟨r, Finset.mem_filter.mpr ⟨Finset.mem_univ _, ?_⟩, rfl⟩
  have hn := op.no_scoped _ hb
  intro hr
  exact Bool.false_ne_true (hn.symm.trans hr)

theorem hostOps0_writes : (hostOps0 (F := F)).Forall fun op =>
    op.writes ⊆ (([main_v0, main_v1] : List (Ref sig .tc)).map (Proc.devRef (τ := τ) .tc)).toFinset := by
  refine List.forall_iff_forall_mem.mpr fun op hop => ?_
  simp only [List.mem_cons, List.mem_nil_iff, or_false] at hop
  rcases hop with rfl | rfl
  · simp only [StableHlo.unary_writes]
    exact Finset.singleton_subset_iff.mpr (List.mem_toFinset.mpr (List.mem_map.mpr ⟨main_v0, by decide, rfl⟩))
  · simp only [StableHlo.unary_writes]
    exact Finset.singleton_subset_iff.mpr (List.mem_toFinset.mpr (List.mem_map.mpr ⟨main_v1, by decide, rfl⟩))

theorem V_of_not_mem (c : Dev nD) (b : Ref sig .tc) (hb : b ∉ ([main_v0, main_v1] : List (Ref sig .tc))) :
    V m c b = m ((c : Thread nD τ).loc b) :=
  StableHlo.after_of_writes_sub hostOps0 (V₀ m c) hostOps0_writes hb

abbrev EP : Emb (UR sig nD τ) (MT nD τ sig Unit (Elt F) ℕ (UU nD τ) ℕ) := embL

abbrev 𝒱₀ : Variants := Variants.none

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

def seg0 : Pipeline.HostSeg (Name := ℕ) (U := UU nD τ) (pcfgs (F := F)) defs₀ 𝒱₀ L lv :=
  Pipeline.HostSeg.ofOps _ _ _ _ _ hostRefs hostOps0 (fun op h => bufs_sub_hostRefs op ((List.forall_iff_forall_mem.mp hostOps0_sub) op h))
    (by
      intro op h
      simp only [List.mem_cons, List.mem_nil_iff, or_false] at h
      rcases h with rfl | rfl <;> rfl) (V₀ m) R

variable (hs : ∀ (c : Dev nD) (e : S65536.Idx), ((m ((c : Thread nD τ).loc main_arg1) : IVec S65536 32) e).toNat < 50000)
  (hd : ∀ (c : Dev nD) (e : S65536.Idx), ((m ((c : Thread nD τ).loc main_arg2) : IVec S65536 32) e).toNat < 50000)

theorem ownSemFacts : Pipeline.OwnSemFacts spec0 osem := by decide

theorem tabs_eq (c : Dev nD) : (fun k => V m c (pre0.ref k)) = tabs m := by
  obtain rfl : c = 0 := Subsingleton.elim _ _
  funext k
  exact V_of_not_mem m 0 (pre0.ref k) (by revert k; decide)

theorem prefHeld_tabs (c : Dev nD) :
    (Pipeline.prefHeld (Ix := Unit) (Name := ℕ) (U := UU nD τ) (Lvl := ℕ) pre0 c (fun _ => fullShare) (tabs m) : sProp 𝕄)
      = iprop(pt c (Memref.whole main_arg1) (m ((c : Thread nD τ).loc main_arg1)) ∗ pt c (Memref.whole main_arg2) (m ((c : Thread nD τ).loc main_arg2))) := by
  obtain rfl : c = 0 := Subsingleton.elim _ _
  unfold Pipeline.prefHeld
  rw [bigSep_univ_eq_bigSepL [(0 : Fin 2), 1] (by decide) (by decide)]
  rfl

def finalOut (_ρ : Dev nD → PrngReg) (c : Dev nD) : Buf (Elt F) ((c : Thread nD τ).loc main_v2) := (dats m 0 c).arrAt 4 (cfgA m).N

abbrev Tₙ (c : Dev nD) : sProp 𝕄 :=
  iprop((dats m 0 c).arrays ((dats m 0 c).arrAt · (cfgA m).N)
    ∗ pt c (Memref.whole main_arg1) (m ((c : Thread nD τ).loc main_arg1)) ∗ pt c (Memref.whole main_arg2) (m ((c : Thread nD τ).loc main_arg2))
    ∗ pt c (Memref.whole main_arg0) (m ((c : Thread nD τ).loc main_arg0))
    ∗ pt c (Memref.whole main_arg3) (m ((c : Thread nD τ).loc main_arg3)) ∗ pt c (Memref.whole main_arg5) (m ((c : Thread nD τ).loc main_arg5)))

set_option backward.isDefEq.respectTransparency.types false in

def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 64
  osem := osem
  ho := ownSemFacts
  hbody c := (body_obligation m hs hd c).loose
  hwaits := Pipeline.hwaits_of_owed_zero _ _ _ _ L lv 0 fun _ _ => rfl
  pre c := iprop(StableHlo.held (c : Thread nD τ) hostRefs (StableHlo.after hostOps0 (V₀ m c)) ∗ R c)
  post c := iprop(Tₙ m c ∗ R c)
  X c := iprop(pt c (Memref.whole main_arg0) (m ((c : Thread nD τ).loc main_arg0)) ∗ Pipeline.ownSems0 osem c)
  Y c := iprop(pt c (Memref.whole main_arg1) (m ((c : Thread nD τ).loc main_arg1)) ∗ pt c (Memref.whole main_arg2) (m ((c : Thread nD τ).loc main_arg2))
    ∗ pt c (Memref.whole main_arg0) (m ((c : Thread nD τ).loc main_arg0)))
  Z c := iprop(pt c (Memref.whole main_arg3) (m ((c : Thread nD τ).loc main_arg3)) ∗ pt c (Memref.whole main_arg5) (m ((c : Thread nD τ).loc main_arg5)))
  hentry c := by
    rw [held_hostRefs]
    have hsplit := Pipeline.arrays_of_unscopedBufs (pcfgs (F := F)) (adm m) (dats m) (launch0 (F := F)).win (launch0 (F := F)).arr_whole c
      ((dats m 0 c).share_full fun _ => rfl) (V m c) (A_eq m c)
    rw [Pipeline.unscopedRest_split (launch0 (F := F)).pre c (V m c), unscopedRestP0_eq c (V m c), tabs_eq m c,
      V_of_not_mem m c main_arg0 (by decide), V_of_not_mem m c main_arg3 (by decide), V_of_not_mem m c main_arg5 (by decide)] at hsplit
    iintro ⟨⟨Hub, HO⟩, Hos, -⟩
    ihave H := hsplit $$ Hub
    icases H with ⟨Ha, Hpf, H0, H3, H5⟩
    imodintro
    iframe Ha Hpf
    isplitl [HO]
    · unfold Pipeline.Dat.owesAt Pipeline.owesWithin
      icases HO with ⟨%W, HO⟩; iexists W; isplitr; · ipureintro; exact fun _ _ => Or.inl trivial
      iexact HO
    isplitl [H0 Hos]
    · isplitl [H0]; · iexact H0
      iexact Hos
    iframe H3 H5
  hin c := by
    rw [show (dats m 0 c).Φ 0 = Φc m c from rfl, show (adm m 0).1 = tabs m from rfl, prefHeld_tabs, scopedRest0_eq]; unfold Φc
    iintro ⟨⟨H0, Hos⟩, ⟨H1, H2⟩, Hr⟩
    iframe H1 H2 H0 Hr Hos
  hout c := by
    rw [show (dats m 0 c).Φ (Fin.last (cfgA m).N) = Φc m c from rfl, scopedRest0_eq]; unfold Φc
    iintro ⟨H1, H2, H0, Hr, Hos⟩
    isplitl [H1 H2 H0]
    · isplitl [H1]; · iexact H1
      iframe H2 H0
    iframe Hos Hr
  hexit c := by
    iintro ⟨Ha, HO, ⟨H1, H2, H0⟩, ⟨H3, H5⟩⟩
    imodintro
    isplitr [HO]
    · isplitl [Ha]; · iexact Ha
      iframe H1 H2 H0 H3 H5
    · unfold Pipeline.Dat.owesAt Pipeline.owesWithin
      icases HO with ⟨%W, -, HO⟩; iexists W; iexact HO

abbrev segs : List (Pipeline.Seg (pcfgs (F := F)) (adm m) (dats m) () defs₀ 𝒱₀ L lv) := [.host (seg0 m), .region (reg0 m hs hd)]

def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

include hs hd in
set_option backward.isDefEq.respectTransparency.types false in

theorem run_main : θ_run (defs (F := F)) (onTc (τ := τ) (main (F := F))) ⟨m, fun _ => 0, ρ⟩ (fun r => ∀ c : Dev nD,
      r.2.mem ((c.tc : Thread nD τ).loc main_v2) = finalOut m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) (adm m) (dats m) () (cellOf_inj (adm m)) EP defs₀ 𝒱₀ L lv m ρ main (segs m hs hd)
    (fun c Q => by rw [main_segs (adm m) (dats m) () 𝒱₀ L lv (seg0 m) (reg0 m hs hd) rfl c])
    (by simp only [Pipeline.Seg.pipes_host, Pipeline.Seg.pipes_region, Pipeline.Seg.pipes_nil]; decide) (O₀ := 0) (hL := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) hostRefs (V₀ m c) from (held_hostRefs c (V₀ m c)).symm]
      iintro ⟨⟨Hh, -, HO, -, -, -⟩, -⟩
      imodintro
      isplitl [Hh]; · iexact Hh
      iexists ∅; iexact HO)
    (QY := fun c s => s.mem ((c.tc : Thread nD τ).loc main_v2) = finalOut m ρ c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => by
      iintro ⟨⟨Ha, H1, H2, H0, H3, H5⟩, HSI⟩
      icombine HSI H1 gives %h1
      icombine HSI H2 gives %h2
      icombine HSI H0 gives %h0
      icombine HSI H3 gives %h3
      icombine HSI H5 gives %h5
      ihave Hr := (Pipeline.arrays_read (pcfgs (F := F)) (adm m) (dats m) (launch0 (F := F)).arr_whole c ((dats m 0 c).share_full fun _ => rfl) _ s') $$ [Ha HSI]
      · isplitl [Ha] <;> iassumption
      icases Hr with ⟨%ha, HSI⟩
      imodintro
      isplitr; swap; · iexact HSI
      ipureintro
      exact ⟨ha 4, Buf.eq_of_forall_mem_univ h0, Buf.eq_of_forall_mem_univ h1, Buf.eq_of_forall_mem_univ h2, Buf.eq_of_forall_mem_univ h3,
        (ha 1).trans ((((dats m 0 c).arrAt_in 1 rfl _).trans (A_eq m c 1)).trans (V_of_not_mem m c main_arg4 (by decide))),
        Buf.eq_of_forall_mem_univ h5,
        (ha 3).trans ((((dats m 0 c).arrAt_in 3 rfl _).trans (A_eq m c 3)).trans (V_of_not_mem m c main_arg6 (by decide)))⟩)
    (hQ := fun _ h => h)

end Cert.Proof.EdgeMlpW

end
-- ==== Proof.Spec.lean ====
import Idealize.ShloMosaic.PureOps.Ideal
import Idealize.ShloMosaic.Lib.ValueIdx

noncomputable section

open scoped BigOperators

namespace Cert.Proof.EdgeMlp

open Idealize.ShloMosaic Idealize.ShloMosaic.ValueIdx

def nodeRow (w : BitVec 32) : Fin 50000 := ⟨min w.toNat 49999, by omega⟩

theorem nodeRow_val_of_lt {w : BitVec 32} (h : w.toNat < 50000) : (nodeRow w).val = w.toNat := by
  show min w.toNat 49999 = w.toNat; omega

def feat (nf : (⟨2, ![50000, 1024]⟩ : Shape).Idx → EReal) (src dst : (⟨1, ![65536]⟩ : Shape).Idx → BitVec 32)
    (e : Fin 65536) (q : Fin 2048) : EReal :=
  if h : q.val < 1024 then nf (ix2 (nodeRow (src (ix1 e))) ⟨q.val, h⟩)
  else nf (ix2 (nodeRow (dst (ix1 e))) ⟨q.val - 1024, by have := q.isLt; omega⟩)

def hid (nf : (⟨2, ![50000, 1024]⟩ : Shape).Idx → EReal) (src dst : (⟨1, ![65536]⟩ : Shape).Idx → BitVec 32)
    (W1 : (⟨2, ![2048, 1024]⟩ : Shape).Idx → EReal) (b1 : (⟨1, ![1024]⟩ : Shape).Idx → EReal)
    (e : Fin 65536) (k : Fin 1024) : EReal :=
  max ((∑ q : Fin 2048, feat nf src dst e q * W1 (ix2 q k)) + b1 (ix1 k)) 0

def entry (nf : (⟨2, ![50000, 1024]⟩ : Shape).Idx → EReal) (src dst : (⟨1, ![65536]⟩ : Shape).Idx → BitVec 32)
    (W1 : (⟨2, ![2048, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (e : Fin 65536) (j : Fin 1024) : EReal :=
  (∑ k : Fin 1024, hid nf src dst W1 b1 e k * W2 (ix2 k j)) + b2 (ix1 j)

def edgeMlp (nf : (⟨2, ![50000, 1024]⟩ : Shape).Idx → EReal) (src dst : (⟨1, ![65536]⟩ : Shape).Idx → BitVec 32)
    (W1 : (⟨2, ![2048, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal) :
    (⟨2, ![65536, 1024]⟩ : Shape).Idx → EReal :=
  fun i => entry nf src dst W1 b1 W2 b2 (i 0) (i 1)

theorem edgeMlp_apply (nf : (⟨2, ![50000, 1024]⟩ : Shape).Idx → EReal) (src dst : (⟨1, ![65536]⟩ : Shape).Idx → BitVec 32)
    (W1 : (⟨2, ![2048, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (e : Fin 65536) (j : Fin 1024) :
    edgeMlp nf src dst W1 b1 W2 b2 (ix2 e j) = entry nf src dst W1 b1 W2 b2 e j := rfl

end Cert.Proof.EdgeMlp

end
-- ==== Proof.TileValue.lean ====
import proofs.«421332_j47682726921127_1_alg».proof.Proof.Tile
import proofs.«421332_j47682726921127_1_alg».proof.Proof.Spec
import Idealize.ShloMosaic.Lib.ValueLayout
import Idealize.ShloMosaic.PureOps.Ideal.Laws

noncomputable section

open scoped BigOperators

namespace Cert.Proof.EdgeMlp

open Cert.KernelIdeal Cert.KernelIdeal.Gen
open Idealize.ShloMosaic Idealize.ShloMosaic.ValueIdx

theorem lhs_first_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_first_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_first_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_first_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

theorem matmul_first_apply (x : FVec Ideal S256x2048 .bf16) (w : FVec Ideal S2048x1024 .bf16) (r : Fin 256) (k : Fin 1024) :
    matmul (F := Ideal) dot_S256x2048_S2048x1024_S256x1024_1_0_0_1_n_n none x w (constant (F := Ideal) S256x1024 .f32 0x00000000#32) (ix2 r k)
      = ∑ q : Fin 2048, x (ix2 r q) * w (ix2 q k) := by
  simp only [matmul]
  rw [Ideal.matmul_constant_zero_apply, ← Equiv.sum_comp (contrEquiv1 dot_S256x2048_S2048x1024_S256x1024_1_0_0_1_n_n 2048 rfl rfl).symm]
  refine Finset.sum_congr rfl fun q _ => ?_
  have hq := contrEquiv1_symm_val dot_S256x2048_S2048x1024_S256x1024_1_0_0_1_n_n 2048 rfl rfl q
  have el : dot_S256x2048_S2048x1024_S256x1024_1_0_0_1_n_n.lhsIdx (ix2 r k) ((contrEquiv1 dot_S256x2048_S2048x1024_S256x1024_1_0_0_1_n_n 2048 rfl rfl).symm q) = ix2 r q := funext fun a => Fin.ext (by
    match a with
    | ⟨0, _⟩ => exact lhs_first_0 _ _
    | ⟨1, _⟩ => exact (lhs_first_1 _ _).trans hq)
  have er : dot_S256x2048_S2048x1024_S256x1024_1_0_0_1_n_n.rhsIdx (ix2 r k) ((contrEquiv1 dot_S256x2048_S2048x1024_S256x1024_1_0_0_1_n_n 2048 rfl rfl).symm q) = ix2 q k := funext fun a => Fin.ext (by
    match a with
    | ⟨0, _⟩ => exact (rhs_first_0 _ _).trans hq
    | ⟨1, _⟩ => exact rhs_first_1 _ _)
  rw [el, er]

theorem lhs_second_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_second_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_second_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_second_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

theorem matmul_second_apply (x : FVec Ideal S256x1024 .bf16) (w : FVec Ideal S1024x1024 .bf16) (r : Fin 256) (j : Fin 1024) :
    matmul (F := Ideal) dot_S256x1024_S1024x1024_S256x1024_1_0_0_1_n_n none x w (constant (F := Ideal) S256x1024 .f32 0x00000000#32) (ix2 r j)
      = ∑ k : Fin 1024, x (ix2 r k) * w (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r j) ((contrEquiv1 dot_S256x1024_S1024x1024_S256x1024_1_0_0_1_n_n 1024 rfl rfl).symm k) = ix2 r k := funext fun a => Fin.ext (by
    match a with
    | ⟨0, _⟩ => exact lhs_second_0 _ _
    | ⟨1, _⟩ => exact (lhs_second_1 _ _).trans hk)
  have er : dot_S256x1024_S1024x1024_S256x1024_1_0_0_1_n_n.rhsIdx (ix2 r j) ((contrEquiv1 dot_S256x1024_S1024x1024_S256x1024_1_0_0_1_n_n 1024 rfl rfl).symm k) = ix2 k j := funext fun a => Fin.ext (by
    match a with
    | ⟨0, _⟩ => exact (rhs_second_0 _ _).trans hk
    | ⟨1, _⟩ => exact rhs_second_1 _ _)
  rw [el, er]

theorem biasRows_apply (b : FVec Ideal S1024 .f32) (r : Fin 256) (c : Fin 1024) :
    broadcastTo S256x1024 (shapeCast S1x1024 b shapeCasts_S1024_S1x1024) broadcasts_S1x1024_S256x1024 (ix2 r c) = b (ix1 c) :=
  (broadcastTo_1b_ab_apply _ broadcasts_S1x1024_S256x1024 r c).trans (shapeCast_a_1a_apply b shapeCasts_S1024_S1x1024 0 c)

theorem pay2_apply (x : FVec Ideal S256x2048 .f32) (w : FVec Ideal S2048x1024 .bf16) (b : FVec Ideal S1024 .f32) (r : Fin 256) (k : Fin 1024) :
    k0_pay2 (F := Ideal) x w b (ix2 r k) = max ((∑ q : Fin 2048, x (ix2 r q) * w (ix2 q k)) + b (ix1 k)) 0 := by
  unfold k0_pay2
  rw [shapeCast_self]
  show max (matmul (F := Ideal) dot_S256x2048_S2048x1024_S256x1024_1_0_0_1_n_n none (truncf .bf16 x bitsLt_bf16_f32) w (constant (F := Ideal) S256x1024 .f32 0x00000000#32) (ix2 r k)
      + broadcastTo S256x1024 (shapeCast S1x1024 b shapeCasts_S1024_S1x1024) broadcasts_S1x1024_S256x1024 (ix2 r k)) (Ideal.ofBits .f32 0x00000000#32) = _
  rw [matmul_first_apply, biasRows_apply, Ideal.ofBits_zero_f32]
  rfl

theorem pay1_apply (h : FVec Ideal S256x1024 .bf16) (w : FVec Ideal S1024x1024 .bf16) (b : FVec Ideal S1024 .f32) (r : Fin 256) (j : Fin 1024) :
    k0_pay1 (F := Ideal) h w b (ix2 r j) = (∑ k : Fin 1024, h (ix2 r k) * w (ix2 k j)) + b (ix1 j) := by
  unfold k0_pay1
  rw [shapeCast_self]
  show matmul (F := Ideal) dot_S256x1024_S1024x1024_S256x1024_1_0_0_1_n_n none h w (constant (F := Ideal) S256x1024 .f32 0x00000000#32) (ix2 r j)
      + broadcastTo S256x1024 (shapeCast S1x1024 b shapeCasts_S1024_S1x1024) broadcasts_S1x1024_S256x1024 (ix2 r j) = _
  rw [matmul_second_apply, biasRows_apply]

theorem rowOf_eq_nodeRow (w : BitVec 32) : rowOf w = nodeRow w := rfl

theorem gathered_apply (src dst : IVec S65536 32) (nf : Vec Ideal S50000x1024 .f32) (t : Fin 256) (r : Fin 256) (q : Fin 2048) :
    gathered (F := Ideal) src dst nf t (ix2 r q) = feat nf src dst (edgeOf t r) q := rfl

theorem outTile_apply (src dst : IVec S65536 32) (nf : Vec Ideal S50000x1024 .f32) (t : Fin 256)
    (W1 : FVec Ideal S2048x1024 .f32) (b1 : FVec Ideal S1024 .f32) (W2 : FVec Ideal S1024x1024 .f32) (b2 : FVec Ideal S1024 .f32)
    (r : Fin 256) (j : Fin 1024) :
    outTile (F := Ideal) src dst nf t (truncf .bf16 W1 bitsLt_bf16_f32) b1 (truncf .bf16 W2 bitsLt_bf16_f32) b2 (ix2 r j)
      = edgeMlp nf src dst W1 b1 W2 b2 (ix2 (edgeOf t r) j) := by
  unfold outTile
  rw [pay1_apply, edgeMlp_apply]
  unfold entry
  refine congrArg (· + b2 (ix1 j)) (Finset.sum_congr rfl fun k _ => ?_)
  rw [pay2_apply]
  unfold hid
  refine congrArg (fun s => max (s + b1 (ix1 k)) 0 * W2 (ix2 k j)) (Finset.sum_congr rfl fun q _ => ?_)
  rw [gathered_apply]
  rfl

end Cert.Proof.EdgeMlp

end
-- ==== Proof.LibGraphRead.lean ====
import Idealize.ShloMosaic.PureOps.Ideal
import Idealize.ShloMosaic.Lib.ValueIdx
import Idealize.ShloMosaic.Lib.StableHlo.Predicate

noncomputable section

namespace Cert.GcnLib

open Idealize.ShloMosaic Idealize.ShloMosaic.ValueIdx

def clampRow (N : ℕ) (hN : 0 < N) (w : BitVec 32) : Fin N := ⟨min w.toInt.toNat (N - 1), by omega⟩

theorem gather_rows_apply {α : Type} {N n C : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ 32) (e : Fin n) (j : Fin C) :
    Host.gather d x idx (ix2 e j) = x (ix2 (clampRow N hN (idx (ix2 e 0))) j) := by
  unfold Host.gather
  congr 1
  funext a
  apply Fin.ext
  have hb : ∀ a, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ix2 e 0)).toInt.toNat (N - 1)
    rw [GatherDims.batchCoord_eq_zero _ _ _ (hb _), GatherDims.offCoord_eq_zero _ _ _ hk]
    simp only [Nat.add_zero]
    unfold GatherDims.start
    rw [dif_pos hm]
    have hsi : d.siIdx (ix2 e j) ⟨List.idxOf (0 : Fin 2) d.startIndexMap, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        have hX : ∀ X : Fin 2, X ∈ d.batchDims → ((ix2 e j : (⟨2, ![n, C]⟩ : Shape).Idx) X).val = e.val := by
          intro X hX
          have h1 : X ∉ d.offsetDims := by simpa [GatherDims.batchDims, Shape.kept] using hX
          rw [hoff] at h1
          match X, h1 with
          | ⟨0, _⟩, _ => rfl
          | ⟨1, _⟩, h => exact absurd (List.mem_singleton.mpr rfl) h
        exact hX _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
    show min (idx (ix2 e 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb _)]
    unfold GatherDims.start
    rw [dif_neg hm]
    unfold GatherDims.offCoord
    rw [dif_pos hk]
    simp only [Nat.zero_add, Nat.add_zero]
    have hl : ∀ (l : List (Fin 2)) (_ : l = [1]) (k : ℕ) (hk : k < l.length), l[k] = 1 := by
      intro l hl k hk; subst hl
      simp only [List.length_singleton, Nat.lt_one_iff] at hk
      subst hk; rfl
    rw [hl d.offsetDims hoff]

def wrapWord (N : BitVec 32) (w : BitVec 32) : BitVec 32 :=
  Scalar.select (Scalar.cmpi .slt w 0#32) (IntOp.addi w N) w

theorem clampRow_wrapWord_of_lands {N : ℕ} (hN : 0 < N) (hN31 : N < 2 ^ 31) (w : BitVec 32) (v : Fin N)
    (h : w.toInt = (v.val : Int)) : clampRow N hN (wrapWord (BitVec.ofNat 32 N) w) = v := by
  have hslt : w.slt 0#32 = false := by
    simp [BitVec.slt, h]
  have hw : wrapWord (BitVec.ofNat 32 N) w = w := by
    unfold wrapWord Scalar.cmpi IntOp.cmpi
    simp only [hslt]
    exact select_zero _ _
  rw [hw]
  apply Fin.ext
  show min w.toInt.toNat (N - 1) = v.val
  rw [h]
  have := v.isLt
  simp only [Int.toNat_natCast]
  omega

end Cert.GcnLib

end
-- ==== Proof.RefValue.lean ====
import proofs.«421332_j47682726921127_1_alg».proof.Proof.Gen.ReferenceIdeal.Run
import proofs.«421332_j47682726921127_1_alg».proof.Proof.Gen.ReferenceIdeal.Read
import proofs.«421332_j47682726921127_1_alg».proof.Proof.Spec
import proofs.«421332_j47682726921127_1_alg».proof.Proof.LibGraphRead

noncomputable section

open scoped BigOperators

namespace Cert.Proof.EdgeMlp.Ref

open Cert.ReferenceIdeal Cert.ReferenceIdeal.Gen Cert.ReferenceIdeal.Read
open Idealize.ShloMosaic Idealize.ShloMosaic.ValueIdx
open Cert.GcnLib Cert.Proof.EdgeMlp

theorem wrapped_src (x : (⟨S65536, .i32⟩ : BufTy).Contents (Elt Ideal)) (e : Fin 65536) :
    val_main_v5 (F := Ideal) x (ix2 e (0 : Fin 1)) = wrapWord 50000#32 (x (ix1 e)) := by
  have hi : idx_main_v5 (ix2 e (0 : Fin 1)) = ix1 e := funext fun a => Fin.ext (by match a with | ⟨0, _⟩ => rfl)
  rw [val_main_v5_apply, hi, val_main_v4_apply, val_main_v1_apply, val_main_v3_apply, val_main_v0_apply, val_main_c_apply,
    val_main_v2_apply, val_main_c_0_apply]
  rfl

theorem wrapped_dst (x : (⟨S65536, .i32⟩ : BufTy).Contents (Elt Ideal)) (e : Fin 65536) :
    val_main_v12 (F := Ideal) x (ix2 e (0 : Fin 1)) = wrapWord 50000#32 (x (ix1 e)) := by
  have hi : idx_main_v12 (ix2 e (0 : Fin 1)) = ix1 e := funext fun a => Fin.ext (by match a with | ⟨0, _⟩ => rfl)
  rw [val_main_v12_apply, hi, val_main_v11_apply, val_main_v8_apply, val_main_v10_apply, val_main_v7_apply, val_main_c_1_apply,
    val_main_v9_apply, val_main_c_2_apply]
  rfl

theorem clampRow_wrapWord_of_lt (w : BitVec 32) (h : w.toNat < 50000) :
    clampRow 50000 (by decide) (wrapWord 50000#32 w) = nodeRow w := by
  have hv : w.toInt = (((⟨w.toNat, h⟩ : Fin 50000)).val : Int) := by
    show w.toInt = (w.toNat : Int)
    rw [BitVec.toInt_eq_toNat_cond, if_pos (by omega)]
  rw [clampRow_wrapWord_of_lands (by decide) (by decide) w ⟨w.toNat, h⟩ hv]
  exact Fin.ext (nodeRow_val_of_lt h).symm

theorem srcRows_apply (nf : (⟨S50000x1024, .f32⟩ : BufTy).Contents (Elt Ideal)) (src : (⟨S65536, .i32⟩ : BufTy).Contents (Elt Ideal))
    (e : Fin 65536) (hs : (src (ix1 e)).toNat < 50000) (c : Fin 1024) :
    val_main_v6 (F := Ideal) nf src (ix2 e c) = nf (ix2 (nodeRow (src (ix1 e))) c) := by
  unfold val_main_v6
  rw [gather_rows_apply (by decide : 0 < 50000) gather_S50000x1024_S65536x1_S65536x1024_1_0_n_n_0_1_11024 rfl rfl rfl rfl rfl rfl rfl,
    wrapped_src, clampRow_wrapWord_of_lt _ hs]

theorem dstRows_apply (nf : (⟨S50000x1024, .f32⟩ : BufTy).Contents (Elt Ideal)) (dst : (⟨S65536, .i32⟩ : BufTy).Contents (Elt Ideal))
    (e : Fin 65536) (hd : (dst (ix1 e)).toNat < 50000) (c : Fin 1024) :
    val_main_v13 (F := Ideal) nf dst (ix2 e c) = nf (ix2 (nodeRow (dst (ix1 e))) c) := by
  unfold val_main_v13
  rw [gather_rows_apply (by decide : 0 < 50000) gather_S50000x1024_S65536x1_S65536x1024_1_0_n_n_0_1_11024 rfl rfl rfl rfl rfl rfl rfl,
    wrapped_dst, clampRow_wrapWord_of_lt _ hd]

theorem feat_ref (nf : (⟨S50000x1024, .f32⟩ : BufTy).Contents (Elt Ideal)) (src dst : (⟨S65536, .i32⟩ : BufTy).Contents (Elt Ideal))
    (hs : ∀ e, (src e).toNat < 50000) (hd : ∀ e, (dst e).toNat < 50000) (e : Fin 65536) (q : Fin 2048) :
    val_main_v14 (F := Ideal) nf src dst (ix2 e q) = feat nf src dst e q := by
  unfold val_main_v14 feat
  by_cases h : q.val < 1024
  · rw [dif_pos h]
    refine (concatenate_pair_apply_left _ _ _ concatenates_S65536x1024_S65536x1024_S65536x2048_d1 (ix2 e q) rfl
      (ix2 e (⟨q.val, h⟩ : Fin 1024)) (fun b => ?_)).trans (srcRows_apply nf src e (hs _) _)
    match b with
    | ⟨0, _⟩ => rfl
    | ⟨1, _⟩ => rfl
  · rw [dif_neg h]
    refine (concatenate_pair_apply_right _ _ _ concatenates_S65536x1024_S65536x1024_S65536x2048_d1 (ix2 e q) rfl rfl
      (ix2 e (⟨q.val - 1024, by have := q.isLt; omega⟩ : Fin 1024)) (fun b hb => ?_) ?_).trans (dstRows_apply nf dst e (hd _) _)
    · match b, hb with
      | ⟨0, _⟩, _ => rfl
      | ⟨1, _⟩, hb => exact absurd rfl hb
    · show (q.val - 1024) + 1024 = q.val
      omega

theorem hid_ref (nf : (⟨S50000x1024, .f32⟩ : BufTy).Contents (Elt Ideal)) (src dst : (⟨S65536, .i32⟩ : BufTy).Contents (Elt Ideal))
    (W1 : (⟨S2048x1024, .f32⟩ : BufTy).Contents (Elt Ideal)) (b1 : (⟨S1024, .f32⟩ : BufTy).Contents (Elt Ideal))
    (hs : ∀ e, (src e).toNat < 50000) (hd : ∀ e, (dst e).toNat < 50000) (e : Fin 65536) (k : Fin 1024) :
    val_main_v19 (F := Ideal) nf src dst W1 b1 (ix2 e k) = hid nf src dst W1 b1 e k := by
  have hl : ∀ q, lidx_main_v15 (ix2 e k) q = ix2 e q := fun q => funext fun a => Fin.ext (by
    match a with | ⟨0, _⟩ => rfl | ⟨1, _⟩ => rfl)
  have hr : ∀ q, ridx_main_v15 (ix2 e k) q = ix2 q k := fun q => funext fun a => Fin.ext (by
    match a with | ⟨0, _⟩ => rfl | ⟨1, _⟩ => rfl)
  have hb : idx_main_v16 (idx_main_v17 (ix2 e k)) = ix1 k := funext fun a => Fin.ext (by
    match a with | ⟨0, _⟩ => rfl)
  rw [val_main_v19_apply, val_main_v18_apply, val_main_v15_apply, val_main_v17_apply, val_main_v16_apply, val_main_call0_v0_apply,
    val_main_call0_cst_apply]
  simp only [hl, hr, hb, feat_ref nf src dst hs hd]
  show max ((∑ q : Fin 2048, feat nf src dst e q * W1 (ix2 q k)) + b1 (ix1 k)) (Ideal.ofBits .f32 0x00000000#32) = _
  rw [Ideal.ofBits_zero_f32]
  rfl

theorem ref_eq (nf : (⟨S50000x1024, .f32⟩ : BufTy).Contents (Elt Ideal)) (src dst : (⟨S65536, .i32⟩ : BufTy).Contents (Elt Ideal))
    (W1 : (⟨S2048x1024, .f32⟩ : BufTy).Contents (Elt Ideal)) (b1 : (⟨S1024, .f32⟩ : BufTy).Contents (Elt Ideal))
    (W2 : (⟨S1024x1024, .f32⟩ : BufTy).Contents (Elt Ideal)) (b2 : (⟨S1024, .f32⟩ : BufTy).Contents (Elt Ideal))
    (hs : ∀ e, (src e).toNat < 50000) (hd : ∀ e, (dst e).toNat < 50000) :
    val_main_v23 (F := Ideal) nf src dst W1 b1 W2 b2 = edgeMlp nf src dst W1 b1 W2 b2 := by
  funext i
  obtain ⟨e, j, rfl⟩ : ∃ (e : Fin 65536) (j : Fin 1024), i = ix2 e j := ⟨i 0, i 1, eq_ix2 i⟩
  have hl : ∀ k, lidx_main_v20 (ix2 e j) k = ix2 e k := fun k => funext fun a => Fin.ext (by
    match a with | ⟨0, _⟩ => rfl | ⟨1, _⟩ => rfl)
  have hr : ∀ k, ridx_main_v20 (ix2 e j) k = ix2 k j := fun k => funext fun a => Fin.ext (by
    match a with | ⟨0, _⟩ => rfl | ⟨1, _⟩ => rfl)
  have hb : idx_main_v21 (idx_main_v22 (ix2 e j)) = ix1 j := funext fun a => Fin.ext (by
    match a with | ⟨0, _⟩ => rfl)
  rw [val_main_v23_apply, val_main_v20_apply, val_main_v22_apply, val_main_v21_apply, edgeMlp_apply]
  simp only [hl, hr, hb, hid_ref nf src dst W1 b1 hs hd]
  rfl

end Cert.Proof.EdgeMlp.Ref

end
-- ==== Proof.lean ====
import proofs.«421332_j47682726921127_1_alg».proof.Defs
import proofs.«421332_j47682726921127_1_alg».proof.Proof.Gen.Kernel
import proofs.«421332_j47682726921127_1_alg».proof.Proof.Gen.KernelIdeal
import proofs.«421332_j47682726921127_1_alg».proof.Proof.Gen.ReferenceIdeal
import proofs.«421332_j47682726921127_1_alg».proof.Proof.Gen.Pre_finite_inputs
import proofs.«421332_j47682726921127_1_alg».proof.Proof.Range
import proofs.«421332_j47682726921127_1_alg».proof.Proof.Launch
import proofs.«421332_j47682726921127_1_alg».proof.Proof.LaunchValue
import proofs.«421332_j47682726921127_1_alg».proof.Proof.WLaunch
import proofs.«421332_j47682726921127_1_alg».proof.Proof.TileValue
import proofs.«421332_j47682726921127_1_alg».proof.Proof.RefValue

noncomputable section

namespace Cert.Proof

open Idealize.ShloMosaic Idealize.ShloMosaic.TcCoe Idealize.SL.Sem

theorem srcK (m : (ℓ : Loc Cert.Kernel.nD Cert.Kernel.τ Cert.Kernel.sig) → Buf (Elt Bits) ℓ) (h : Cert.Pre_Kernel m) (c : Dev Cert.Kernel.nD) :
    ∀ e, ((m ((c.tc : Thread Cert.Kernel.nD Cert.Kernel.τ).loc Cert.Kernel.main_arg1) : IVec Cert.Kernel.S65536 32) e).toNat < 50000 :=
  Cert.Proof.Range.src_lt (F := Bits) _ _ _ _ _ _ _ (h c)
theorem dstK (m : (ℓ : Loc Cert.Kernel.nD Cert.Kernel.τ Cert.Kernel.sig) → Buf (Elt Bits) ℓ) (h : Cert.Pre_Kernel m) (c : Dev Cert.Kernel.nD) :
    ∀ e, ((m ((c.tc : Thread Cert.Kernel.nD Cert.Kernel.τ).loc Cert.Kernel.main_arg2) : IVec Cert.Kernel.S65536 32) e).toNat < 50000 :=
  Cert.Proof.Range.dst_lt (F := Bits) _ _ _ _ _ _ _ (h c)
theorem srcKI (m : (ℓ : Loc Cert.KernelIdeal.nD Cert.KernelIdeal.τ Cert.KernelIdeal.sig) → Buf (Elt Ideal) ℓ) (h : Cert.Pre_KernelIdeal m) (c : Dev Cert.KernelIdeal.nD) :
    ∀ e, ((m ((c.tc : Thread Cert.KernelIdeal.nD Cert.KernelIdeal.τ).loc Cert.KernelIdeal.main_arg1) : IVec Cert.KernelIdeal.S65536 32) e).toNat < 50000 :=
  Cert.Proof.Range.src_lt (F := Ideal) _ _ _ _ _ _ _ (h c)
theorem dstKI (m : (ℓ : Loc Cert.KernelIdeal.nD Cert.KernelIdeal.τ Cert.KernelIdeal.sig) → Buf (Elt Ideal) ℓ) (h : Cert.Pre_KernelIdeal m) (c : Dev Cert.KernelIdeal.nD) :
    ∀ e, ((m ((c.tc : Thread Cert.KernelIdeal.nD Cert.KernelIdeal.τ).loc Cert.KernelIdeal.main_arg2) : IVec Cert.KernelIdeal.S65536 32) e).toNat < 50000 :=
  Cert.Proof.Range.dst_lt (F := Ideal) _ _ _ _ _ _ _ (h c)

theorem frame_p : Cert.frame_Kernel := fun m ρ hpre =>
  (θ_run Cert.Kernel.defs _ _).mono (fun _ h c => (h c).2)
    (Cert.Proof.EdgeMlpW.run_main (F := Bits) m ρ (fun c => srcK m hpre c) (fun c => dstK m hpre c))

theorem frame_pi : Cert.frame_KernelIdeal := fun m ρ hpre =>
  (θ_run Cert.KernelIdeal.defs _ _).mono (fun _ h c => (h c).2)
    (Cert.Proof.EdgeMlp.run_main (F := Ideal) m ρ (fun c => srcKI m hpre c) (fun c => dstKI m hpre c))

theorem frame_ri : Cert.frame_ReferenceIdeal := fun m ρ _ =>
  (θ_run Cert.ReferenceIdeal.defs _ _).mono (fun _ h c => (h c).2) (Cert.ReferenceIdeal.Value.run (F := Ideal) m ρ)

theorem kernel_result (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.Proof.EdgeMlp.finalOut (F := Ideal) m ρ c
      = Cert.Proof.EdgeMlp.edgeMlp (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  funext y
  obtain ⟨e, j, rfl⟩ : ∃ (e : Fin 65536) (j : Fin 1024), y = ValueIdx.ix2 e j := ⟨y 0, y 1, ValueIdx.eq_ix2 y⟩
  rw [Cert.Proof.EdgeMlp.finalOut_apply, Cert.Proof.EdgeMlp.outTile_apply]
  refine congrArg _ (congrArg (fun e' => ValueIdx.ix2 e' j) (Fin.ext ?_))
  show 256 * (e.val / 256) + e.val % 256 = e.val
  exact Nat.div_add_mod _ _

theorem algebraic : Cert.algebraic_KernelIdeal_ReferenceIdeal := by
  intro m ρ m' ρ' hpre hagree
  refine ⟨fun c => Cert.Proof.EdgeMlp.finalOut (F := Ideal) m ρ c,
    Cert.Proof.EdgeMlp.run_main (F := Ideal) m ρ (fun c => srcKI m hpre c) (fun c => dstKI m hpre c), ?_⟩
  refine (θ_run Cert.ReferenceIdeal.defs _ _).mono (fun r h c => ⟨(h c).1.trans ?_, (h c).2⟩)
    (Cert.ReferenceIdeal.Value.run (F := Ideal) m' ρ')
  show _ = Cert.Proof.EdgeMlp.finalOut (F := Ideal) m ρ c
  rw [kernel_result m ρ c]
  refine (Cert.ReferenceIdeal.Read.val_main_v23_eq (F := Ideal) _ _ _ _ _ _ _).trans ?_
  rw [(hagree c).1, (hagree c).2.1, (hagree c).2.2.1, (hagree c).2.2.2.1, (hagree c).2.2.2.2.1, (hagree c).2.2.2.2.2.1, (hagree c).2.2.2.2.2.2]
  exact Cert.Proof.EdgeMlp.Ref.ref_eq _ _ _ _ _ _ _ (srcKI m hpre c) (dstKI m hpre c)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
